-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S131072 : Shape := ⟨1, ![131072]⟩
abbrev S512x256 : Shape := ⟨2, ![512, 256]⟩
abbrev S256x128 : Shape := ⟨2, ![256, 128]⟩
abbrev S128x64 : Shape := ⟨2, ![128, 64]⟩
abbrev S64x128 : Shape := ⟨2, ![64, 128]⟩
abbrev S128x256 : Shape := ⟨2, ![128, 256]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S131072 : S_.BroadcastsInDim S131072 (![] : Fin 0 → Fin S131072.rank)
  reducesTo_S131072_S_d0 : S131072.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_

variable [Facts]

def fn_part3 {F : FTy → Type} [FloatOps F] (main_v45 : IVec S_ 1) (main_v50 : IVec S131072 1) : IVec S_ 1 :=
  let main_c_19 : IVec S_ 1 := constantI S_ 1 1#1
  let main_v51 : IVec S_ 1 := (fun x v => Host.reduce IntOp.andi x v reducesTo_S131072_S_d0 h_S_) main_v50 main_c_19
  let main_v52 : IVec S_ 1 := andi main_v45 main_v51
  main_v52

def fn_part2 {F : FTy → Type} [FloatOps F] (main_arg1 : IVec S131072 32) (main_arg2 : IVec S131072 32) (main_arg9 : FVec F S256x512 .f32) (main_v33 : IVec S_ 1) : IVec S_ 1 :=
  let main_v34 : FVec F S256x512 .f32 := Host.absf main_arg9
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_c_14 : IVec S_ 32 := constantI S_ 32 0#32
  let main_v39 : IVec S131072 32 := broadcastInDim S131072 ![] bcast_S_S131072 main_c_14
  let main_v40 : IVec S131072 1 := cmpi .sge main_arg1 main_v39
  let main_c_15 : IVec S_ 32 := constantI S_ 32 8192#32
  let main_v41 : IVec S131072 32 := broadcastInDim S131072 ![] bcast_S_S131072 main_c_15
  let main_v42 : IVec S131072 1 := cmpi .slt main_arg1 main_v41
  let main_v43 : IVec S131072 1 := andi main_v40 main_v42
  let main_c_16 : IVec S_ 1 := constantI S_ 1 1#1
  let main_v44 : IVec S_ 1 := (fun x v => Host.reduce IntOp.andi x v reducesTo_S131072_S_d0 h_S_) main_v43 main_c_16
  let main_v45 : IVec S_ 1 := andi main_v38 main_v44
  let main_c_17 : IVec S_ 32 := constantI S_ 32 0#32
  let main_v46 : IVec S131072 32 := broadcastInDim S131072 ![] bcast_S_S131072 main_c_17
  let main_v47 : IVec S131072 1 := cmpi .sge main_arg2 main_v46
  let main_c_18 : IVec S_ 32 := constantI S_ 32 8192#32
  let main_v48 : IVec S131072 32 := broadcastInDim S131072 ![] bcast_S_S131072 main_c_18
  let main_v49 : IVec S131072 1 := cmpi .slt main_arg2 main_v48
  let main_v50 : IVec S131072 1 := andi main_v47 main_v49
  fn_part3 (F := F) main_v45 main_v50

def fn_part1 {F : FTy → Type} [FloatOps F] (main_arg1 : IVec S131072 32) (main_arg2 : IVec S131072 32) (main_arg6 : FVec F S128x64 .f32) (main_arg7 : FVec F S64x128 .f32) (main_arg8 : FVec F S128x256 .f32) (main_arg9 : FVec F S256x512 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg1 main_arg2 main_arg9 main_v33

def fn {F : FTy → Type} [FloatOps F] (main_arg0 : FVec F S8192x512 .f32) (main_arg1 : IVec S131072 32) (main_arg2 : IVec S131072 32) (main_arg3 : FVec F S131072 .f32) (main_arg4 : FVec F S512x256 .f32) (main_arg5 : FVec F S256x128 .f32) (main_arg6 : FVec F S128x64 .f32) (main_arg7 : FVec F S64x128 .f32) (main_arg8 : FVec F S128x256 .f32) (main_arg9 : FVec F S256x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S131072 .f32 := Host.absf main_arg3
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg6 main_arg7 main_arg8 main_arg9 main_v13 main_v16
-- ==== Kernel.lean ====
abbrev S8192x512 : Shape := ⟨2, ![8192, 512]⟩
abbrev S131072 : Shape := ⟨1, ![131072]⟩
abbrev S512x256 : Shape := ⟨2, ![512, 256]⟩
abbrev S256x128 : Shape := ⟨2, ![256, 128]⟩
abbrev S128x64 : Shape := ⟨2, ![128, 64]⟩
abbrev S64x128 : Shape := ⟨2, ![64, 128]⟩
abbrev S128x256 : Shape := ⟨2, ![128, 256]⟩
abbrev S256x512 : Shape := ⟨2, ![256, 512]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192x256 : Shape := ⟨2, ![8192, 256]⟩
abbrev S1024x1024 : Shape := ⟨2, ![1024, 1024]⟩
abbrev S1024x512 : Shape := ⟨2, ![1024, 512]⟩
abbrev S1024x256 : Shape := ⟨2, ![1024, 256]⟩
abbrev S8192x128 : Shape := ⟨2, ![8192, 128]⟩
abbrev S1024x128 : Shape := ⟨2, ![1024, 128]⟩
abbrev S8192x64 : Shape := ⟨2, ![8192, 64]⟩
abbrev S1024x64 : Shape := ⟨2, ![1024, 64]⟩
abbrev S512x64 : Shape := ⟨2, ![512, 64]⟩
abbrev S2048x64 : Shape := ⟨2, ![2048, 64]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 49
  | .vmem => 60
  | .smem => 0
  | _ => 0

abbrev bufTy : (tb : Table) → Fin (tcTables nBuf tb) → BufTy
  | .hbm, ⟨0, _⟩ => ⟨S8192x512, .f32⟩
  | .hbm, ⟨1, _⟩ => ⟨S131072, .i32⟩
  | .hbm, ⟨2, _⟩ => ⟨S131072, .i32⟩
  | .hbm, ⟨3, _⟩ => ⟨S131072, .f32⟩
  | .hbm, ⟨4, _⟩ => ⟨S512x256, .f32⟩
  | .hbm, ⟨5, _⟩ => ⟨S256x128, .f32⟩
  | .hbm, ⟨6, _⟩ => ⟨S128x64, .f32⟩
  | .hbm, ⟨7, _⟩ => ⟨S64x128, .f32⟩
  | .hbm, ⟨8, _⟩ => ⟨S128x256, .f32⟩
  | .hbm, ⟨9, _⟩ => ⟨S256x512, .f32⟩
  | .hbm, ⟨10, _⟩ => ⟨S_, .f32⟩
  | .hbm, ⟨11, _⟩ => ⟨S8192x8192, .f32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S_, .i32⟩
  | .hbm, ⟨20, _⟩ => ⟨S131072, .i32⟩
  | .hbm, ⟨21, _⟩ => ⟨S131072, .i1⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S131072, .i32⟩
  | .hbm, ⟨26, _⟩ => ⟨S131072x1, .i32⟩
  | .hbm, ⟨27, _⟩ => ⟨S131072x1, .i32⟩
  | .hbm, ⟨28, _⟩ => ⟨S131072x2, .i32⟩
  | .hbm, ⟨29, _⟩ => ⟨S8192x8192, .f32⟩
  | .hbm, ⟨30, _⟩ => ⟨S8192x8192, .bf16⟩
  | .hbm, ⟨31, _⟩ => ⟨S8192x512, .bf16⟩
  | .hbm, ⟨32, _⟩ => ⟨S512x256, .bf16⟩
  | .hbm, ⟨33, _⟩ => ⟨S8192x256, .bf16⟩
  | .hbm, ⟨34, _⟩ => ⟨S256x128, .bf16⟩
  | .hbm, ⟨35, _⟩ => ⟨S8192x128, .bf16⟩
  | .hbm, ⟨36, _⟩ => ⟨S128x64, .bf16⟩
  | .hbm, ⟨37, _⟩ => ⟨S8192x64, .f32⟩
  | .hbm, ⟨38, _⟩ => ⟨S8192x64, .bf16⟩
  | .hbm, ⟨39, _⟩ => ⟨S8192x8192, .f32⟩
  | .hbm, ⟨40, _⟩ => ⟨S8192x64, .bf16⟩
  | .hbm, ⟨41, _⟩ => ⟨S64x128, .bf16⟩
  | .hbm, ⟨42, _⟩ => ⟨S8192x128, .bf16⟩
  | .hbm, ⟨43, _⟩ => ⟨S128x256, .bf16⟩
  | .hbm, ⟨44, _⟩ => ⟨S8192x256, .bf16⟩
  | .hbm, ⟨45, _⟩ => ⟨S256x512, .bf16⟩
  | .hbm, ⟨46, _⟩ => ⟨S8192x512, .f32⟩
  | .hbm, ⟨47, _⟩ => ⟨S8192x512, .bf16⟩
  | .hbm, ⟨48, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S512x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .bf16⟩
  | .local _ .vmem, ⟨11, _⟩ => ⟨S1024x256, .bf16⟩
  | .local _ .vmem, ⟨12, _⟩ => ⟨S256x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x128, .bf16⟩
  | .local _ .vmem, ⟨19, _⟩ => ⟨S1024x128, .bf16⟩
  | .local _ .vmem, ⟨20, _⟩ => ⟨S128x64, .bf16⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S512x64, .bf16⟩
  | .local _ .vmem, ⟨25, _⟩ => ⟨S512x64, .bf16⟩
  | .local _ .vmem, ⟨26, _⟩ => ⟨S2048x64, .bf16⟩
  | .local _ .vmem, ⟨27, _⟩ => ⟨S2048x64, .bf16⟩
  | .local _ .vmem, ⟨28, _⟩ => ⟨S512x2048, .f32⟩
  | .local _ .vmem, ⟨29, _⟩ => ⟨S512x2048, .f32⟩
  | .local _ .vmem, ⟨30, _⟩ => ⟨S1024x1024, .bf16⟩
  | .local _ .vmem, ⟨31, _⟩ => ⟨S1024x1024, .bf16⟩
  | .local _ .vmem, ⟨32, _⟩ => ⟨S1024x64, .bf16⟩
  | .local _ .vmem, ⟨33, _⟩ => ⟨S1024x64, .bf16⟩
  | .local _ .vmem, ⟨34, _⟩ => ⟨S64x128, .bf16⟩
  | .local _ .vmem, ⟨35, _⟩ => ⟨S1024x128, .bf16⟩
  | .local _ .vmem, ⟨36, _⟩ => ⟨S1024x128, .bf16⟩
  | .local _ .vmem, ⟨37, _⟩ => ⟨S1024x128, .f32⟩
  | .local _ .vmem, ⟨38, _⟩ => ⟨S1024x1024, .bf16⟩
  | .local _ .vmem, ⟨39, _⟩ => ⟨S1024x1024, .bf16⟩
  | .local _ .vmem, ⟨40, _⟩ => ⟨S1024x128, .bf16⟩
  | .local _ .vmem, ⟨41, _⟩ => ⟨S1024x128, .bf16⟩
  | .local _ .vmem, ⟨42, _⟩ => ⟨S128x256, .bf16⟩
  | .local _ .vmem, ⟨43, _⟩ => ⟨S1024x256, .bf16⟩
  | .local _ .vmem, ⟨44, _⟩ => ⟨S1024x256, .bf16⟩
  | .local _ .vmem, ⟨45, _⟩ => ⟨S1024x256, .f32⟩
  | .local _ .vmem, ⟨46, _⟩ => ⟨S1024x1024, .bf16⟩
  | .local _ .vmem, ⟨47, _⟩ => ⟨S1024x1024, .bf16⟩
  | .local _ .vmem, ⟨48, _⟩ => ⟨S1024x256, .bf16⟩
  | .local _ .vmem, ⟨49, _⟩ => ⟨S1024x256, .bf16⟩
  | .local _ .vmem, ⟨50, _⟩ => ⟨S256x512, .bf16⟩
  | .local _ .vmem, ⟨51, _⟩ => ⟨S1024x512, .f32⟩
  | .local _ .vmem, ⟨52, _⟩ => ⟨S1024x512, .f32⟩
  | .local _ .vmem, ⟨53, _⟩ => ⟨S1024x512, .f32⟩
  | .local _ .vmem, ⟨54, _⟩ => ⟨S512x512, .bf16⟩
  | .local _ .vmem, ⟨55, _⟩ => ⟨S512x512, .bf16⟩
  | .local _ .vmem, ⟨56, _⟩ => ⟨S2048x512, .bf16⟩
  | .local _ .vmem, ⟨57, _⟩ => ⟨S2048x512, .bf16⟩
  | .local _ .vmem, ⟨58, _⟩ => ⟨S512x2048, .f32⟩
  | .local _ .vmem, ⟨59, _⟩ => ⟨S512x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc5_scratch0 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg3_1 : Ref sig .tc := ⟨.vmem, 52, rfl⟩
abbrev cc6_scratch0 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 8], ![false, false]⟩

def k4_cond2 (i : grid4.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 1 → Memref sig .tc .vmem S64x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1024x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S128x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

abbrev grid6 : Pipeline.Grid := ⟨2, ![8, 8], ![false, false]⟩

def k6_cond2 (i : grid6.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S256x512 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1024x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![16, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x256_S1024x256_0_0 : (Rect.unit (s := S1024x256) ![0, 0] S1024x256.size inb_S1024x256_S1024x256_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S1024x128_S1024x128_0_0 : (Rect.unit (s := S1024x128) ![0, 0] S1024x128.size inb_S1024x128_S1024x128_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x2048_S512x2048_0_0 : ∀ a, (![0, 0] : Fin 2 → Nat) a + S512x2048.size a ≤ S512x2048.size a
  h_S512x2048 : 0 < S512x2048.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  scatter_S8192x8192_S131072x2_S131072_n_01_01_1_wf : ScatterDims.WF S8192x8192 S131072x2 S131072 [] [0, 1] [0, 1] 1
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  dot_S512x64_S2048x64_S512x2048_1_1_0_0_n_n_wf : DotDims.WF S512x64 S2048x64 S512x2048 [1] [1] [0] [0] [] []
  dot_S1024x64_S64x128_S1024x128_1_0_0_1_n_n_wf : DotDims.WF S1024x64 S64x128 S1024x128 [1] [0] [0] [1] [] []
  dot_S1024x128_S128x256_S1024x256_1_0_0_1_n_n_wf : DotDims.WF S1024x128 S128x256 S1024x256 [1] [0] [0] [1] [] []
  dot_S1024x256_S256x512_S1024x512_1_0_0_1_n_n_wf : DotDims.WF S1024x256 S256x512 S1024x512 [1] [0] [0] [1] [] []
  dot_S1024x1024_S1024x512_S1024x512_1_0_0_1_n_n_wf : DotDims.WF S1024x1024 S1024x512 S1024x512 [1] [0] [0] [1] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .bf16 = 32 ∨ (Rect.block (s := S8192x128) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .bf16 = 32 ∨ (Rect.block (s := S8192x128) S1024x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S8192x64.size a
  hwx2_3 : ∀ i : grid2.Coords, EltTy.bits .f32 = 32 ∨ (Rect.block (s := S8192x64) S1024x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S8192x64.size a
  hwx3_0 : ∀ i : grid3.Coords, EltTy.bits .bf16 = 32 ∨ (Rect.block (s := S8192x64) S512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S8192x64.size a
  hwx3_1 : ∀ i : grid3.Coords, EltTy.bits .bf16 = 32 ∨ (Rect.block (s := S8192x64) S2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2048.size a ≤ S8192x8192.size a
  hwx3_2 : ∀ i : grid3.Coords, EltTy.bits .f32 = 32 ∨ (Rect.block (s := S8192x8192) S512x2048.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x8192.size a
  hwx4_0 : ∀ i : grid4.Coords, EltTy.bits .bf16 = 32 ∨ (Rect.block (s := S8192x8192) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x64.size a ≤ S8192x64.size a
  hwx4_1 : ∀ i : grid4.Coords, EltTy.bits .bf16 = 32 ∨ (Rect.block (s := S8192x64) S1024x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .bf16 = 32 ∨ (Rect.block (s := S64x128) S64x128.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S8192x128.size a
  hwx4_3 : ∀ i : grid4.Coords, EltTy.bits .bf16 = 32 ∨ (Rect.block (s := S8192x128) S1024x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x8192.size a
  hwx5_0 : ∀ i : grid5.Coords, EltTy.bits .bf16 = 32 ∨ (Rect.block (s := S8192x8192) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S8192x128.size a
  hwx5_1 : ∀ i : grid5.Coords, EltTy.bits .bf16 = 32 ∨ (Rect.block (s := S8192x128) S1024x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .bf16 = 32 ∨ (Rect.block (s := S128x256) S128x256.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S8192x256.size a
  hwx5_3 : ∀ i : grid5.Coords, EltTy.bits .bf16 = 32 ∨ (Rect.block (s := S8192x256) S1024x256.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S8192x8192.size a
  hwx6_0 : ∀ i : grid6.Coords, EltTy.bits .bf16 = 32 ∨ (Rect.block (s := S8192x8192) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S8192x256.size a
  hwx6_1 : ∀ i : grid6.Coords, EltTy.bits .bf16 = 32 ∨ (Rect.block (s := S8192x256) S1024x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x512.size a ≤ S256x512.size a
  hwx6_2 : ∀ i : grid6.Coords, EltTy.bits .bf16 = 32 ∨ (Rect.block (s := S256x512) S256x512.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x512.size a ≤ S8192x512.size a
  hwx6_3 : ∀ i : grid6.Coords, EltTy.bits .f32 = 32 ∨ (Rect.block (s := S8192x512) S1024x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S8192x512.size a
  hwx7_0 : ∀ i : grid7.Coords, EltTy.bits .bf16 = 32 ∨ (Rect.block (s := S8192x512) S512x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2048x512.size a ≤ S8192x512.size a
  hwx7_1 : ∀ i : grid7.Coords, EltTy.bits .bf16 = 32 ∨ (Rect.block (s := S8192x512) S2048x512.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x2048.size a ≤ S8192x8192.size a
  hwx7_2 : ∀ i : grid7.Coords, EltTy.bits .f32 = 32 ∨ (Rect.block (s := S8192x8192) S512x2048.size (cc7_transform_2 i) (hinb7_2 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v15) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v15) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v15) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v23) S512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S512x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v15) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v27) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v15) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v27) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29) S1024x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v15) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v29) S1024x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v30) S256x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v31) S1024x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v32) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S2048x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v33) S512x2048.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S8192x512 : Shape := ⟨2, ![8192, 512]⟩
abbrev S131072 : Shape := ⟨1, ![131072]⟩
abbrev S512x256 : Shape := ⟨2, ![512, 256]⟩
abbrev S256x128 : Shape := ⟨2, ![256, 128]⟩
abbrev S128x64 : Shape := ⟨2, ![128, 64]⟩
abbrev S64x128 : Shape := ⟨2, ![64, 128]⟩
abbrev S128x256 : Shape := ⟨2, ![128, 256]⟩
abbrev S256x512 : Shape := ⟨2, ![256, 512]⟩
abbrev S8192x256 : Shape := ⟨2, ![8192, 256]⟩
abbrev S131072x1 : Shape := ⟨2, ![131072, 1]⟩
abbrev S_ : Shape := ⟨0, ![]⟩
abbrev S131072x256 : Shape := ⟨2, ![131072, 256]⟩
abbrev S8192x128 : Shape := ⟨2, ![8192, 128]⟩
abbrev S131072x128 : Shape := ⟨2, ![131072, 128]⟩
abbrev S8192x64 : Shape := ⟨2, ![8192, 64]⟩
abbrev S131072x64 : Shape := ⟨2, ![131072, 64]⟩
abbrev S64x8192 : Shape := ⟨2, ![64, 8192]⟩
abbrev S8192x8192 : Shape := ⟨2, ![8192, 8192]⟩
abbrev S131072x512 : Shape := ⟨2, ![131072, 512]⟩
abbrev S512x8192 : Shape := ⟨2, ![512, 8192]⟩

abbrev nBuf : Space → Nat
  | .hbm => 137
  | .vmem => 0
  | .smem => 0
  | _ => 0

abbrev hbmTy0_0 (i : Nat) : BufTy := match i % 128 with
  | 0 => ⟨S8192x512, .f32⟩
  | 1 => ⟨S131072, .i32⟩
  | 2 => ⟨S131072, .i32⟩
  | 3 => ⟨S131072, .f32⟩
  | 4 => ⟨S512x256, .f32⟩
  | 5 => ⟨S256x128, .f32⟩
  | 6 => ⟨S128x64, .f32⟩
  | 7 => ⟨S64x128, .f32⟩
  | 8 => ⟨S128x256, .f32⟩
  | 9 => ⟨S256x512, .f32⟩
  | 10 => ⟨S8192x256, .f32⟩
  | 11 => ⟨S8192x256, .f32⟩
  | 12 => ⟨S131072x1, .f32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S131072x1, .i32⟩
  | 21 => ⟨S131072x256, .f32⟩
  | 22 => ⟨S131072x256, .f32⟩
  | 23 => ⟨S131072x256, .f32⟩
  | 24 => ⟨S_, .f32⟩
  | 25 => ⟨S8192x256, .f32⟩
  | 26 => ⟨S131072x1, .i32⟩
  | 27 => ⟨S8192x256, .f32⟩
  | 28 => ⟨S8192x128, .f32⟩
  | 29 => ⟨S8192x128, .f32⟩
  | 30 => ⟨S131072x1, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S131072x1, .i32⟩
  | 39 => ⟨S131072x128, .f32⟩
  | 40 => ⟨S131072x128, .f32⟩
  | 41 => ⟨S131072x128, .f32⟩
  | 42 => ⟨S_, .f32⟩
  | 43 => ⟨S8192x128, .f32⟩
  | 44 => ⟨S131072x1, .i32⟩
  | 45 => ⟨S8192x128, .f32⟩
  | 46 => ⟨S8192x64, .f32⟩
  | 47 => ⟨S131072x1, .f32⟩
  | 48 => ⟨S_, .i32⟩
  | 49 => ⟨S131072, .i32⟩
  | 50 => ⟨S131072, .i1⟩
  | 51 => ⟨S_, .i32⟩
  | 52 => ⟨S131072, .i32⟩
  | 53 => ⟨S131072, .i32⟩
  | 54 => ⟨S131072, .i32⟩
  | 55 => ⟨S131072x1, .i32⟩
  | 56 => ⟨S131072x64, .f32⟩
  | 57 => ⟨S131072x64, .f32⟩
  | 58 => ⟨S131072x64, .f32⟩
  | 59 => ⟨S_, .f32⟩
  | 60 => ⟨S8192x64, .f32⟩
  | 61 => ⟨S131072x1, .i32⟩
  | 62 => ⟨S8192x64, .f32⟩
  | 63 => ⟨S64x8192, .f32⟩
  | 64 => ⟨S8192x8192, .f32⟩
  | 65 => ⟨S8192x8192, .f32⟩
  | 66 => ⟨S8192x8192, .f32⟩
  | 67 => ⟨S_, .f32⟩
  | 68 => ⟨S8192x8192, .f32⟩
  | 69 => ⟨S8192x8192, .f32⟩
  | 70 => ⟨S_, .f32⟩
  | 71 => ⟨S8192x8192, .f32⟩
  | 72 => ⟨S8192x8192, .f32⟩
  | 73 => ⟨S8192x128, .f32⟩
  | 74 => ⟨S8192x128, .f32⟩
  | 75 => ⟨S131072x1, .f32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S131072x1, .i32⟩
  | 84 => ⟨S131072x128, .f32⟩
  | 85 => ⟨S131072x128, .f32⟩
  | 86 => ⟨S131072x128, .f32⟩
  | 87 => ⟨S_, .f32⟩
  | 88 => ⟨S8192x128, .f32⟩
  | 89 => ⟨S131072x1, .i32⟩
  | 90 => ⟨S8192x128, .f32⟩
  | 91 => ⟨S8192x256, .f32⟩
  | 92 => ⟨S8192x256, .f32⟩
  | 93 => ⟨S131072x1, .f32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S131072x256, .f32⟩
  | 103 => ⟨S131072x256, .f32⟩
  | 104 => ⟨S131072x256, .f32⟩
  | 105 => ⟨S_, .f32⟩
  | 106 => ⟨S8192x256, .f32⟩
  | 107 => ⟨S131072x1, .i32⟩
  | 108 => ⟨S8192x256, .f32⟩
  | 109 => ⟨S8192x512, .f32⟩
  | 110 => ⟨S8192x512, .f32⟩
  | 111 => ⟨S131072x1, .f32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072x512, .f32⟩
  | 121 => ⟨S131072x512, .f32⟩
  | 122 => ⟨S131072x512, .f32⟩
  | 123 => ⟨S_, .f32⟩
  | 124 => ⟨S8192x512, .f32⟩
  | 125 => ⟨S131072x1, .i32⟩
  | 126 => ⟨S8192x512, .f32⟩
  | 127 => ⟨S512x8192, .f32⟩
  | _ => ⟨S8192x512, .f32⟩

abbrev hbmTy0_1 (i : Nat) : BufTy := match i % 128 with
  | 0 => ⟨S8192x8192, .f32⟩
  | 1 => ⟨S8192x8192, .f32⟩
  | 2 => ⟨S8192x8192, .f32⟩
  | 3 => ⟨S_, .f32⟩
  | 4 => ⟨S8192x8192, .f32⟩
  | 5 => ⟨S8192x8192, .f32⟩
  | 6 => ⟨S_, .f32⟩
  | 7 => ⟨S8192x8192, .f32⟩
  | 8 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_15 : Ref sig .tc := ⟨.hbm, 112, rfl⟩
abbrev main_v85 : Ref sig .tc := ⟨.hbm, 113, rfl⟩
abbrev main_v86 : Ref sig .tc := ⟨.hbm, 114, rfl⟩
abbrev main_c_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_17 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_18 : Ref sig .tc := ⟨.hbm, 131, rfl⟩
abbrev main_v101 : Ref sig .tc := ⟨.hbm, 132, rfl⟩
abbrev main_v102 : Ref sig .tc := ⟨.hbm, 133, rfl⟩
abbrev main_cst_19 : Ref sig .tc := ⟨.hbm, 134, rfl⟩
abbrev main_v103 : Ref sig .tc := ⟨.hbm, 135, rfl⟩
abbrev main_v104 : Ref sig .tc := ⟨.hbm, 136, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S_S131072 : S_.BroadcastsInDim S131072 (![] : Fin 0 → Fin S131072.rank)
  bcast_S131072x1_S131072x256_0_1 : S131072x1.BroadcastsInDim S131072x256 (![0, 1] : Fin 2 → Fin S131072x256.rank)
  bcast_S_S8192x256 : S_.BroadcastsInDim S8192x256 (![] : Fin 0 → Fin S8192x256.rank)
  bcast_S131072x1_S131072x128_0_1 : S131072x1.BroadcastsInDim S131072x128 (![0, 1] : Fin 2 → Fin S131072x128.rank)
  bcast_S_S8192x128 : S_.BroadcastsInDim S8192x128 (![] : Fin 0 → Fin S8192x128.rank)
  bcast_S131072x1_S131072x64_0_1 : S131072x1.BroadcastsInDim S131072x64 (![0, 1] : Fin 2 → Fin S131072x64.rank)
  bcast_S_S8192x64 : S_.BroadcastsInDim S8192x64 (![] : Fin 0 → Fin S8192x64.rank)
  transposes_S8192x64_S64x8192_1_0 : S8192x64.Transposes [1, 0] S64x8192
  bcast_S_S8192x8192 : S_.BroadcastsInDim S8192x8192 (![] : Fin 0 → Fin S8192x8192.rank)
  bcast_S131072x1_S131072x512_0_1 : S131072x1.BroadcastsInDim S131072x512 (![0, 1] : Fin 2 → Fin S131072x512.rank)
  bcast_S_S8192x512 : S_.BroadcastsInDim S8192x512 (![] : Fin 0 → Fin S8192x512.rank)
  transposes_S8192x512_S512x8192_1_0 : S8192x512.Transposes [1, 0] S512x8192
  dot_S8192x512_S512x256_S8192x256_1_0_0_1_n_n_wf : DotDims.WF S8192x512 S512x256 S8192x256 [1] [0] [0] [1] [] []
  gather_S8192x256_S131072x1_S131072x256_1_0_n_n_0_1_1256_wf : GatherDims.WF S8192x256 S131072x1 S131072x256 [1] [0] [] [0] [] 1 ![1, 256]
  scatter_S8192x256_S131072x1_S131072x256_1_0_0_1_wf : ScatterDims.WF S8192x256 S131072x1 S131072x256 [1] [0] [0] 1
  dot_S8192x256_S256x128_S8192x128_1_0_0_1_n_n_wf : DotDims.WF S8192x256 S256x128 S8192x128 [1] [0] [0] [1] [] []
  gather_S8192x128_S131072x1_S131072x128_1_0_n_n_0_1_1128_wf : GatherDims.WF S8192x128 S131072x1 S131072x128 [1] [0] [] [0] [] 1 ![1, 128]
  scatter_S8192x128_S131072x1_S131072x128_1_0_0_1_wf : ScatterDims.WF S8192x128 S131072x1 S131072x128 [1] [0] [0] 1
  dot_S8192x128_S128x64_S8192x64_1_0_0_1_n_n_wf : DotDims.WF S8192x128 S128x64 S8192x64 [1] [0] [0] [1] [] []
  gather_S8192x64_S131072x1_S131072x64_1_0_n_n_0_1_164_wf : GatherDims.WF S8192x64 S131072x1 S131072x64 [1] [0] [] [0] [] 1 ![1, 64]
  scatter_S8192x64_S131072x1_S131072x64_1_0_0_1_wf : ScatterDims.WF S8192x64 S131072x1 S131072x64 [1] [0] [0] 1
  dot_S8192x64_S64x8192_S8192x8192_1_0_0_1_n_n_wf : DotDims.WF S8192x64 S64x8192 S8192x8192 [1] [0] [0] [1] [] []
  dot_S8192x64_S64x128_S8192x128_1_0_0_1_n_n_wf : DotDims.WF S8192x64 S64x128 S8192x128 [1] [0] [0] [1] [] []
  dot_S8192x128_S128x256_S8192x256_1_0_0_1_n_n_wf : DotDims.WF S8192x128 S128x256 S8192x256 [1] [0] [0] [1] [] []
  dot_S8192x256_S256x512_S8192x512_1_0_0_1_n_n_wf : DotDims.WF S8192x256 S256x512 S8192x512 [1] [0] [0] [1] [] []
  gather_S8192x512_S131072x1_S131072x512_1_0_n_n_0_1_1512_wf : GatherDims.WF S8192x512 S131072x1 S131072x512 [1] [0] [] [0] [] 1 ![1, 512]
  scatter_S8192x512_S131072x1_S131072x512_1_0_0_1_wf : ScatterDims.WF S8192x512 S131072x1 S131072x512 [1] [0] [0] 1
  dot_S8192x512_S512x8192_S8192x8192_1_0_0_1_n_n_wf : DotDims.WF S8192x512 S512x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S131072x1_S131072x256_1_0_n_n_0_1_1256 : GatherDims S8192x256 S131072x1 S131072x256 where
  offsetDims := [1]
  collapsedSliceDims := [0]
  operandBatchingDims := []
  startIndicesBatchingDims := []
  startIndexMap := [0]
  indexVectorDim := 1
  sliceSizes := ![1, 256]
  wf := gather_S8192x256_S131072x1_S131072x256_1_0_n_n_0_1_1256_wf
def scatter_S8192x256_S131072x1_S131072x256_1_0_0_1 : ScatterDims S8192x256 S131072x1 S131072x256 where
  updateWindowDims := [1]
  insertedWindowDims := [0]
  scatterDimsToOperandDims := [0]
  indexVectorDim := 1
  wf := scatter_S8192x256_S131072x1_S131072x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S131072x1_S131072x128_1_0_n_n_0_1_1128 : GatherDims S8192x128 S131072x1 S131072x128 where
  offsetDims := [1]
  collapsedSliceDims := [0]
  operandBatchingDims := []
  startIndicesBatchingDims := []
  startIndexMap := [0]
  indexVectorDim := 1
  sliceSizes := ![1, 128]
  wf := gather_S8192x128_S131072x1_S131072x128_1_0_n_n_0_1_1128_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S8192x64_S131072x1_S131072x64_1_0_n_n_0_1_164 : GatherDims S8192x64 S131072x1 S131072x64 where
  offsetDims := [1]
  collapsedSliceDims := [0]
  operandBatchingDims := []
  startIndicesBatchingDims := []
  startIndexMap := [0]
  indexVectorDim := 1
  sliceSizes := ![1, 64]
  wf := gather_S8192x64_S131072x1_S131072x64_1_0_n_n_0_1_164_wf
def scatter_S8192x64_S131072x1_S131072x64_1_0_0_1 : ScatterDims S8192x64 S131072x1 S131072x64 where
  updateWindowDims := [1]
  insertedWindowDims := [0]
  scatterDimsToOperandDims := [0]
  indexVectorDim := 1
  wf := scatter_S8192x64_S131072x1_S131072x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def gather_S8192x512_S131072x1_S131072x512_1_0_n_n_0_1_1512 : GatherDims S8192x512 S131072x1 S131072x512 where
  offsetDims := [1]
  collapsedSliceDims := [0]
  operandBatchingDims := []
  startIndicesBatchingDims := []
  startIndexMap := [0]
  indexVectorDim := 1
  sliceSizes := ![1, 512]
  wf := gather_S8192x512_S131072x1_S131072x512_1_0_n_n_0_1_1512_wf
def scatter_S8192x512_S131072x1_S131072x512_1_0_0_1 : ScatterDims S8192x512 S131072x1 S131072x512 where
  updateWindowDims := [1]
  insertedWindowDims := [0]
  scatterDimsToOperandDims := [0]
  indexVectorDim := 1
  wf := scatter_S8192x512_S131072x1_S131072x512_1_0_0_1_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Agg0.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Agg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the running sum `a`: restarted from zero where the reduction coordinate is zero. -/
def step0 (c : Dev nD) (n : ℕ) (a : Vec F S1024x256 .f32) : Vec F S1024x256 .f32 :=
  if h : n < cfg0.N then
    k0_pay2 (iblk0 V c 1 ⟨n, h⟩) (iblk0 V c 2 ⟨n, h⟩) (if n % 8 = 0 then k0_pay1 (F := F) else a) (iblk0 V c 0 ⟨n, h⟩)
  else a

/-- The running sum after point `n`. -/
def acc0 (c : Dev nD) : ℕ → Vec F S1024x256 .f32
  | 0 => step0 V c 0 (k0_pay1 (F := F))
  | n + 1 => step0 V c (n + 1) (acc0 c n)

theorem acc0_eq (c : Dev nD) (t : Fin cfg0.N) (a : Vec F S1024x256 .f32) (ha : t.val ≠ 0 → a = acc0 V c (t.val - 1)) :
    k0_pay2 (iblk0 V c 1 t) (iblk0 V c 2 t) (if t.val % 8 = 0 then k0_pay1 (F := F) else a) (iblk0 V c 0 t) = acc0 V c t.val := by
  obtain ⟨n, hn⟩ := t
  cases n with
  | zero => unfold acc0 step0; rw [dif_pos hn, if_pos (Nat.zero_mod 8), if_pos (Nat.zero_mod 8)]
  | succ n =>
    rw [ha (Nat.succ_ne_zero n)]
    show _ = acc0 V c (n + 1)
    rw [acc0, step0, dif_pos hn]; rfl

abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

abbrev cond0_2 (i : grid0.Coords) : Prop := k0_cond2 i = 1#1
theorem hcond0_2 : ∀ t : Fin cfg0.N, cond0_2 (grid0.coords t) ↔ t.val % 8 = 7 :=
  (by decide +kernel : ∀ t : Fin grid0.N, cond0_2 (grid0.coords t) ↔ t.val % 8 = 7)

abbrev r0_O : Rect S1024x256 := Rect.unit (s := S1024x256) ![0, 0] S1024x256.size inb_S1024x256_S1024x256_0_0

theorem zero2 : (![0, 0] : Fin 2 → ℕ) = fun _ => 0 := by
  funext a; fin_cases a <;> rfl

theorem idle0_3 : ∀ t : Fin cfg0.N, cfg0.idle 3 (grid0.coords t) = decide (t.val % 8 ≠ 7) := by decide +kernel

theorem cover0_O {e : EltTy} (p : r0_O.shape.Idx → Elt F e) (L : List (View.Piece (Elt F) S1024x256 e)) (y : S1024x256.Idx) :
    ∃ pc ∈ ((⟨r0_O, p⟩ : View.Piece (Elt F) S1024x256 e) :: L), y ∈ pc.1.set :=
  ⟨_, List.mem_cons_self .., View.mem_set_unit_zero zero2 inb_S1024x256_S1024x256_0_0 y⟩

theorem pay2_congr {x1 x1' : Vec F S1024x512 .bf16} {x2 x2' : Vec F S512x256 .bf16} {a a' : Vec F S1024x256 .f32}
    {x0 x0' : Vec F S1024x1024 .bf16} (h1 : x1 = x1') (h2 : x2 = x2') (ha : a = a') (h0 : x0 = x0') :
    k0_pay2 x1 x2 a x0 = k0_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel0 (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S512x256 .bf16) (harg4 : arg4.IsWhole) (arg5 : Memref sig .tc .vmem S1024x256 .bf16) (harg5 : arg5.IsWhole)
    (arg6 : Memref sig .tc .vmem S1024x256 .f32) (harg6 : arg6.IsWhole)
    (p1 p2 : Prop) [Decidable p1] [Decidable p2] (h1 : cond0_1 i ↔ p1) (h2 : cond0_2 i ↔ p2) (hx : ¬(p1 ∧ p2))
    (x0 : Vec F S1024x1024 .bf16) (x1 : Vec F S1024x512 .bf16) (x2 : Vec F S512x256 .bf16) (x3 : Vec F S1024x256 .bf16)
    (a : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k0_pay3 (k0_pay2 x1 x2 (if p1 then k0_pay1 (F := F) else a) x0) else x3)
            ∗ owns (c : Thread nD τ) arg6 fullShare (k0_pay2 x1 x2 (if p1 then k0_pay1 (F := F) else a) x0)) -∗ K ⟨⟩))
      ⊢ wp frame (wpE (defs₀ (F := F)) Variants.none c none) E (cc0__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc0__fused_agg_kernel_eq_skeleton]; unfold cc0__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover0_O _ _), View.canon_cons_unit_zero zero2]
           exact congrArg k0_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover0_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM0 : Memref sig .tc .vmem S1024x256 .f32 := Memref.whole cc0_scratch0

abbrev rest0 (c : Dev nD) : sProp 𝕄 := iprop((∃ r, prngReg c r)
  ∗ Pipeline.scopedRestBut (Ix := Unit) (Name := ℕ) (U := UR sig nD τ) (Lvl := ℕ) (Val := Elt F) spec0 c [cc0_scratch0])

/-- The invariant before position `n`: past the first point the running sum is what the point before left. -/
def Phi0 (c : Dev nD) (n : ℕ) : sProp 𝕄 :=
  iprop((∃ d, ⌜n ≠ 0 → d = acc0 V c (n - 1)⌝ ∗ owns (c : Thread nD τ) scM0 fullShare d) ∗ rest0 c)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val)
  Φ t := Phi0 V c t.val
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val) := by
  dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem leaves0_3 (c : Dev nD) (t : Fin cfg0.N) (d) (s : Vec F S1024x256 .f32) (hs : s = acc0 V c t.val) :
    owns (c : Thread nD τ) (st0_3 t) fullShare (if t.val % 8 = 7 then k0_pay3 s else (dat0 V c).before 3 t d)
      ⊢ (dat0 V c).leavesExact 3 t := by
  by_cases h7 : t.val % 8 = 7
  · rw [if_pos h7, hs, ← after0_3]; unfold Dat.leavesExact; rw [idle0_3 t, decide_eq_false (not_not.mpr h7)]
  · rw [if_neg h7, Dat.leavesExact_idle _ 3 t ((idle0_3 t).trans (decide_eq_true h7)) (Bool.eq_false_iff.mpr (mt (flush0_3 t).mp h7))]
    iintro H; iexists d; iexact H

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) from rfl,
    show (dat0 V c).Φ t.castSucc = Phi0 V c t.val from rfl]
  unfold Phi0
  iintro ⟨⟨⟨%a, %ha, HS⟩, HR⟩, Ho, ⟨%d0, H0⟩, ⟨%d1, H1⟩, ⟨%d2, H2⟩, ⟨%d3, H3⟩⟩
  iapply (sound_kernel0 c Set.univ (grid0.coords t) _ _ _ _ _ _ _ _ _ _ (t.val % 8 = 0) (t.val % 8 = 7) (hcond0_1 t) (hcond0_2 t)
    (by omega) (iblk0 V c 0 t) (iblk0 V c 1 t) (iblk0 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc0_eq V c t a ha
      iexact HS
    iexact HR
  isplitl [Ho]; · iexact Ho
  isplitl [H0]; · iexact H0
  isplitl [H1]; · iexact H1
  isplitl [H2]; · iexact H2
  iapply (leaves0_3 V c t d3 _ (acc0_eq V c t a ha))
  iexact H3

theorem body_obligation0 (c : Dev nD) : BodyObligation (dat0 (F := F) V c) (defs₀ (F := F)) Variants.none () Set.univ := fun t => by
  rw [bigSep_W0, bigSep_W0]
  exact sound_body0 V c t

theorem phi_in0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = Phi0 V c 0 from rfl, scopedRest0_split]; unfold Phi0
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c cfg0.N from rfl, scopedRest0_split]; unfold Phi0
  simp only [owns_whole]
  iintro ⟨⟨%d, -, HS⟩, Hg, HR⟩
  isplitl [Hg]; · iexact Hg
  isplitl [HS]; · iexists d; iexact HS
  iexact HR

end Cert.Kernel.Agg0

end
-- ==== Proof.K.Agg1.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Agg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the running sum `a`: restarted from zero where the reduction coordinate is zero. -/
def step1 (c : Dev nD) (n : ℕ) (a : Vec F S1024x128 .f32) : Vec F S1024x128 .f32 :=
  if h : n < cfg1.N then
    k1_pay2 (iblk1 V c 1 ⟨n, h⟩) (iblk1 V c 2 ⟨n, h⟩) (if n % 8 = 0 then k1_pay1 (F := F) else a) (iblk1 V c 0 ⟨n, h⟩)
  else a

/-- The running sum after point `n`. -/
def acc1 (c : Dev nD) : ℕ → Vec F S1024x128 .f32
  | 0 => step1 V c 0 (k1_pay1 (F := F))
  | n + 1 => step1 V c (n + 1) (acc1 c n)

theorem acc1_eq (c : Dev nD) (t : Fin cfg1.N) (a : Vec F S1024x128 .f32) (ha : t.val ≠ 0 → a = acc1 V c (t.val - 1)) :
    k1_pay2 (iblk1 V c 1 t) (iblk1 V c 2 t) (if t.val % 8 = 0 then k1_pay1 (F := F) else a) (iblk1 V c 0 t) = acc1 V c t.val := by
  obtain ⟨n, hn⟩ := t
  cases n with
  | zero => unfold acc1 step1; rw [dif_pos hn, if_pos (Nat.zero_mod 8), if_pos (Nat.zero_mod 8)]
  | succ n =>
    rw [ha (Nat.succ_ne_zero n)]
    show _ = acc1 V c (n + 1)
    rw [acc1, step1, dif_pos hn]; rfl

abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 8 = 0 :=
  (by decide +kernel : ∀ t : Fin grid1.N, cond1_1 (grid1.coords t) ↔ t.val % 8 = 0)

abbrev cond1_2 (i : grid1.Coords) : Prop := k1_cond2 i = 1#1
theorem hcond1_2 : ∀ t : Fin cfg1.N, cond1_2 (grid1.coords t) ↔ t.val % 8 = 7 :=
  (by decide +kernel : ∀ t : Fin grid1.N, cond1_2 (grid1.coords t) ↔ t.val % 8 = 7)

abbrev r1_O : Rect S1024x128 := Rect.unit (s := S1024x128) ![0, 0] S1024x128.size inb_S1024x128_S1024x128_0_0

theorem zero2 : (![0, 0] : Fin 2 → ℕ) = fun _ => 0 := by
  funext a; fin_cases a <;> rfl

theorem idle1_3 : ∀ t : Fin cfg1.N, cfg1.idle 3 (grid1.coords t) = decide (t.val % 8 ≠ 7) := by decide +kernel

theorem cover1_O {e : EltTy} (p : r1_O.shape.Idx → Elt F e) (L : List (View.Piece (Elt F) S1024x128 e)) (y : S1024x128.Idx) :
    ∃ pc ∈ ((⟨r1_O, p⟩ : View.Piece (Elt F) S1024x128 e) :: L), y ∈ pc.1.set :=
  ⟨_, List.mem_cons_self .., View.mem_set_unit_zero zero2 inb_S1024x128_S1024x128_0_0 y⟩

theorem pay2_congr {x1 x1' : Vec F S1024x256 .bf16} {x2 x2' : Vec F S256x128 .bf16} {a a' : Vec F S1024x128 .f32}
    {x0 x0' : Vec F S1024x1024 .bf16} (h1 : x1 = x1') (h2 : x2 = x2') (ha : a = a') (h0 : x0 = x0') :
    k1_pay2 x1 x2 a x0 = k1_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel1 (c : Dev nD) (E : Set ℕ) (i : grid1.Coords)
    (arg2 : Memref sig .tc .vmem S1024x1024 .bf16) (harg2 : arg2.IsWhole) (arg3 : Memref sig .tc .vmem S1024x256 .bf16) (harg3 : arg3.IsWhole)
    (arg4 : Memref sig .tc .vmem S256x128 .bf16) (harg4 : arg4.IsWhole) (arg5 : Memref sig .tc .vmem S1024x128 .bf16) (harg5 : arg5.IsWhole)
    (arg6 : Memref sig .tc .vmem S1024x128 .f32) (harg6 : arg6.IsWhole)
    (p1 p2 : Prop) [Decidable p1] [Decidable p2] (h1 : cond1_1 i ↔ p1) (h2 : cond1_2 i ↔ p2) (hx : ¬(p1 ∧ p2))
    (x0 : Vec F S1024x1024 .bf16) (x1 : Vec F S1024x256 .bf16) (x2 : Vec F S256x128 .bf16) (x3 : Vec F S1024x128 .bf16)
    (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k1_pay3 (k1_pay2 x1 x2 (if p1 then k1_pay1 (F := F) else a) x0) else x3)
            ∗ owns (c : Thread nD τ) arg6 fullShare (k1_pay2 x1 x2 (if p1 then k1_pay1 (F := F) else a) x0)) -∗ K ⟨⟩))
      ⊢ wp frame (wpE (defs₀ (F := F)) Variants.none c none) E (cc1__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc1__fused_agg_kernel_eq_skeleton]; unfold cc1__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover1_O _ _), View.canon_cons_unit_zero zero2]
           exact congrArg k1_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover1_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM1 : Memref sig .tc .vmem S1024x128 .f32 := Memref.whole cc1_scratch0

abbrev rest1 (c : Dev nD) : sProp 𝕄 := iprop((∃ r, prngReg c r)
  ∗ Pipeline.scopedRestBut (Ix := Unit) (Name := ℕ) (U := UR sig nD τ) (Lvl := ℕ) (Val := Elt F) spec1 c [cc1_scratch0])

/-- The invariant before position `n`: past the first point the running sum is what the point before left. -/
def Phi1 (c : Dev nD) (n : ℕ) : sProp 𝕄 :=
  iprop((∃ d, ⌜n ≠ 0 → d = acc1 V c (n - 1)⌝ ∗ owns (c : Thread nD τ) scM1 fullShare d) ∗ rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val)
  Φ t := Phi1 V c t.val
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (acc1 V c t.val) := by
  dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem leaves1_3 (c : Dev nD) (t : Fin cfg1.N) (d) (s : Vec F S1024x128 .f32) (hs : s = acc1 V c t.val) :
    owns (c : Thread nD τ) (st1_3 t) fullShare (if t.val % 8 = 7 then k1_pay3 s else (dat1 V c).before 3 t d)
      ⊢ (dat1 V c).leavesExact 3 t := by
  by_cases h7 : t.val % 8 = 7
  · rw [if_pos h7, hs, ← after1_3]; unfold Dat.leavesExact; rw [idle1_3 t, decide_eq_false (not_not.mpr h7)]
  · rw [if_neg h7, Dat.leavesExact_idle _ 3 t ((idle1_3 t).trans (decide_eq_true h7)) (Bool.eq_false_iff.mpr (mt (flush1_3 t).mp h7))]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl]
  unfold Phi1
  iintro ⟨⟨⟨%a, %ha, HS⟩, HR⟩, Ho, ⟨%d0, H0⟩, ⟨%d1, H1⟩, ⟨%d2, H2⟩, ⟨%d3, H3⟩⟩
  iapply (sound_kernel1 c Set.univ (grid1.coords t) _ _ _ _ _ _ _ _ _ _ (t.val % 8 = 0) (t.val % 8 = 7) (hcond1_1 t) (hcond1_2 t)
    (by omega) (iblk1 V c 0 t) (iblk1 V c 1 t) (iblk1 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc1_eq V c t a ha
      iexact HS
    iexact HR
  isplitl [Ho]; · iexact Ho
  isplitl [H0]; · iexact H0
  isplitl [H1]; · iexact H1
  isplitl [H2]; · iexact H2
  iapply (leaves1_3 V c t d3 _ (acc1_eq V c t a ha))
  iexact H3

theorem body_obligation1 (c : Dev nD) : BodyObligation (dat1 (F := F) V c) (defs₀ (F := F)) Variants.none () Set.univ := fun t => by
  rw [bigSep_W1, bigSep_W1]
  exact sound_body1 V c t

theorem phi_in1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 from rfl, scopedRest1_split]; unfold Phi1
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c cfg1.N from rfl, scopedRest1_split]; unfold Phi1
  simp only [owns_whole]
  iintro ⟨⟨%d, -, HS⟩, Hg, HR⟩
  isplitl [Hg]; · iexact Hg
  isplitl [HS]; · iexists d; iexact HS
  iexact HR

end Cert.Kernel.Agg1

end
-- ==== Proof.K.Agg2.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Agg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's update of the running sum `a`: restarted from zero where the reduction coordinate is zero. -/
def step2 (c : Dev nD) (n : ℕ) (a : Vec F S1024x64 .f32) : Vec F S1024x64 .f32 :=
  if h : n < cfg2.N then
    k2_pay2 (iblk2 V c 1 ⟨n, h⟩) (iblk2 V c 2 ⟨n, h⟩) (if n % 8 = 0 then k2_pay1 (F := F) else a) (iblk2 V c 0 ⟨n, h⟩)
  else a

/-- The running sum after point `n`. -/
def acc2 (c : Dev nD) : ℕ → Vec F S1024x64 .f32
  | 0 => step2 V c 0 (k2_pay1 (F := F))
  | n + 1 => step2 V c (n + 1) (acc2 c n)

theorem acc2_eq (c : Dev nD) (t : Fin cfg2.N) (a : Vec F S1024x64 .f32) (ha : t.val ≠ 0 → a = acc2 V c (t.val - 1)) :
    k2_pay2 (iblk2 V c 1 t) (iblk2 V c 2 t) (if t.val % 8 = 0 then k2_pay1 (F := F) else a) (iblk2 V c 0 t) = acc2 V c t.val := by
  obtain ⟨n, hn⟩ := t
  cases n with
  | zero => unfold acc2 step2; rw [dif_pos hn, if_pos (Nat.zero_mod 8), if_pos (Nat.zero_mod 8)]
  | succ n =>
    rw [ha (Nat.succ_ne_zero n)]
    show _ = acc2 V c (n + 1)
    rw [acc2, step2, dif_pos hn]; rfl

abbrev cond2_1 (i : grid2.Coords) : Prop := (Scalar.cmpi .ne (Scalar.extui (Scalar.cmpi .eq (BitVec.ofNat 32 (i 1).val) 0#32)) 0#32) = 1#1
theorem hcond2_1 : ∀ t : Fin cfg2.N, cond2_1 (grid2.coords t) ↔ t.val % 8 = 0 :=
  (by decide +kernel : ∀ t : Fin grid2.N, cond2_1 (grid2.coords t) ↔ t.val % 8 = 0)

abbrev cond2_2 (i : grid2.Coords) : Prop := k2_cond2 i = 1#1
theorem hcond2_2 : ∀ t : Fin cfg2.N, cond2_2 (grid2.coords t) ↔ t.val % 8 = 7 :=
  (by decide +kernel : ∀ t : Fin grid2.N, cond2_2 (grid2.coords t) ↔ t.val % 8 = 7)

abbrev r2_O : Rect S1024x64 := Rect.unit (s := S1024x64) ![0, 0] S1024x64.size inb_S1024x64_S1024x64_0_0

theorem zero2 : (![0, 0] : Fin 2 → ℕ) = fun _ => 0 := by
  funext a; fin_cases a <;> rfl

theorem idle2_3 : ∀ t : Fin cfg2.N, cfg2.idle 3 (grid2.coords t) = decide (t.val % 8 ≠ 7) := by decide +kernel

theorem cover2_O {e : EltTy} (p : r2_O.shape.Idx → Elt F e) (L : List (View.Piece (Elt F) S1024x64 e)) (y : S1024x64.Idx) :
    ∃ pc ∈ ((⟨r2_O, p⟩ : View.Piece (Elt F) S1024x64 e) :: L), y ∈ pc.1.set :=
  ⟨_, List.mem_cons_self .., View.mem_set_unit_zero zero2 inb_S1024x64_S1024x64_0_0 y⟩

theorem pay2_congr {x1 x1' : Vec F S1024x128 .bf16} {x2 x2' : Vec F S128x64 .bf16} {a a' : Vec F S1024x64 .f32}
    {x0 x0' : Vec F S1024x1024 .bf16} (h1 : x1 = x1') (h2 : x2 = x2') (ha : a = a') (h0 : x0 = x0') :
    k2_pay2 x1 x2 a x0 = k2_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel2 (c : Dev nD) (E : Set ℕ) (i : grid2.Coords)
    (arg2 : Memref sig .tc .vmem S1024x1024 .bf16) (harg2 : arg2.IsWhole) (arg3 : Memref sig .tc .vmem S1024x128 .bf16) (harg3 : arg3.IsWhole)
    (arg4 : Memref sig .tc .vmem S128x64 .bf16) (harg4 : arg4.IsWhole) (arg5 : Memref sig .tc .vmem S1024x64 .f32) (harg5 : arg5.IsWhole)
    (arg6 : Memref sig .tc .vmem S1024x64 .f32) (harg6 : arg6.IsWhole)
    (p1 p2 : Prop) [Decidable p1] [Decidable p2] (h1 : cond2_1 i ↔ p1) (h2 : cond2_2 i ↔ p2) (hx : ¬(p1 ∧ p2))
    (x0 : Vec F S1024x1024 .bf16) (x1 : Vec F S1024x128 .bf16) (x2 : Vec F S128x64 .bf16) (x3 : Vec F S1024x64 .f32)
    (a : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then (k2_pay2 x1 x2 (if p1 then k2_pay1 (F := F) else a) x0) else x3)
            ∗ owns (c : Thread nD τ) arg6 fullShare (k2_pay2 x1 x2 (if p1 then k2_pay1 (F := F) else a) x0)) -∗ K ⟨⟩))
      ⊢ wp frame (wpE (defs₀ (F := F)) Variants.none c none) E (cc2__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc2__fused_agg_kernel_eq_skeleton]; unfold cc2__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover2_O _ _), View.canon_cons_unit_zero zero2]
           exact ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover2_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM2 : Memref sig .tc .vmem S1024x64 .f32 := Memref.whole cc2_scratch0

abbrev rest2 (c : Dev nD) : sProp 𝕄 := iprop((∃ r, prngReg c r)
  ∗ Pipeline.scopedRestBut (Ix := Unit) (Name := ℕ) (U := UR sig nD τ) (Lvl := ℕ) (Val := Elt F) spec2 c [cc2_scratch0])

/-- The invariant before position `n`: past the first point the running sum is what the point before left. -/
def Phi2 (c : Dev nD) (n : ℕ) : sProp 𝕄 :=
  iprop((∃ d, ⌜n ≠ 0 → d = acc2 V c (n - 1)⌝ ∗ owns (c : Thread nD τ) scM2 fullShare d) ∗ rest2 c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (acc2 V c t.val)
  Φ t := Phi2 V c t.val
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = (acc2 V c t.val) := by
  dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem leaves2_3 (c : Dev nD) (t : Fin cfg2.N) (d) (s : Vec F S1024x64 .f32) (hs : s = acc2 V c t.val) :
    owns (c : Thread nD τ) (st2_3 t) fullShare (if t.val % 8 = 7 then s else (dat2 V c).before 3 t d)
      ⊢ (dat2 V c).leavesExact 3 t := by
  by_cases h7 : t.val % 8 = 7
  · rw [if_pos h7, hs, ← after2_3]; unfold Dat.leavesExact; rw [idle2_3 t, decide_eq_false (not_not.mpr h7)]
  · rw [if_neg h7, Dat.leavesExact_idle _ 3 t ((idle2_3 t).trans (decide_eq_true h7)) (Bool.eq_false_iff.mpr (mt (flush2_3 t).mp h7))]
    iintro H; iexists d; iexact H

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) from rfl,
    show (dat2 V c).Φ t.castSucc = Phi2 V c t.val from rfl]
  unfold Phi2
  iintro ⟨⟨⟨%a, %ha, HS⟩, HR⟩, Ho, ⟨%d0, H0⟩, ⟨%d1, H1⟩, ⟨%d2, H2⟩, ⟨%d3, H3⟩⟩
  iapply (sound_kernel2 c Set.univ (grid2.coords t) _ _ _ _ _ _ _ _ _ _ (t.val % 8 = 0) (t.val % 8 = 7) (hcond2_1 t) (hcond2_2 t)
    (by omega) (iblk2 V c 0 t) (iblk2 V c 1 t) (iblk2 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc2_eq V c t a ha
      iexact HS
    iexact HR
  isplitl [Ho]; · iexact Ho
  isplitl [H0]; · iexact H0
  isplitl [H1]; · iexact H1
  isplitl [H2]; · iexact H2
  iapply (leaves2_3 V c t d3 _ (acc2_eq V c t a ha))
  iexact H3

theorem body_obligation2 (c : Dev nD) : BodyObligation (dat2 (F := F) V c) (defs₀ (F := F)) Variants.none () Set.univ := fun t => by
  rw [bigSep_W2, bigSep_W2]
  exact sound_body2 V c t

theorem phi_in2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 from rfl, scopedRest2_split]; unfold Phi2
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c cfg2.N from rfl, scopedRest2_split]; unfold Phi2
  simp only [owns_whole]
  iintro ⟨⟨%d, -, HS⟩, Hg, HR⟩
  isplitl [Hg]; · iexact Hg
  isplitl [HS]; · iexists d; iexact HS
  iexact HR

end Cert.Kernel.Agg2

end
-- ==== Proof.K.Zzt3.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Ring
import Idealize.ShloMosaic.Lib.Tactic

noncomputable section

namespace Cert.Kernel.Zzt3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S512x64 := Rect.unit (s := S512x64) ![0, 0] S512x64.size inb_S512x64_S512x64_0_0
abbrev r3_1 : Rect S2048x64 := Rect.unit (s := S2048x64) ![0, 0] S2048x64.size inb_S2048x64_S2048x64_0_0
abbrev r3_2 : Rect S512x2048 := Rect.unit (s := S512x2048) ![0, 0] S512x2048.size inb_S512x2048_S512x2048_0_0

def out3_2 (x0 : Vec F S512x64 .bf16) (x1 : Vec F S2048x64 .bf16) : Vec F S512x2048 .f32 :=
  View.canon [⟨r3_2, k3_pay1 (View.ld x0 r3_0) (View.ld x1 r3_1)⟩]

theorem cover3_2 (p0 : Vec F S512x2048 .f32) (y : S512x2048.Idx) :
    ∃ pc ∈ ([⟨r3_2, p0⟩] : List (View.Piece (Elt F) S512x2048 .f32)), y ∈ pc.1.set :=
  View.cover_of_tiled [⟨r3_2, p0⟩] S512x2048.size (by rfl) y

set_option maxHeartbeats 1000000 in

theorem sound_kernel3 (c : Dev nD) (E : Set ℕ) (i : grid3.Coords)
    (arg2 : Memref sig .tc .vmem S512x64 .bf16) (harg2 : arg2.IsWhole)
    (arg3 : Memref sig .tc .vmem S2048x64 .bf16) (harg3 : arg3.IsWhole)
    (arg4 : Memref sig .tc .vmem S512x2048 .f32) (harg4 : arg4.IsWhole)
    (x0 : Vec F S512x64 .bf16) (x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__zzt_kernel i arg2 harg2 arg3 harg3 arg4 harg4) K := by
  simp only [cc3__zzt_kernel_eq_skeleton]; unfold cc3__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d

theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

theorem arrRefs3 : Finset.univ.image (Pipeline.arrRef spec3) = [main_v23, main_v24].toFinset := by decide

theorem arrays3_eq (c : Dev nD) (G : (w : Fin cfg3.W) → Buf (Elt F) ((cfg3.win w).arr.view.loc (c.tc : Thread nD τ))) :
    (dat3 V c).arrays G
      = iprop(((((c.tc : Thread nD τ).loc main_v23) ↦{fullShare.left} G 0 : sProp 𝕄))
          ∗ (((c.tc : Thread nD τ).loc main_v23) ↦{fullShare.right} G 1)
          ∗ (((c.tc : Thread nD τ).loc main_v24) ↦{fullShare} G 2)) := by
  unfold Dat.arrays
  rw [bigSep_W3, (arr_whole3 0).set_eq_univ, (arr_whole3 2).set_eq_univ]
  rfl

theorem arrBufs3_eq (c : Dev nD) (W : (b : Ref sig .tc) → Buf (Elt F) ((c : Thread nD τ).loc b)) :
    (Pipeline.arrBufs spec3 c W : sProp 𝕄)
      = iprop((((c.tc : Thread nD τ).loc main_v23) ↦{fullShare} W main_v23) ∗ (((c.tc : Thread nD τ).loc main_v24) ↦{fullShare} W main_v24)) :=
  bigSep_eq_bigSepL_of_eq [main_v23, main_v24] arrRefs3 (by decide) _

theorem arrays_of_arrBufs3 (c : Dev nD) :
    (Pipeline.arrBufs spec3 c (V c) : sProp 𝕄) ⊢ (dat3 V c).arrays ((dat3 V c).arrAt · 0) := by
  rw [arrays3_eq]
  rw [arrBufs3_eq]
  rw [show (dat3 V c).arrAt 0 0 = V c (Pipeline.arrRef spec3 0) from A_eq3 V c 0,
    show (dat3 V c).arrAt 1 0 = V c (Pipeline.arrRef spec3 1) from A_eq3 V c 1,
    show (dat3 V c).arrAt 2 0 = V c (Pipeline.arrRef spec3 2) from A_eq3 V c 2]
  iintro ⟨H23, H24⟩
  ihave H := (pointsTo_share (PosShare.mem_left_op_right fullShare)).1 $$ H23
  icases H with ⟨Hl, Hr⟩
  isplitl [Hl]; · iexact Hl
  isplitl [Hr]; · iexact Hr
  iexact H24

theorem arrBufs_of_arrays3 (V' : (c : Dev nD) → (b : Ref sig .tc) → Buf (Elt F) ((c : Thread nD τ).loc b)) (c : Dev nD)
    (hF : ∀ w, (dat3 V c).arrAt w cfg3.N = V' c (Pipeline.arrRef spec3 w)) :
    (dat3 V c).arrays ((dat3 V c).arrAt · cfg3.N) ⊢ (Pipeline.arrBufs spec3 c (V' c) : sProp 𝕄) := by
  rw [arrays3_eq]
  rw [arrBufs3_eq]
  rw [hF 0, hF 1, hF 2]
  iintro ⟨Hl, Hr, H24⟩
  isplitl [Hl Hr]
  · iapply (pointsTo_share (PosShare.mem_left_op_right fullShare)).2
    isplitl [Hl]; · iexact Hl
    iexact Hr
  iexact H24

end Cert.Kernel.Zzt3
-- ==== Proof.K.Agg4.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Agg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- One point's update of the running sum `a`: restarted from zero where the reduction coordinate is zero. -/
def step4 (c : Dev nD) (n : ℕ) (a : Vec F S1024x128 .f32) : Vec F S1024x128 .f32 :=
  if h : n < cfg4.N then
    k4_pay2 (iblk4 V c 1 ⟨n, h⟩) (iblk4 V c 2 ⟨n, h⟩) (if n % 8 = 0 then k4_pay1 (F := F) else a) (iblk4 V c 0 ⟨n, h⟩)
  else a

/-- The running sum after point `n`. -/
def acc4 (c : Dev nD) : ℕ → Vec F S1024x128 .f32
  | 0 => step4 V c 0 (k4_pay1 (F := F))
  | n + 1 => step4 V c (n + 1) (acc4 c n)

theorem acc4_eq (c : Dev nD) (t : Fin cfg4.N) (a : Vec F S1024x128 .f32) (ha : t.val ≠ 0 → a = acc4 V c (t.val - 1)) :
    k4_pay2 (iblk4 V c 1 t) (iblk4 V c 2 t) (if t.val % 8 = 0 then k4_pay1 (F := F) else a) (iblk4 V c 0 t) = acc4 V c t.val := by
  obtain ⟨n, hn⟩ := t
  cases n with
  | zero => unfold acc4 step4; rw [dif_pos hn, if_pos (Nat.zero_mod 8), if_pos (Nat.zero_mod 8)]
  | succ n =>
    rw [ha (Nat.succ_ne_zero n)]
    show _ = acc4 V c (n + 1)
    rw [acc4, step4, dif_pos hn]; rfl

abbrev cond4_1 (i : grid4.Coords) : Prop := (Scalar.cmpi .ne (Scalar.extui (Scalar.cmpi .eq (BitVec.ofNat 32 (i 1).val) 0#32)) 0#32) = 1#1
theorem hcond4_1 : ∀ t : Fin cfg4.N, cond4_1 (grid4.coords t) ↔ t.val % 8 = 0 :=
  (by decide +kernel : ∀ t : Fin grid4.N, cond4_1 (grid4.coords t) ↔ t.val % 8 = 0)

abbrev cond4_2 (i : grid4.Coords) : Prop := k4_cond2 i = 1#1
theorem hcond4_2 : ∀ t : Fin cfg4.N, cond4_2 (grid4.coords t) ↔ t.val % 8 = 7 :=
  (by decide +kernel : ∀ t : Fin grid4.N, cond4_2 (grid4.coords t) ↔ t.val % 8 = 7)

abbrev r4_O : Rect S1024x128 := Rect.unit (s := S1024x128) ![0, 0] S1024x128.size inb_S1024x128_S1024x128_0_0

theorem zero2 : (![0, 0] : Fin 2 → ℕ) = fun _ => 0 := by
  funext a; fin_cases a <;> rfl

theorem idle4_3 : ∀ t : Fin cfg4.N, cfg4.idle 3 (grid4.coords t) = decide (t.val % 8 ≠ 7) := by decide +kernel

theorem cover4_O {e : EltTy} (p : r4_O.shape.Idx → Elt F e) (L : List (View.Piece (Elt F) S1024x128 e)) (y : S1024x128.Idx) :
    ∃ pc ∈ ((⟨r4_O, p⟩ : View.Piece (Elt F) S1024x128 e) :: L), y ∈ pc.1.set :=
  ⟨_, List.mem_cons_self .., View.mem_set_unit_zero zero2 inb_S1024x128_S1024x128_0_0 y⟩

theorem pay2_congr {x1 x1' : Vec F S1024x64 .bf16} {x2 x2' : Vec F S64x128 .bf16} {a a' : Vec F S1024x128 .f32}
    {x0 x0' : Vec F S1024x1024 .bf16} (h1 : x1 = x1') (h2 : x2 = x2') (ha : a = a') (h0 : x0 = x0') :
    k4_pay2 x1 x2 a x0 = k4_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel4 (c : Dev nD) (E : Set ℕ) (i : grid4.Coords)
    (arg2 : Memref sig .tc .vmem S1024x1024 .bf16) (harg2 : arg2.IsWhole) (arg3 : Memref sig .tc .vmem S1024x64 .bf16) (harg3 : arg3.IsWhole)
    (arg4 : Memref sig .tc .vmem S64x128 .bf16) (harg4 : arg4.IsWhole) (arg5 : Memref sig .tc .vmem S1024x128 .bf16) (harg5 : arg5.IsWhole)
    (arg6 : Memref sig .tc .vmem S1024x128 .f32) (harg6 : arg6.IsWhole)
    (p1 p2 : Prop) [Decidable p1] [Decidable p2] (h1 : cond4_1 i ↔ p1) (h2 : cond4_2 i ↔ p2) (hx : ¬(p1 ∧ p2))
    (x0 : Vec F S1024x1024 .bf16) (x1 : Vec F S1024x64 .bf16) (x2 : Vec F S64x128 .bf16) (x3 : Vec F S1024x128 .bf16)
    (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k4_pay3 (k4_pay2 x1 x2 (if p1 then k4_pay1 (F := F) else a) x0) else x3)
            ∗ owns (c : Thread nD τ) arg6 fullShare (k4_pay2 x1 x2 (if p1 then k4_pay1 (F := F) else a) x0)) -∗ K ⟨⟩))
      ⊢ wp frame (wpE (defs₀ (F := F)) Variants.none c none) E (cc4__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc4__fused_agg_kernel_eq_skeleton]; unfold cc4__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover4_O _ _), View.canon_cons_unit_zero zero2]
           exact congrArg k4_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover4_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM4 : Memref sig .tc .vmem S1024x128 .f32 := Memref.whole cc4_scratch0

abbrev rest4 (c : Dev nD) : sProp 𝕄 := iprop((∃ r, prngReg c r)
  ∗ Pipeline.scopedRestBut (Ix := Unit) (Name := ℕ) (U := UR sig nD τ) (Lvl := ℕ) (Val := Elt F) spec4 c [cc4_scratch0])

/-- The invariant before position `n`: past the first point the running sum is what the point before left. -/
def Phi4 (c : Dev nD) (n : ℕ) : sProp 𝕄 :=
  iprop((∃ d, ⌜n ≠ 0 → d = acc4 V c (n - 1)⌝ ∗ owns (c : Thread nD τ) scM4 fullShare d) ∗ rest4 c)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (acc4 V c t.val) := by
  dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem leaves4_3 (c : Dev nD) (t : Fin cfg4.N) (d) (s : Vec F S1024x128 .f32) (hs : s = acc4 V c t.val) :
    owns (c : Thread nD τ) (st4_3 t) fullShare (if t.val % 8 = 7 then k4_pay3 s else (dat4 V c).before 3 t d)
      ⊢ (dat4 V c).leavesExact 3 t := by
  by_cases h7 : t.val % 8 = 7
  · rw [if_pos h7, hs, ← after4_3]; unfold Dat.leavesExact; rw [idle4_3 t, decide_eq_false (not_not.mpr h7)]
  · rw [if_neg h7, Dat.leavesExact_idle _ 3 t ((idle4_3 t).trans (decide_eq_true h7)) (Bool.eq_false_iff.mpr (mt (flush4_3 t).mp h7))]
    iintro H; iexists d; iexact H

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ (dat4 V c).leavesExact 3 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Phi4 V c (t.val + 1) from rfl,
    show (dat4 V c).Φ t.castSucc = Phi4 V c t.val from rfl]
  unfold Phi4
  iintro ⟨⟨⟨%a, %ha, HS⟩, HR⟩, Ho, ⟨%d0, H0⟩, ⟨%d1, H1⟩, ⟨%d2, H2⟩, ⟨%d3, H3⟩⟩
  iapply (sound_kernel4 c Set.univ (grid4.coords t) _ _ _ _ _ _ _ _ _ _ (t.val % 8 = 0) (t.val % 8 = 7) (hcond4_1 t) (hcond4_2 t)
    (by omega) (iblk4 V c 0 t) (iblk4 V c 1 t) (iblk4 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc4_eq V c t a ha
      iexact HS
    iexact HR
  isplitl [Ho]; · iexact Ho
  isplitl [H0]; · iexact H0
  isplitl [H1]; · iexact H1
  isplitl [H2]; · iexact H2
  iapply (leaves4_3 V c t d3 _ (acc4_eq V c t a ha))
  iexact H3

theorem body_obligation4 (c : Dev nD) : BodyObligation (dat4 (F := F) V c) (defs₀ (F := F)) Variants.none () Set.univ := fun t => by
  rw [bigSep_W4, bigSep_W4]
  exact sound_body4 V c t

theorem phi_in4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, scopedRest4_split]; unfold Phi4
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N from rfl, scopedRest4_split]; unfold Phi4
  simp only [owns_whole]
  iintro ⟨⟨%d, -, HS⟩, Hg, HR⟩
  isplitl [Hg]; · iexact Hg
  isplitl [HS]; · iexists d; iexact HS
  iexact HR

end Cert.Kernel.Agg4

end
-- ==== Proof.K.Agg5.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Agg5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- One point's update of the running sum `a`: restarted from zero where the reduction coordinate is zero. -/
def step5 (c : Dev nD) (n : ℕ) (a : Vec F S1024x256 .f32) : Vec F S1024x256 .f32 :=
  if h : n < cfg5.N then
    k5_pay2 (iblk5 V c 1 ⟨n, h⟩) (iblk5 V c 2 ⟨n, h⟩) (if n % 8 = 0 then k5_pay1 (F := F) else a) (iblk5 V c 0 ⟨n, h⟩)
  else a

/-- The running sum after point `n`. -/
def acc5 (c : Dev nD) : ℕ → Vec F S1024x256 .f32
  | 0 => step5 V c 0 (k5_pay1 (F := F))
  | n + 1 => step5 V c (n + 1) (acc5 c n)

theorem acc5_eq (c : Dev nD) (t : Fin cfg5.N) (a : Vec F S1024x256 .f32) (ha : t.val ≠ 0 → a = acc5 V c (t.val - 1)) :
    k5_pay2 (iblk5 V c 1 t) (iblk5 V c 2 t) (if t.val % 8 = 0 then k5_pay1 (F := F) else a) (iblk5 V c 0 t) = acc5 V c t.val := by
  obtain ⟨n, hn⟩ := t
  cases n with
  | zero => unfold acc5 step5; rw [dif_pos hn, if_pos (Nat.zero_mod 8), if_pos (Nat.zero_mod 8)]
  | succ n =>
    rw [ha (Nat.succ_ne_zero n)]
    show _ = acc5 V c (n + 1)
    rw [acc5, step5, dif_pos hn]; rfl

abbrev cond5_1 (i : grid5.Coords) : Prop := (Scalar.cmpi .ne (Scalar.extui (Scalar.cmpi .eq (BitVec.ofNat 32 (i 1).val) 0#32)) 0#32) = 1#1
theorem hcond5_1 : ∀ t : Fin cfg5.N, cond5_1 (grid5.coords t) ↔ t.val % 8 = 0 :=
  (by decide +kernel : ∀ t : Fin grid5.N, cond5_1 (grid5.coords t) ↔ t.val % 8 = 0)

abbrev cond5_2 (i : grid5.Coords) : Prop := k5_cond2 i = 1#1
theorem hcond5_2 : ∀ t : Fin cfg5.N, cond5_2 (grid5.coords t) ↔ t.val % 8 = 7 :=
  (by decide +kernel : ∀ t : Fin grid5.N, cond5_2 (grid5.coords t) ↔ t.val % 8 = 7)

abbrev r5_O : Rect S1024x256 := Rect.unit (s := S1024x256) ![0, 0] S1024x256.size inb_S1024x256_S1024x256_0_0

theorem zero2 : (![0, 0] : Fin 2 → ℕ) = fun _ => 0 := by
  funext a; fin_cases a <;> rfl

theorem idle5_3 : ∀ t : Fin cfg5.N, cfg5.idle 3 (grid5.coords t) = decide (t.val % 8 ≠ 7) := by decide +kernel

theorem cover5_O {e : EltTy} (p : r5_O.shape.Idx → Elt F e) (L : List (View.Piece (Elt F) S1024x256 e)) (y : S1024x256.Idx) :
    ∃ pc ∈ ((⟨r5_O, p⟩ : View.Piece (Elt F) S1024x256 e) :: L), y ∈ pc.1.set :=
  ⟨_, List.mem_cons_self .., View.mem_set_unit_zero zero2 inb_S1024x256_S1024x256_0_0 y⟩

theorem pay2_congr {x1 x1' : Vec F S1024x128 .bf16} {x2 x2' : Vec F S128x256 .bf16} {a a' : Vec F S1024x256 .f32}
    {x0 x0' : Vec F S1024x1024 .bf16} (h1 : x1 = x1') (h2 : x2 = x2') (ha : a = a') (h0 : x0 = x0') :
    k5_pay2 x1 x2 a x0 = k5_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel5 (c : Dev nD) (E : Set ℕ) (i : grid5.Coords)
    (arg2 : Memref sig .tc .vmem S1024x1024 .bf16) (harg2 : arg2.IsWhole) (arg3 : Memref sig .tc .vmem S1024x128 .bf16) (harg3 : arg3.IsWhole)
    (arg4 : Memref sig .tc .vmem S128x256 .bf16) (harg4 : arg4.IsWhole) (arg5 : Memref sig .tc .vmem S1024x256 .bf16) (harg5 : arg5.IsWhole)
    (arg6 : Memref sig .tc .vmem S1024x256 .f32) (harg6 : arg6.IsWhole)
    (p1 p2 : Prop) [Decidable p1] [Decidable p2] (h1 : cond5_1 i ↔ p1) (h2 : cond5_2 i ↔ p2) (hx : ¬(p1 ∧ p2))
    (x0 : Vec F S1024x1024 .bf16) (x1 : Vec F S1024x128 .bf16) (x2 : Vec F S128x256 .bf16) (x3 : Vec F S1024x256 .bf16)
    (a : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k5_pay3 (k5_pay2 x1 x2 (if p1 then k5_pay1 (F := F) else a) x0) else x3)
            ∗ owns (c : Thread nD τ) arg6 fullShare (k5_pay2 x1 x2 (if p1 then k5_pay1 (F := F) else a) x0)) -∗ K ⟨⟩))
      ⊢ wp frame (wpE (defs₀ (F := F)) Variants.none c none) E (cc5__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc5__fused_agg_kernel_eq_skeleton]; unfold cc5__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover5_O _ _), View.canon_cons_unit_zero zero2]
           exact congrArg k5_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover5_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM5 : Memref sig .tc .vmem S1024x256 .f32 := Memref.whole cc5_scratch0

abbrev rest5 (c : Dev nD) : sProp 𝕄 := iprop((∃ r, prngReg c r)
  ∗ Pipeline.scopedRestBut (Ix := Unit) (Name := ℕ) (U := UR sig nD τ) (Lvl := ℕ) (Val := Elt F) spec5 c [cc5_scratch0])

/-- The invariant before position `n`: past the first point the running sum is what the point before left. -/
def Phi5 (c : Dev nD) (n : ℕ) : sProp 𝕄 :=
  iprop((∃ d, ⌜n ≠ 0 → d = acc5 V c (n - 1)⌝ ∗ owns (c : Thread nD τ) scM5 fullShare d) ∗ rest5 c)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val)
  Φ t := Phi5 V c t.val
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (acc5 V c t.val) := by
  dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

theorem leaves5_3 (c : Dev nD) (t : Fin cfg5.N) (d) (s : Vec F S1024x256 .f32) (hs : s = acc5 V c t.val) :
    owns (c : Thread nD τ) (st5_3 t) fullShare (if t.val % 8 = 7 then k5_pay3 s else (dat5 V c).before 3 t d)
      ⊢ (dat5 V c).leavesExact 3 t := by
  by_cases h7 : t.val % 8 = 7
  · rw [if_pos h7, hs, ← after5_3]; unfold Dat.leavesExact; rw [idle5_3 t, decide_eq_false (not_not.mpr h7)]
  · rw [if_neg h7, Dat.leavesExact_idle _ 3 t ((idle5_3 t).trans (decide_eq_true h7)) (Bool.eq_false_iff.mpr (mt (flush5_3 t).mp h7))]
    iintro H; iexists d; iexact H

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare (iblk5 V c 0 t)
    ∗ owns (c : Thread nD τ) (st5_1 t) fullShare (iblk5 V c 1 t)
    ∗ owns (c : Thread nD τ) (st5_2 t) fullShare (iblk5 V c 2 t)
    ∗ (dat5 V c).leavesExact 3 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    show (dat5 V c).Φ t.succ = Phi5 V c (t.val + 1) from rfl,
    show (dat5 V c).Φ t.castSucc = Phi5 V c t.val from rfl]
  unfold Phi5
  iintro ⟨⟨⟨%a, %ha, HS⟩, HR⟩, Ho, ⟨%d0, H0⟩, ⟨%d1, H1⟩, ⟨%d2, H2⟩, ⟨%d3, H3⟩⟩
  iapply (sound_kernel5 c Set.univ (grid5.coords t) _ _ _ _ _ _ _ _ _ _ (t.val % 8 = 0) (t.val % 8 = 7) (hcond5_1 t) (hcond5_2 t)
    (by omega) (iblk5 V c 0 t) (iblk5 V c 1 t) (iblk5 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc5_eq V c t a ha
      iexact HS
    iexact HR
  isplitl [Ho]; · iexact Ho
  isplitl [H0]; · iexact H0
  isplitl [H1]; · iexact H1
  isplitl [H2]; · iexact H2
  iapply (leaves5_3 V c t d3 _ (acc5_eq V c t a ha))
  iexact H3

theorem body_obligation5 (c : Dev nD) : BodyObligation (dat5 (F := F) V c) (defs₀ (F := F)) Variants.none () Set.univ := fun t => by
  rw [bigSep_W5, bigSep_W5]
  exact sound_body5 V c t

theorem phi_in5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  rw [show (dat5 V c).Φ 0 = Phi5 V c 0 from rfl, scopedRest5_split]; unfold Phi5
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Phi5 V c cfg5.N from rfl, scopedRest5_split]; unfold Phi5
  simp only [owns_whole]
  iintro ⟨⟨%d, -, HS⟩, Hg, HR⟩
  isplitl [Hg]; · iexact Hg
  isplitl [HS]; · iexists d; iexact HS
  iexact HR

end Cert.Kernel.Agg5

end
-- ==== Proof.K.Agg6.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Agg6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- One point's update of the running sum `a`: restarted from zero where the reduction coordinate is zero. -/
def step6 (c : Dev nD) (n : ℕ) (a : Vec F S1024x512 .f32) : Vec F S1024x512 .f32 :=
  if h : n < cfg6.N then
    k6_pay2 (iblk6 V c 1 ⟨n, h⟩) (iblk6 V c 2 ⟨n, h⟩) (if n % 8 = 0 then k6_pay1 (F := F) else a) (iblk6 V c 0 ⟨n, h⟩)
  else a

/-- The running sum after point `n`. -/
def acc6 (c : Dev nD) : ℕ → Vec F S1024x512 .f32
  | 0 => step6 V c 0 (k6_pay1 (F := F))
  | n + 1 => step6 V c (n + 1) (acc6 c n)

theorem acc6_eq (c : Dev nD) (t : Fin cfg6.N) (a : Vec F S1024x512 .f32) (ha : t.val ≠ 0 → a = acc6 V c (t.val - 1)) :
    k6_pay2 (iblk6 V c 1 t) (iblk6 V c 2 t) (if t.val % 8 = 0 then k6_pay1 (F := F) else a) (iblk6 V c 0 t) = acc6 V c t.val := by
  obtain ⟨n, hn⟩ := t
  cases n with
  | zero => unfold acc6 step6; rw [dif_pos hn, if_pos (Nat.zero_mod 8), if_pos (Nat.zero_mod 8)]
  | succ n =>
    rw [ha (Nat.succ_ne_zero n)]
    show _ = acc6 V c (n + 1)
    rw [acc6, step6, dif_pos hn]; rfl

abbrev cond6_1 (i : grid6.Coords) : Prop := (Scalar.cmpi .ne (Scalar.extui (Scalar.cmpi .eq (BitVec.ofNat 32 (i 1).val) 0#32)) 0#32) = 1#1
theorem hcond6_1 : ∀ t : Fin cfg6.N, cond6_1 (grid6.coords t) ↔ t.val % 8 = 0 :=
  (by decide +kernel : ∀ t : Fin grid6.N, cond6_1 (grid6.coords t) ↔ t.val % 8 = 0)

abbrev cond6_2 (i : grid6.Coords) : Prop := k6_cond2 i = 1#1
theorem hcond6_2 : ∀ t : Fin cfg6.N, cond6_2 (grid6.coords t) ↔ t.val % 8 = 7 :=
  (by decide +kernel : ∀ t : Fin grid6.N, cond6_2 (grid6.coords t) ↔ t.val % 8 = 7)

abbrev r6_O : Rect S1024x512 := Rect.unit (s := S1024x512) ![0, 0] S1024x512.size inb_S1024x512_S1024x512_0_0

theorem zero2 : (![0, 0] : Fin 2 → ℕ) = fun _ => 0 := by
  funext a; fin_cases a <;> rfl

theorem idle6_3 : ∀ t : Fin cfg6.N, cfg6.idle 3 (grid6.coords t) = decide (t.val % 8 ≠ 7) := by decide +kernel

theorem cover6_O {e : EltTy} (p : r6_O.shape.Idx → Elt F e) (L : List (View.Piece (Elt F) S1024x512 e)) (y : S1024x512.Idx) :
    ∃ pc ∈ ((⟨r6_O, p⟩ : View.Piece (Elt F) S1024x512 e) :: L), y ∈ pc.1.set :=
  ⟨_, List.mem_cons_self .., View.mem_set_unit_zero zero2 inb_S1024x512_S1024x512_0_0 y⟩

theorem pay2_congr {x1 x1' : Vec F S1024x256 .bf16} {x2 x2' : Vec F S256x512 .bf16} {a a' : Vec F S1024x512 .f32}
    {x0 x0' : Vec F S1024x1024 .bf16} (h1 : x1 = x1') (h2 : x2 = x2') (ha : a = a') (h0 : x0 = x0') :
    k6_pay2 x1 x2 a x0 = k6_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel6 (c : Dev nD) (E : Set ℕ) (i : grid6.Coords)
    (arg2 : Memref sig .tc .vmem S1024x1024 .bf16) (harg2 : arg2.IsWhole) (arg3 : Memref sig .tc .vmem S1024x256 .bf16) (harg3 : arg3.IsWhole)
    (arg4 : Memref sig .tc .vmem S256x512 .bf16) (harg4 : arg4.IsWhole) (arg5 : Memref sig .tc .vmem S1024x512 .f32) (harg5 : arg5.IsWhole)
    (arg6 : Memref sig .tc .vmem S1024x512 .f32) (harg6 : arg6.IsWhole)
    (p1 p2 : Prop) [Decidable p1] [Decidable p2] (h1 : cond6_1 i ↔ p1) (h2 : cond6_2 i ↔ p2) (hx : ¬(p1 ∧ p2))
    (x0 : Vec F S1024x1024 .bf16) (x1 : Vec F S1024x256 .bf16) (x2 : Vec F S256x512 .bf16) (x3 : Vec F S1024x512 .f32)
    (a : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then (k6_pay2 x1 x2 (if p1 then k6_pay1 (F := F) else a) x0) else x3)
            ∗ owns (c : Thread nD τ) arg6 fullShare (k6_pay2 x1 x2 (if p1 then k6_pay1 (F := F) else a) x0)) -∗ K ⟨⟩))
      ⊢ wp frame (wpE (defs₀ (F := F)) Variants.none c none) E (cc6__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc6__fused_agg_kernel_eq_skeleton]; unfold cc6__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover6_O _ _), View.canon_cons_unit_zero zero2]
           exact ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover6_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM6 : Memref sig .tc .vmem S1024x512 .f32 := Memref.whole cc6_scratch0

abbrev rest6 (c : Dev nD) : sProp 𝕄 := iprop((∃ r, prngReg c r)
  ∗ Pipeline.scopedRestBut (Ix := Unit) (Name := ℕ) (U := UR sig nD τ) (Lvl := ℕ) (Val := Elt F) spec6 c [cc6_scratch0])

/-- The invariant before position `n`: past the first point the running sum is what the point before left. -/
def Phi6 (c : Dev nD) (n : ℕ) : sProp 𝕄 :=
  iprop((∃ d, ⌜n ≠ 0 → d = acc6 V c (n - 1)⌝ ∗ owns (c : Thread nD τ) scM6 fullShare d) ∗ rest6 c)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (acc6 V c t.val)
  Φ t := Phi6 V c t.val
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = (acc6 V c t.val) := by
  dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

theorem leaves6_3 (c : Dev nD) (t : Fin cfg6.N) (d) (s : Vec F S1024x512 .f32) (hs : s = acc6 V c t.val) :
    owns (c : Thread nD τ) (st6_3 t) fullShare (if t.val % 8 = 7 then s else (dat6 V c).before 3 t d)
      ⊢ (dat6 V c).leavesExact 3 t := by
  by_cases h7 : t.val % 8 = 7
  · rw [if_pos h7, hs, ← after6_3]; unfold Dat.leavesExact; rw [idle6_3 t, decide_eq_false (not_not.mpr h7)]
  · rw [if_neg h7, Dat.leavesExact_idle _ 3 t ((idle6_3 t).trans (decide_eq_true h7)) (Bool.eq_false_iff.mpr (mt (flush6_3 t).mp h7))]
    iintro H; iexists d; iexact H

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare (iblk6 V c 0 t)
    ∗ owns (c : Thread nD τ) (st6_1 t) fullShare (iblk6 V c 1 t)
    ∗ owns (c : Thread nD τ) (st6_2 t) fullShare (iblk6 V c 2 t)
    ∗ (dat6 V c).leavesExact 3 t)

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) from rfl,
    show (dat6 V c).Φ t.castSucc = Phi6 V c t.val from rfl]
  unfold Phi6
  iintro ⟨⟨⟨%a, %ha, HS⟩, HR⟩, Ho, ⟨%d0, H0⟩, ⟨%d1, H1⟩, ⟨%d2, H2⟩, ⟨%d3, H3⟩⟩
  iapply (sound_kernel6 c Set.univ (grid6.coords t) _ _ _ _ _ _ _ _ _ _ (t.val % 8 = 0) (t.val % 8 = 7) (hcond6_1 t) (hcond6_2 t)
    (by omega) (iblk6 V c 0 t) (iblk6 V c 1 t) (iblk6 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc6_eq V c t a ha
      iexact HS
    iexact HR
  isplitl [Ho]; · iexact Ho
  isplitl [H0]; · iexact H0
  isplitl [H1]; · iexact H1
  isplitl [H2]; · iexact H2
  iapply (leaves6_3 V c t d3 _ (acc6_eq V c t a ha))
  iexact H3

theorem body_obligation6 (c : Dev nD) : BodyObligation (dat6 (F := F) V c) (defs₀ (F := F)) Variants.none () Set.univ := fun t => by
  rw [bigSep_W6, bigSep_W6]
  exact sound_body6 V c t

theorem phi_in6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [show (dat6 V c).Φ 0 = Phi6 V c 0 from rfl, scopedRest6_split]; unfold Phi6
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Phi6 V c cfg6.N from rfl, scopedRest6_split]; unfold Phi6
  simp only [owns_whole]
  iintro ⟨⟨%d, -, HS⟩, Hg, HR⟩
  isplitl [Hg]; · iexact Hg
  isplitl [HS]; · iexists d; iexact HS
  iexact HR

end Cert.Kernel.Agg6

end
-- ==== Proof.K.Zzt7.lean ====
import proofs.«407852_j22428319219864_3_alg».proof.Proof.Gen.Kernel.Launch
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Ring
import Idealize.ShloMosaic.Lib.Tactic

noncomputable section

namespace Cert.Kernel.Zzt7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S512x512 := Rect.unit (s := S512x512) ![0, 0] S512x512.size inb_S512x512_S512x512_0_0
abbrev r7_1 : Rect S2048x512 := Rect.unit (s := S2048x512) ![0, 0] S2048x512.size inb_S2048x512_S2048x512_0_0
abbrev r7_2 : Rect S512x2048 := Rect.unit (s := S512x2048) ![0, 0] S512x2048.size inb_S512x2048_S512x2048_0_0

def out7_2 (x0 : Vec F S512x512 .bf16) (x1 : Vec F S2048x512 .bf16) : Vec F S512x2048 .f32 :=
  View.canon [⟨r7_2, k7_pay1 (View.ld x0 r7_0) (View.ld x1 r7_1)⟩]

theorem cover7_2 (p0 : Vec F S512x2048 .f32) (y : S512x2048.Idx) :
    ∃ pc ∈ ([⟨r7_2, p0⟩] : List (View.Piece (Elt F) S512x2048 .f32)), y ∈ pc.1.set :=
  View.cover_of_tiled [⟨r7_2, p0⟩] S512x2048.size (by rfl) y

set_option maxHeartbeats 1000000 in

theorem sound_kernel7 (c : Dev nD) (E : Set ℕ) (i : grid7.Coords)
    (arg2 : Memref sig .tc .vmem S512x512 .bf16) (harg2 : arg2.IsWhole)
    (arg3 : Memref sig .tc .vmem S2048x512 .bf16) (harg3 : arg3.IsWhole)
    (arg4 : Memref sig .tc .vmem S512x2048 .f32) (harg4 : arg4.IsWhole)
    (x0 : Vec F S512x512 .bf16) (x1 : Vec F S2048x512 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out7_2 x0 x1)) -∗ K ⟨⟩))
      ⊢ wp frame (wpE (defs₀ (F := F)) Variants.none c none) E (cc7__zzt_kernel i arg2 harg2 arg3 harg3 arg4 harg4) K := by
  simp only [cc7__zzt_kernel_eq_skeleton]; unfold cc7__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q w := match w with
    | ⟨0, _⟩ => fullShare.left
    | ⟨1, _⟩ => fullShare.right
    | ⟨2, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (iblk7 V c 0 t) (iblk7 V c 1 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d

theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

theorem arrRefs7 : Finset.univ.image (Pipeline.arrRef spec7) = [main_v32, main_v33].toFinset := by decide

theorem arrays7_eq (c : Dev nD) (G : (w : Fin cfg7.W) → Buf (Elt F) ((cfg7.win w).arr.view.loc (c.tc : Thread nD τ))) :
    (dat7 V c).arrays G
      = iprop(((((c.tc : Thread nD τ).loc main_v32) ↦{fullShare.left} G 0 : sProp 𝕄))
          ∗ (((c.tc : Thread nD τ).loc main_v32) ↦{fullShare.right} G 1)
          ∗ (((c.tc : Thread nD τ).loc main_v33) ↦{fullShare} G 2)) := by
  unfold Dat.arrays
  rw [bigSep_W7, (arr_whole7 0).set_eq_univ, (arr_whole7 2).set_eq_univ]
  rfl

theorem arrBufs7_eq (c : Dev nD) (W : (b : Ref sig .tc) → Buf (Elt F) ((c : Thread nD τ).loc b)) :
    (Pipeline.arrBufs spec7 c W : sProp 𝕄)
      = iprop((((c.tc : Thread nD τ).loc main_v32) ↦{fullShare} W main_v32) ∗ (((c.tc : Thread nD τ).loc main_v33) ↦{fullShare} W main_v33)) :=
  bigSep_eq_bigSepL_of_eq [main_v32, main_v33] arrRefs7 (by decide) _

theorem arrays_of_arrBufs7 (c : Dev nD) :
    (Pipeline.arrBufs spec7 c (V c) : sProp 𝕄) ⊢ (dat7 V c).arrays ((dat7 V c).arrAt · 0) := by
  rw [arrays7_eq]
  rw [arrBufs7_eq]
  rw [show (dat7 V c).arrAt 0 0 = V c (Pipeline.arrRef spec7 0) from A_eq7 V c 0,
    show (dat7 V c).arrAt 1 0 = V c (Pipeline.arrRef spec7 1) from A_eq7 V c 1,
    show (dat7 V c).arrAt 2 0 = V c (Pipeline.arrRef spec7 2) from A_eq7 V c 2]
  iintro ⟨H23, H24⟩
  ihave H := (pointsTo_share (PosShare.mem_left_op_right fullShare)).1 $$ H23
  icases H with ⟨Hl, Hr⟩
  isplitl [Hl]; · iexact Hl
  isplitl [Hr]; · iexact Hr
  iexact H24

theorem arrBufs_of_arrays7 (V' : (c : Dev nD) → (b : Ref sig .tc) → Buf (Elt F) ((c : Thread nD τ).loc b)) (c : Dev nD)
    (hF : ∀ w, (dat7 V c).arrAt w cfg7.N = V' c (Pipeline.arrRef spec7 w)) :
    (dat7 V c).arrays ((dat7 V c).arrAt · cfg7.N) ⊢ (Pipeline.arrBufs spec7 c (V' c) : sProp 𝕄) := by
  rw [arrays7_eq]
  rw [arrBufs7_eq]
  rw [hF 0, hF 1, hF 2]
  iintro ⟨Hl, Hr, H24⟩
  isplitl [Hl Hr]
  · iapply (pointsTo_share (PosShare.mem_left_op_right fullShare)).2
    isplitl [Hl]; · iexact Hl
    iexact Hr
  iexact H24

end Cert.Kernel.Zzt7
-- ==== Proof.K.Run.lean ====
import proofs.«407852_j22428319219864_3_alg».proof.Proof.K.Agg0
import proofs.«407852_j22428319219864_3_alg».proof.Proof.K.Agg1
import proofs.«407852_j22428319219864_3_alg».proof.Proof.K.Agg2
import proofs.«407852_j22428319219864_3_alg».proof.Proof.K.Zzt3
import proofs.«407852_j22428319219864_3_alg».proof.Proof.K.Agg4
import proofs.«407852_j22428319219864_3_alg».proof.Proof.K.Agg5
import proofs.«407852_j22428319219864_3_alg».proof.Proof.K.Agg6
import proofs.«407852_j22428319219864_3_alg».proof.Proof.K.Zzt7
import proofs.«407852_j22428319219864_3_alg».proof.Proof.Gen.Kernel.Regions
import proofs.«407852_j22428319219864_3_alg».proof.Proof.Gen.Kernel.Skeleton
import proofs.«407852_j22428319219864_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg arrRef unscopedRest scopedRest arrBufs ucRefs)

variable {F : FTy → Type} [FloatOps F]

local notation "𝕄" => MT nD τ sig Unit (Elt F) ℕ (UR sig nD τ) ℕ

variable (m : (ℓ : Loc nD τ sig) → Buf (Elt F) ℓ)

/-! What each region leaves in its output, threaded through the program in order. -/
def X1 (c : Dev nD) : Valuation τ sig (Elt F) := V1 m c
def o2 (c : Dev nD) : Buf (Elt F) ((c : Thread nD τ).loc main_v18) :=
  (Agg0.dat0 (fun c b => X1 m c b) c).arrAt 3 cfg0.N
def X3 (c : Dev nD) : Valuation τ sig (Elt F) :=
  StableHlo.after hostOps1 (Function.update (X1 m c) main_v18 (o2 m c))
def o4 (c : Dev nD) : Buf (Elt F) ((c : Thread nD τ).loc main_v20) :=
  (Agg1.dat1 (fun c b => X3 m c b) c).arrAt 3 cfg1.N
def X5 (c : Dev nD) : Valuation τ sig (Elt F) :=
  StableHlo.after hostOps2 (Function.update (X3 m c) main_v20 (o4 m c))
def o6 (c : Dev nD) : Buf (Elt F) ((c : Thread nD τ).loc main_v22) :=
  (Agg2.dat2 (fun c b => X5 m c b) c).arrAt 3 cfg2.N
def X7 (c : Dev nD) : Valuation τ sig (Elt F) :=
  StableHlo.after hostOps3 (Function.update (X5 m c) main_v22 (o6 m c))
def o8 (c : Dev nD) : Buf (Elt F) ((c : Thread nD τ).loc main_v24) :=
  (Zzt3.dat3 (fun c b => X7 m c b) c).arrAt 2 cfg3.N
def X9 (c : Dev nD) : Valuation τ sig (Elt F) :=
  StableHlo.after hostOps4 (Function.update (X7 m c) main_v24 (o8 m c))
def o10 (c : Dev nD) : Buf (Elt F) ((c : Thread nD τ).loc main_v27) :=
  (Agg4.dat4 (fun c b => X9 m c b) c).arrAt 3 cfg4.N
def X11 (c : Dev nD) : Valuation τ sig (Elt F) :=
  StableHlo.after hostOps5 (Function.update (X9 m c) main_v27 (o10 m c))
def o12 (c : Dev nD) : Buf (Elt F) ((c : Thread nD τ).loc main_v29) :=
  (Agg5.dat5 (fun c b => X11 m c b) c).arrAt 3 cfg5.N
def X13 (c : Dev nD) : Valuation τ sig (Elt F) :=
  StableHlo.after hostOps6 (Function.update (X11 m c) main_v29 (o12 m c))
def o14 (c : Dev nD) : Buf (Elt F) ((c : Thread nD τ).loc main_v31) :=
  (Agg6.dat6 (fun c b => X13 m c b) c).arrAt 3 cfg6.N
def X15 (c : Dev nD) : Valuation τ sig (Elt F) :=
  StableHlo.after hostOps7 (Function.update (X13 m c) main_v31 (o14 m c))
def o16 (c : Dev nD) : Buf (Elt F) ((c : Thread nD τ).loc main_v33) :=
  (Zzt7.dat7 (fun c b => X15 m c b) c).arrAt 2 cfg7.N
def outsOf : Outs (F := F) := fun _ r c =>
  if h : r = main_v18 then h ▸ o2 m c
  else if h : r = main_v20 then h ▸ o4 m c
  else if h : r = main_v22 then h ▸ o6 m c
  else if h : r = main_v24 then h ▸ o8 m c
  else if h : r = main_v27 then h ▸ o10 m c
  else if h : r = main_v29 then h ▸ o12 m c
  else if h : r = main_v31 then h ▸ o14 m c
  else if h : r = main_v33 then h ▸ o16 m c
  else m ((c : Thread nD τ).loc r)
theorem outsOf_2 (J : ℕ) (c : Dev nD) : outsOf m J main_v18 c = o2 m c := by
  unfold outsOf; (repeat rw [dif_neg (by decide)]); rw [dif_pos rfl]
theorem outsOf_4 (J : ℕ) (c : Dev nD) : outsOf m J main_v20 c = o4 m c := by
  unfold outsOf; (repeat rw [dif_neg (by decide)]); rw [dif_pos rfl]
theorem outsOf_6 (J : ℕ) (c : Dev nD) : outsOf m J main_v22 c = o6 m c := by
  unfold outsOf; (repeat rw [dif_neg (by decide)]); rw [dif_pos rfl]
theorem outsOf_8 (J : ℕ) (c : Dev nD) : outsOf m J main_v24 c = o8 m c := by
  unfold outsOf; (repeat rw [dif_neg (by decide)]); rw [dif_pos rfl]
theorem outsOf_10 (J : ℕ) (c : Dev nD) : outsOf m J main_v27 c = o10 m c := by
  unfold outsOf; (repeat rw [dif_neg (by decide)]); rw [dif_pos rfl]
theorem outsOf_12 (J : ℕ) (c : Dev nD) : outsOf m J main_v29 c = o12 m c := by
  unfold outsOf; (repeat rw [dif_neg (by decide)]); rw [dif_pos rfl]
theorem outsOf_14 (J : ℕ) (c : Dev nD) : outsOf m J main_v31 c = o14 m c := by
  unfold outsOf; (repeat rw [dif_neg (by decide)]); rw [dif_pos rfl]
theorem outsOf_16 (J : ℕ) (c : Dev nD) : outsOf m J main_v33 c = o16 m c := by
  unfold outsOf; (repeat rw [dif_neg (by decide)]); rw [dif_pos rfl]
theorem V1_eq (c : Dev nD) : V1 m c = X1 m c := rfl
theorem V3_eq (c : Dev nD) : V3 m (outsOf m) c = X3 m c := by
  unfold X3; rw [← V1_eq, ← outsOf_2 m 2 c]
theorem V5_eq (c : Dev nD) : V5 m (outsOf m) c = X5 m c := by
  unfold X5; rw [← V3_eq, ← outsOf_4 m 4 c]
theorem V7_eq (c : Dev nD) : V7 m (outsOf m) c = X7 m c := by
  unfold X7; rw [← V5_eq, ← outsOf_6 m 6 c]
theorem V9_eq (c : Dev nD) : V9 m (outsOf m) c = X9 m c := by
  unfold X9; rw [← V7_eq, ← outsOf_8 m 8 c]
theorem V11_eq (c : Dev nD) : V11 m (outsOf m) c = X11 m c := by
  unfold X11; rw [← V9_eq, ← outsOf_10 m 10 c]
theorem V13_eq (c : Dev nD) : V13 m (outsOf m) c = X13 m c := by
  unfold X13; rw [← V11_eq, ← outsOf_12 m 12 c]
theorem V15_eq (c : Dev nD) : V15 m (outsOf m) c = X15 m c := by
  unfold X15; rw [← V13_eq, ← outsOf_14 m 14 c]

/-- A valuation per core, read at the core's references. -/
abbrev rd (V : Dev nD → Valuation τ sig (Elt F)) : (c : Dev nD) → (b : Ref sig .tc) → Buf (Elt F) ((c : Thread nD τ).loc b) :=
  fun c b => V c b
/-- Valuations equal at every core read the same there. -/
theorem enx {V X : Dev nD → Valuation τ sig (Elt F)} (h : ∀ c, V c = X c) : rd V = rd X := by
  funext c b; unfold rd; rw [h]
abbrev En1 := rd (V1 m)
theorem EnX1 : En1 m = fun (c : Dev nD) (b : Ref sig .tc) => X1 m c b := enx (V1_eq m)
abbrev En3 := rd (V3 m (outsOf m))
theorem EnX3 : En3 m = fun (c : Dev nD) (b : Ref sig .tc) => X3 m c b := enx (V3_eq m)
abbrev En5 := rd (V5 m (outsOf m))
theorem EnX5 : En5 m = fun (c : Dev nD) (b : Ref sig .tc) => X5 m c b := enx (V5_eq m)
abbrev En7 := rd (V7 m (outsOf m))
theorem EnX7 : En7 m = fun (c : Dev nD) (b : Ref sig .tc) => X7 m c b := enx (V7_eq m)
abbrev En9 := rd (V9 m (outsOf m))
theorem EnX9 : En9 m = fun (c : Dev nD) (b : Ref sig .tc) => X9 m c b := enx (V9_eq m)
abbrev En11 := rd (V11 m (outsOf m))
theorem EnX11 : En11 m = fun (c : Dev nD) (b : Ref sig .tc) => X11 m c b := enx (V11_eq m)
abbrev En13 := rd (V13 m (outsOf m))
theorem EnX13 : En13 m = fun (c : Dev nD) (b : Ref sig .tc) => X13 m c b := enx (V13_eq m)
abbrev En15 := rd (V15 m (outsOf m))
theorem EnX15 : En15 m = fun (c : Dev nD) (b : Ref sig .tc) => X15 m c b := enx (V15_eq m)

def pdats : (p : Fin 8) → (c : Dev nD) → Dat τ (Elt F) Unit ℕ (UR sig nD τ) ℕ (cfgs p) c
  | ⟨0, _⟩ => Agg0.dat0 (En1 m)
  | ⟨1, _⟩ => Agg1.dat1 (En3 m)
  | ⟨2, _⟩ => Agg2.dat2 (En5 m)
  | ⟨3, _⟩ => Zzt3.dat3 (En7 m)
  | ⟨4, _⟩ => Agg4.dat4 (En9 m)
  | ⟨5, _⟩ => Agg5.dat5 (En11 m)
  | ⟨6, _⟩ => Agg6.dat6 (En13 m)
  | ⟨7, _⟩ => Zzt7.dat7 (En15 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem owed0 (p : Fin 8) (c : Dev nD) (t) : (pdats m p c).owed t = 0 := by fin_cases p <;> rfl
theorem rec0 (p : Fin 8) (c : Dev nD) (t) : (pdats m p c).recorded t = Set.univ := by fin_cases p <;> rfl

/-- Every unscoped buffer of a core, whole at a valuation. -/
abbrev heldAt (V : Dev nD → Valuation τ sig (Elt F)) (c : Dev nD) : sProp 𝕄 :=
  StableHlo.held (c : Thread nD τ) (ucRefs τ sig) (V c)

/-- The buffers that are no array of a region, at two valuations that agree off the region's arrays. -/
theorem unscopedRest_congr {gr : Nat} {W : Nat} (win : Fin W → Pipeline.WinSpec sig gr) (c : Dev nD)
    (V V' : (b : Ref sig .tc) → Buf (Elt F) ((c : Thread nD τ).loc b))
    (h : ∀ b, b ∉ Finset.univ.image (arrRef win) → V' b = V b) :
    (unscopedRest (Ix := Unit) (Name := ℕ) (U := UR sig nD τ) (Lvl := ℕ) win c V : sProp 𝕄) = unscopedRest win c V' := by
  unfold Pipeline.unscopedRest
  exact bigSep_congr fun b hb => by rw [h b (Finset.mem_sdiff.mp hb).2]

section Region

variable (p : Fin 8) (Vi Vo : Dev nD → Valuation τ sig (Elt F))

/-- A region's arrays when it is left, its output window `wo`'s array alone differing: an input's array is never written. -/
theorem exit_vals (c : Dev nD) (wo : Fin (cfgs p).W) (x : Buf (Elt F) ((c : Thread nD τ).loc (arrRef (cfgs p).spec wo)))
    (hVo : Vo c = Function.update (Vi c) (arrRef (cfgs p).spec wo) x)
    (hio : ∀ w, w ≠ wo → ((cfgs p).win w).isOut = false ∧ arrRef (cfgs p).spec w ≠ arrRef (cfgs p).spec wo)
    (hA : ∀ w, (pdats m p c).A w = rd Vi c (arrRef (cfgs p).spec w))
    (ho : (pdats m p c).arrAt wo (cfgs p).N = x) :
    (∀ w, (pdats m p c).arrAt w (cfgs p).N = rd Vo c (arrRef (cfgs p).spec w))
      ∧ ∀ b, b ∉ Finset.univ.image (arrRef (cfgs p).spec) → rd Vo c b = rd Vi c b := by
  unfold rd at *
  have hof : ∀ r : Ref sig .tc, r ≠ arrRef (cfgs p).spec wo → (Vo c r : Buf (Elt F) ((c : Thread nD τ).loc r)) = Vi c r :=
    fun r h => by rw [hVo, Function.update_of_ne (StableHlo.devRef_ne_of_ne h)]
  refine ⟨fun w => ?_, fun b hb => hof b fun h => hb (Finset.mem_image.mpr ⟨wo, Finset.mem_univ _, h.symm⟩)⟩
  rcases eq_or_ne w wo with rfl | h
  · rw [hVo, Function.update_self]; exact ho
  · exact ((pdats m p c).arrAt_in w (hio w h).1 _).trans ((hA w).trans (hof _ (hio w h).2).symm)

variable (hb : ∀ c, BodyObligation (pdats m p c) (defs₀ (F := F)) 𝒱₀ () Set.univ)
  (hΦi : ∀ c, iprop((∃ r, prngReg c r) ∗ scopedRest (cfgs p).spec c) ⊢ (pdats m p c).Φ 0)
  (hΦo : ∀ c, (pdats m p c).Φ (Fin.last (cfgs p).N) ⊢ iprop((∃ r, prngReg c r) ∗ scopedRest (cfgs p).spec c))

set_option backward.isDefEq.respectTransparency.types false in
/-- A region entered with every unscoped buffer at `Vi` and left with them at `Vo`, its arrays leaving and rejoining the buffers by `hs` and `hj`. -/
def mkReg (win : Pipeline.WinFacts₀ (cfgs p).spec) (bp : ∀ w : Fin (cfgs p).W, 0 < ((cfgs p).spec w).block.numel)
    (sw : ∀ (w : Fin (cfgs p).W) (s : Fin ((cfgs p).spec w).nbuf), (((cfgs p).spec w).stage s).IsWhole)
    (hs : ∀ c : Dev nD, heldAt Vi c
      ⊢ iprop((pdats m p c).arrays ((pdats m p c).arrAt · 0) ∗ unscopedRest (cfgs p).spec c (rd Vi c)))
    (hj : ∀ c : Dev nD, iprop((pdats m p c).arrays ((pdats m p c).arrAt · (cfgs p).N) ∗ unscopedRest (cfgs p).spec c (rd Vi c))
      ⊢ heldAt Vo c) :
    RegionSeg (pcfgs (F := F)) adm (pdats m) () defs₀ 𝒱₀ L lv p where
  win := win
  block_pos := bp
  stage_whole := sw
  K := PEmpty
  osem k := k.elim
  ho := Pipeline.OwnSemFacts.none _
  hbody c := (hb c).loose
  hwaits := Pipeline.hwaits_of_owed_zero _ _ _ _ L lv p (owed0 m p)
  pre c := iprop(heldAt Vi c ∗ R c)
  post c := iprop(heldAt Vo c ∗ R c)
  X c := iprop(∃ r, prngReg c r)
  Y c := iprop(∃ r, prngReg c r)
  Z c := unscopedRest (cfgs p).spec c (rd Vi c)
  hentry c := by
    rw [Pipeline.ownSems0_none]; unfold Pipeline.Dat.owesAt Pipeline.owesWithin; rw [owed0]
    iintro ⟨⟨Hub, Hp, HO⟩, -, -⟩
    ihave H := hs c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (rec0 m p c 0 ▸ Set.mem_univ x)
      iexact HO
    isplitl [Hp]; · iexact Hp
    iexact Hrest
  hin c := by
    refine .trans ?_ (hΦi c)
    iintro ⟨Hp, -, Hr⟩
    isplitl [Hp]; · iexact Hp
    iexact Hr
  hout c := by
    rw [Pipeline.ownSems0_none]
    refine (hΦo c).trans ?_
    iintro ⟨Hp, Hr⟩
    isplitl [Hp]; · iexact Hp
    isplitr; · iempintro
    iexact Hr
  hexit c := by
    unfold Pipeline.Dat.owesAt Pipeline.owesWithin; rw [owed0]
    iintro ⟨Ha, HO, HY, Hrest⟩
    imodintro
    isplitl [Ha Hrest]
    · iapply hj c; isplitl [Ha] <;> iassumption
    isplitl [HY]; · iexact HY
    icases HO with ⟨%W, -, HO⟩; iexists W; iexact HO

/-- A region whose windows read distinct arrays, each a whole buffer held at the full share. -/
def mkAgg (lk : Pipeline.LaunchFacts (nD := nD) (τ := τ) cfgs p) (hq : ∀ c w, (pdats m p c).q w = fullShare)
    (hA : ∀ c w, (pdats m p c).A w = rd Vi c (arrRef (cfgs p).spec w))
    (hx : ∀ c, (∀ w, (pdats m p c).arrAt w (cfgs p).N = rd Vo c (arrRef (cfgs p).spec w))
      ∧ ∀ b, b ∉ Finset.univ.image (arrRef (cfgs p).spec) → rd Vo c b = rd Vi c b) :=
  mkReg m p Vi Vo hb hΦi hΦo lk.win.to₀ lk.block_pos lk.stage_whole
    (fun c => (Entails.of_eq (Pipeline.unscopedBufs_held c (Vi c)).symm).trans
      (Pipeline.arrays_of_unscopedBufs (p := p) (pcfgs (F := F)) adm (pdats m) lk.win lk.arr_whole c
        ((pdats m p c).share_full (hq c)) (rd Vi c) (hA c)))
    (fun c => (Pipeline.unscopedBufs_of_arrays (p := p) (pcfgs (F := F)) adm
        lk.win lk.arr_whole c (pdats m) ((pdats m p c).share_full (hq c)) (rd Vi c) (rd Vo c) ((pdats m p c).arrAt · (cfgs p).N)
        (hx c).1 (hx c).2).trans (Entails.of_eq (Pipeline.unscopedBufs_held c (Vo c))))

/-- Entry through the distinct buffers behind a region's arrays. -/
theorem split_via (hw : Pipeline.WinFacts₀ (cfgs p).spec) (c : Dev nD) {A : sProp 𝕄}
    (h : (arrBufs (cfgs p).spec c (rd Vi c) : sProp 𝕄) ⊢ A) :
    heldAt Vi c ⊢ iprop(A ∗ unscopedRest (cfgs p).spec c (rd Vi c)) :=
  (Entails.of_eq ((Pipeline.unscopedBufs_held c (Vi c)).symm.trans
    (Pipeline.unscopedBufs_split₀ cfgs p hw.arr_unscoped c (rd Vi c)))).trans (BIClass.sep_mono h .rfl)

/-- Exit through them, every other buffer reading the same before and after. -/
theorem join_via (hw : Pipeline.WinFacts₀ (cfgs p).spec) (c : Dev nD) {A : sProp 𝕄}
    (h : A ⊢ (arrBufs (cfgs p).spec c (rd Vo c) : sProp 𝕄))
    (hrest : ∀ b, b ∉ Finset.univ.image (arrRef (cfgs p).spec) → rd Vo c b = rd Vi c b) :
    iprop(A ∗ unscopedRest (cfgs p).spec c (rd Vi c)) ⊢ heldAt Vo c :=
  (BIClass.sep_mono h (Entails.of_eq (unscopedRest_congr (cfgs p).spec c (rd Vi c) (rd Vo c) hrest))).trans (Entails.of_eq
    ((Pipeline.unscopedBufs_split₀ cfgs p hw.arr_unscoped c (rd Vo c)).symm.trans
      (Pipeline.unscopedBufs_held c (Vo c))))

end Region

def reg0 :=
  mkAgg m 0 (V1 m) (V2 m (outsOf m)) (Agg0.body_obligation0 (En1 m))
    (Agg0.phi_in0 (En1 m)) (Agg0.phi_out0 (En1 m)) launch0 (fun _ _ => rfl) (Agg0.A_eq0 (En1 m)) fun c =>
    exit_vals m 0 (V1 m) (V2 m (outsOf m)) c 3 _ rfl (by decide) (Agg0.A_eq0 (En1 m) c)
      ((congrArg (fun V => (Agg0.dat0 V c).arrAt 3 cfg0.N) (EnX1 m)).trans (outsOf_2 m 2 c).symm)

def reg1 :=
  mkAgg m 1 (V3 m (outsOf m)) (V4 m (outsOf m)) (Agg1.body_obligation1 (En3 m))
    (Agg1.phi_in1 (En3 m)) (Agg1.phi_out1 (En3 m)) launch1 (fun _ _ => rfl) (Agg1.A_eq1 (En3 m)) fun c =>
    exit_vals m 1 (V3 m (outsOf m)) (V4 m (outsOf m)) c 3 _ rfl (by decide) (Agg1.A_eq1 (En3 m) c)
      ((congrArg (fun V => (Agg1.dat1 V c).arrAt 3 cfg1.N) (EnX3 m)).trans (outsOf_4 m 4 c).symm)

def reg2 :=
  mkAgg m 2 (V5 m (outsOf m)) (V6 m (outsOf m)) (Agg2.body_obligation2 (En5 m))
    (Agg2.phi_in2 (En5 m)) (Agg2.phi_out2 (En5 m)) launch2 (fun _ _ => rfl) (Agg2.A_eq2 (En5 m)) fun c =>
    exit_vals m 2 (V5 m (outsOf m)) (V6 m (outsOf m)) c 3 _ rfl (by decide) (Agg2.A_eq2 (En5 m) c)
      ((congrArg (fun V => (Agg2.dat2 V c).arrAt 3 cfg2.N) (EnX5 m)).trans (outsOf_6 m 6 c).symm)

def reg3 :=
  mkReg m 3 (V7 m (outsOf m)) (V8 m (outsOf m)) (Zzt3.body_obligation3 (En7 m)) (fun _ => sep_symm) (fun _ => sep_symm)
    winFacts₀3 block_pos3 stage_whole3
    (fun c => split_via 3 _ winFacts₀3 c (Zzt3.arrays_of_arrBufs3 (En7 m) c))
    fun c => have e := (exit_vals m 3 (V7 m (outsOf m)) (V8 m (outsOf m)) c 2 _ rfl (by decide) (Zzt3.A_eq3 (En7 m) c)
      ((congrArg (fun V => (Zzt3.dat3 V c).arrAt 2 cfg3.N) (EnX7 m)).trans (outsOf_8 m 8 c).symm));
      join_via 3 _ _ winFacts₀3 c (Zzt3.arrBufs_of_arrays3 (En7 m) (rd (V8 m (outsOf m))) c e.1) e.2

def reg4 :=
  mkAgg m 4 (V9 m (outsOf m)) (V10 m (outsOf m)) (Agg4.body_obligation4 (En9 m))
    (Agg4.phi_in4 (En9 m)) (Agg4.phi_out4 (En9 m)) launch4 (fun _ _ => rfl) (Agg4.A_eq4 (En9 m)) fun c =>
    exit_vals m 4 (V9 m (outsOf m)) (V10 m (outsOf m)) c 3 _ rfl (by decide) (Agg4.A_eq4 (En9 m) c)
      ((congrArg (fun V => (Agg4.dat4 V c).arrAt 3 cfg4.N) (EnX9 m)).trans (outsOf_10 m 10 c).symm)

def reg5 :=
  mkAgg m 5 (V11 m (outsOf m)) (V12 m (outsOf m)) (Agg5.body_obligation5 (En11 m))
    (Agg5.phi_in5 (En11 m)) (Agg5.phi_out5 (En11 m)) launch5 (fun _ _ => rfl) (Agg5.A_eq5 (En11 m)) fun c =>
    exit_vals m 5 (V11 m (outsOf m)) (V12 m (outsOf m)) c 3 _ rfl (by decide) (Agg5.A_eq5 (En11 m) c)
      ((congrArg (fun V => (Agg5.dat5 V c).arrAt 3 cfg5.N) (EnX11 m)).trans (outsOf_12 m 12 c).symm)

def reg6 :=
  mkAgg m 6 (V13 m (outsOf m)) (V14 m (outsOf m)) (Agg6.body_obligation6 (En13 m))
    (Agg6.phi_in6 (En13 m)) (Agg6.phi_out6 (En13 m)) launch6 (fun _ _ => rfl) (Agg6.A_eq6 (En13 m)) fun c =>
    exit_vals m 6 (V13 m (outsOf m)) (V14 m (outsOf m)) c 3 _ rfl (by decide) (Agg6.A_eq6 (En13 m) c)
      ((congrArg (fun V => (Agg6.dat6 V c).arrAt 3 cfg6.N) (EnX13 m)).trans (outsOf_14 m 14 c).symm)

def reg7 :=
  mkReg m 7 (V15 m (outsOf m)) (V16 m (outsOf m)) (Zzt7.body_obligation7 (En15 m)) (fun _ => sep_symm) (fun _ => sep_symm)
    winFacts₀7 block_pos7 stage_whole7
    (fun c => split_via 7 _ winFacts₀7 c (Zzt7.arrays_of_arrBufs7 (En15 m) c))
    fun c => have e := (exit_vals m 7 (V15 m (outsOf m)) (V16 m (outsOf m)) c 2 _ rfl (by decide) (Zzt7.A_eq7 (En15 m) c)
      ((congrArg (fun V => (Zzt7.dat7 V c).arrAt 2 cfg7.N) (EnX15 m)).trans (outsOf_16 m 16 c).symm));
      join_via 7 _ _ winFacts₀7 c (Zzt7.arrBufs_of_arrays7 (En15 m) (rd (V16 m (outsOf m))) c e.1) e.2

def res22 (c : Dev nD) : Buf (Elt F) ((c : Thread nD τ).loc main_v22) := V16 m (outsOf m) c main_v22
def res24 (c : Dev nD) : Buf (Elt F) ((c : Thread nD τ).loc main_v24) := V16 m (outsOf m) c main_v24
def res31 (c : Dev nD) : Buf (Elt F) ((c : Thread nD τ).loc main_v31) := V16 m (outsOf m) c main_v31
def res33 (c : Dev nD) : Buf (Elt F) ((c : Thread nD τ).loc main_v33) := V16 m (outsOf m) c main_v33

abbrev segsR (c : Dev nD) :=
  segs m (outsOf m) 𝒱₀ L lv (fun _ c => R c) () (pdats m) (reg0 m) (reg1 m) (reg2 m) (reg3 m) (reg4 m) (reg5 m) (reg6 m) (reg7 m) c

set_option backward.isDefEq.respectTransparency.types false in
/-- Every fair execution terminates with the four results at the threaded contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v22) = res22 m c
      ∧ r.2.mem ((c.tc : Thread nD τ).loc main_v24) = res24 m c
      ∧ r.2.mem ((c.tc : Thread nD τ).loc main_v31) = res31 m c
      ∧ r.2.mem ((c.tc : Thread nD τ).loc main_v33) = res33 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segsR m)
    (fun c Q => by rewrite [main_chain c, Seg.run_eq_chain]; exact .rfl)
    (fun c => by simp only [segsR, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (V0 m) c ∗ R c))
    (Tₙ := fun c => iprop(heldAt (V16 m (outsOf m)) c ∗ ∃ r, prngReg c r))
    (hch := fun c => ⟨.rfl, .rfl, .rfl, .rfl, .rfl, .rfl, .rfl, .rfl, .rfl, .rfl, .rfl, .rfl, .rfl, .rfl, .rfl, .rfl, BI.sep_assoc'⟩)
    (hinit := by
      refine Pipeline.initEach L lv fun c => ?_
      rw [show unscopedBufs c (fun b => m ((c : Thread nD τ).loc b)) = heldAt (V0 m) c
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := _) (hfin := fun c s' => ?_) (hQ := fun _ h => h)
  unfold heldAt StableHlo.held
  iintro ⟨⟨Hh, -⟩, HSI⟩
  ihave Hr := (pointsTo_read_all (ucRefs τ sig) (fun b => ((c : Thread nD τ).1, b)) (V16 m (outsOf m) c) s') $$ [Hh HSI]
  · isplitl [Hh] <;> iassumption
  icases Hr with ⟨%h, HSI⟩
  imodintro
  isplitr
  · ipureintro
    have g := fun (r : Ref sig .tc) hs => h (Proc.devRef .tc r) (Finset.mem_filter.mpr ⟨StableHlo.devRef_mem_tcRefs r, hs⟩)
    exact ⟨g main_v22 (by decide), g main_v24 (by decide), g main_v31 (by decide), g main_v33 (by decide),
      (g main_arg0 (by decide)).trans (V16_main_arg0 m (outsOf m) c),
      (g main_arg1 (by decide)).trans (V16_main_arg1 m (outsOf m) c),
      (g main_arg2 (by decide)).trans (V16_main_arg2 m (outsOf m) c),
      (g main_arg3 (by decide)).trans (V16_main_arg3 m (outsOf m) c),
      (g main_arg4 (by decide)).trans (V16_main_arg4 m (outsOf m) c),
      (g main_arg5 (by decide)).trans (V16_main_arg5 m (outsOf m) c),
      (g main_arg6 (by decide)).trans (V16_main_arg6 m (outsOf m) c),
      (g main_arg7 (by decide)).trans (V16_main_arg7 m (outsOf m) c),
      (g main_arg8 (by decide)).trans (V16_main_arg8 m (outsOf m) c),
      (g main_arg9 (by decide)).trans (V16_main_arg9 m (outsOf m) c)⟩
  · iexact HSI

end Cert.Kernel.Run

end
-- ==== Proof.KI.Agg0.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Agg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the running sum `a`: restarted from zero where the reduction coordinate is zero. -/
def step0 (c : Dev nD) (n : ℕ) (a : Vec F S1024x256 .f32) : Vec F S1024x256 .f32 :=
  if h : n < cfg0.N then
    k0_pay2 (iblk0 V c 1 ⟨n, h⟩) (iblk0 V c 2 ⟨n, h⟩) (if n % 8 = 0 then k0_pay1 (F := F) else a) (iblk0 V c 0 ⟨n, h⟩)
  else a

/-- The running sum after point `n`. -/
def acc0 (c : Dev nD) : ℕ → Vec F S1024x256 .f32
  | 0 => step0 V c 0 (k0_pay1 (F := F))
  | n + 1 => step0 V c (n + 1) (acc0 c n)

theorem acc0_eq (c : Dev nD) (t : Fin cfg0.N) (a : Vec F S1024x256 .f32) (ha : t.val ≠ 0 → a = acc0 V c (t.val - 1)) :
    k0_pay2 (iblk0 V c 1 t) (iblk0 V c 2 t) (if t.val % 8 = 0 then k0_pay1 (F := F) else a) (iblk0 V c 0 t) = acc0 V c t.val := by
  obtain ⟨n, hn⟩ := t
  cases n with
  | zero => unfold acc0 step0; rw [dif_pos hn, if_pos (Nat.zero_mod 8), if_pos (Nat.zero_mod 8)]
  | succ n =>
    rw [ha (Nat.succ_ne_zero n)]
    show _ = acc0 V c (n + 1)
    rw [acc0, step0, dif_pos hn]; rfl

abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

abbrev cond0_2 (i : grid0.Coords) : Prop := k0_cond2 i = 1#1
theorem hcond0_2 : ∀ t : Fin cfg0.N, cond0_2 (grid0.coords t) ↔ t.val % 8 = 7 :=
  (by decide +kernel : ∀ t : Fin grid0.N, cond0_2 (grid0.coords t) ↔ t.val % 8 = 7)

abbrev r0_O : Rect S1024x256 := Rect.unit (s := S1024x256) ![0, 0] S1024x256.size inb_S1024x256_S1024x256_0_0

theorem zero2 : (![0, 0] : Fin 2 → ℕ) = fun _ => 0 := by
  funext a; fin_cases a <;> rfl

theorem idle0_3 : ∀ t : Fin cfg0.N, cfg0.idle 3 (grid0.coords t) = decide (t.val % 8 ≠ 7) := by decide +kernel

theorem cover0_O {e : EltTy} (p : r0_O.shape.Idx → Elt F e) (L : List (View.Piece (Elt F) S1024x256 e)) (y : S1024x256.Idx) :
    ∃ pc ∈ ((⟨r0_O, p⟩ : View.Piece (Elt F) S1024x256 e) :: L), y ∈ pc.1.set :=
  ⟨_, List.mem_cons_self .., View.mem_set_unit_zero zero2 inb_S1024x256_S1024x256_0_0 y⟩

theorem pay2_congr {x1 x1' : Vec F S1024x512 .bf16} {x2 x2' : Vec F S512x256 .bf16} {a a' : Vec F S1024x256 .f32}
    {x0 x0' : Vec F S1024x1024 .bf16} (h1 : x1 = x1') (h2 : x2 = x2') (ha : a = a') (h0 : x0 = x0') :
    k0_pay2 x1 x2 a x0 = k0_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel0 (c : Dev nD) (E : Set ℕ) (i : grid0.Coords)
    (arg2 : Memref sig .tc .vmem S1024x1024 .bf16) (harg2 : arg2.IsWhole) (arg3 : Memref sig .tc .vmem S1024x512 .bf16) (harg3 : arg3.IsWhole)
    (arg4 : Memref sig .tc .vmem S512x256 .bf16) (harg4 : arg4.IsWhole) (arg5 : Memref sig .tc .vmem S1024x256 .bf16) (harg5 : arg5.IsWhole)
    (arg6 : Memref sig .tc .vmem S1024x256 .f32) (harg6 : arg6.IsWhole)
    (p1 p2 : Prop) [Decidable p1] [Decidable p2] (h1 : cond0_1 i ↔ p1) (h2 : cond0_2 i ↔ p2) (hx : ¬(p1 ∧ p2))
    (x0 : Vec F S1024x1024 .bf16) (x1 : Vec F S1024x512 .bf16) (x2 : Vec F S512x256 .bf16) (x3 : Vec F S1024x256 .bf16)
    (a : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k0_pay3 (k0_pay2 x1 x2 (if p1 then k0_pay1 (F := F) else a) x0) else x3)
            ∗ owns (c : Thread nD τ) arg6 fullShare (k0_pay2 x1 x2 (if p1 then k0_pay1 (F := F) else a) x0)) -∗ K ⟨⟩))
      ⊢ wp frame (wpE (defs₀ (F := F)) Variants.none c none) E (cc0__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc0__fused_agg_kernel_eq_skeleton]; unfold cc0__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover0_O _ _), View.canon_cons_unit_zero zero2]
           exact congrArg k0_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover0_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM0 : Memref sig .tc .vmem S1024x256 .f32 := Memref.whole cc0_scratch0

abbrev rest0 (c : Dev nD) : sProp 𝕄 := iprop((∃ r, prngReg c r)
  ∗ Pipeline.scopedRestBut (Ix := Unit) (Name := ℕ) (U := UR sig nD τ) (Lvl := ℕ) (Val := Elt F) spec0 c [cc0_scratch0])

/-- The invariant before position `n`: past the first point the running sum is what the point before left. -/
def Phi0 (c : Dev nD) (n : ℕ) : sProp 𝕄 :=
  iprop((∃ d, ⌜n ≠ 0 → d = acc0 V c (n - 1)⌝ ∗ owns (c : Thread nD τ) scM0 fullShare d) ∗ rest0 c)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val)
  Φ t := Phi0 V c t.val
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = k0_pay3 (acc0 V c t.val) := by
  dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem leaves0_3 (c : Dev nD) (t : Fin cfg0.N) (d) (s : Vec F S1024x256 .f32) (hs : s = acc0 V c t.val) :
    owns (c : Thread nD τ) (st0_3 t) fullShare (if t.val % 8 = 7 then k0_pay3 s else (dat0 V c).before 3 t d)
      ⊢ (dat0 V c).leavesExact 3 t := by
  by_cases h7 : t.val % 8 = 7
  · rw [if_pos h7, hs, ← after0_3]; unfold Dat.leavesExact; rw [idle0_3 t, decide_eq_false (not_not.mpr h7)]
  · rw [if_neg h7, Dat.leavesExact_idle _ 3 t ((idle0_3 t).trans (decide_eq_true h7)) (Bool.eq_false_iff.mpr (mt (flush0_3 t).mp h7))]
    iintro H; iexists d; iexact H

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ (dat0 V c).leavesExact 3 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) from rfl,
    show (dat0 V c).Φ t.castSucc = Phi0 V c t.val from rfl]
  unfold Phi0
  iintro ⟨⟨⟨%a, %ha, HS⟩, HR⟩, Ho, ⟨%d0, H0⟩, ⟨%d1, H1⟩, ⟨%d2, H2⟩, ⟨%d3, H3⟩⟩
  iapply (sound_kernel0 c Set.univ (grid0.coords t) _ _ _ _ _ _ _ _ _ _ (t.val % 8 = 0) (t.val % 8 = 7) (hcond0_1 t) (hcond0_2 t)
    (by omega) (iblk0 V c 0 t) (iblk0 V c 1 t) (iblk0 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc0_eq V c t a ha
      iexact HS
    iexact HR
  isplitl [Ho]; · iexact Ho
  isplitl [H0]; · iexact H0
  isplitl [H1]; · iexact H1
  isplitl [H2]; · iexact H2
  iapply (leaves0_3 V c t d3 _ (acc0_eq V c t a ha))
  iexact H3

theorem body_obligation0 (c : Dev nD) : BodyObligation (dat0 (F := F) V c) (defs₀ (F := F)) Variants.none () Set.univ := fun t => by
  rw [bigSep_W0, bigSep_W0]
  exact sound_body0 V c t

theorem phi_in0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = Phi0 V c 0 from rfl, scopedRest0_split]; unfold Phi0
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c cfg0.N from rfl, scopedRest0_split]; unfold Phi0
  simp only [owns_whole]
  iintro ⟨⟨%d, -, HS⟩, Hg, HR⟩
  isplitl [Hg]; · iexact Hg
  isplitl [HS]; · iexists d; iexact HS
  iexact HR

end Cert.KernelIdeal.Agg0

end
-- ==== Proof.KI.Agg1.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Agg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the running sum `a`: restarted from zero where the reduction coordinate is zero. -/
def step1 (c : Dev nD) (n : ℕ) (a : Vec F S1024x128 .f32) : Vec F S1024x128 .f32 :=
  if h : n < cfg1.N then
    k1_pay2 (iblk1 V c 1 ⟨n, h⟩) (iblk1 V c 2 ⟨n, h⟩) (if n % 8 = 0 then k1_pay1 (F := F) else a) (iblk1 V c 0 ⟨n, h⟩)
  else a

/-- The running sum after point `n`. -/
def acc1 (c : Dev nD) : ℕ → Vec F S1024x128 .f32
  | 0 => step1 V c 0 (k1_pay1 (F := F))
  | n + 1 => step1 V c (n + 1) (acc1 c n)

theorem acc1_eq (c : Dev nD) (t : Fin cfg1.N) (a : Vec F S1024x128 .f32) (ha : t.val ≠ 0 → a = acc1 V c (t.val - 1)) :
    k1_pay2 (iblk1 V c 1 t) (iblk1 V c 2 t) (if t.val % 8 = 0 then k1_pay1 (F := F) else a) (iblk1 V c 0 t) = acc1 V c t.val := by
  obtain ⟨n, hn⟩ := t
  cases n with
  | zero => unfold acc1 step1; rw [dif_pos hn, if_pos (Nat.zero_mod 8), if_pos (Nat.zero_mod 8)]
  | succ n =>
    rw [ha (Nat.succ_ne_zero n)]
    show _ = acc1 V c (n + 1)
    rw [acc1, step1, dif_pos hn]; rfl

abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 8 = 0 :=
  (by decide +kernel : ∀ t : Fin grid1.N, cond1_1 (grid1.coords t) ↔ t.val % 8 = 0)

abbrev cond1_2 (i : grid1.Coords) : Prop := k1_cond2 i = 1#1
theorem hcond1_2 : ∀ t : Fin cfg1.N, cond1_2 (grid1.coords t) ↔ t.val % 8 = 7 :=
  (by decide +kernel : ∀ t : Fin grid1.N, cond1_2 (grid1.coords t) ↔ t.val % 8 = 7)

abbrev r1_O : Rect S1024x128 := Rect.unit (s := S1024x128) ![0, 0] S1024x128.size inb_S1024x128_S1024x128_0_0

theorem zero2 : (![0, 0] : Fin 2 → ℕ) = fun _ => 0 := by
  funext a; fin_cases a <;> rfl

theorem idle1_3 : ∀ t : Fin cfg1.N, cfg1.idle 3 (grid1.coords t) = decide (t.val % 8 ≠ 7) := by decide +kernel

theorem cover1_O {e : EltTy} (p : r1_O.shape.Idx → Elt F e) (L : List (View.Piece (Elt F) S1024x128 e)) (y : S1024x128.Idx) :
    ∃ pc ∈ ((⟨r1_O, p⟩ : View.Piece (Elt F) S1024x128 e) :: L), y ∈ pc.1.set :=
  ⟨_, List.mem_cons_self .., View.mem_set_unit_zero zero2 inb_S1024x128_S1024x128_0_0 y⟩

theorem pay2_congr {x1 x1' : Vec F S1024x256 .bf16} {x2 x2' : Vec F S256x128 .bf16} {a a' : Vec F S1024x128 .f32}
    {x0 x0' : Vec F S1024x1024 .bf16} (h1 : x1 = x1') (h2 : x2 = x2') (ha : a = a') (h0 : x0 = x0') :
    k1_pay2 x1 x2 a x0 = k1_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel1 (c : Dev nD) (E : Set ℕ) (i : grid1.Coords)
    (arg2 : Memref sig .tc .vmem S1024x1024 .bf16) (harg2 : arg2.IsWhole) (arg3 : Memref sig .tc .vmem S1024x256 .bf16) (harg3 : arg3.IsWhole)
    (arg4 : Memref sig .tc .vmem S256x128 .bf16) (harg4 : arg4.IsWhole) (arg5 : Memref sig .tc .vmem S1024x128 .bf16) (harg5 : arg5.IsWhole)
    (arg6 : Memref sig .tc .vmem S1024x128 .f32) (harg6 : arg6.IsWhole)
    (p1 p2 : Prop) [Decidable p1] [Decidable p2] (h1 : cond1_1 i ↔ p1) (h2 : cond1_2 i ↔ p2) (hx : ¬(p1 ∧ p2))
    (x0 : Vec F S1024x1024 .bf16) (x1 : Vec F S1024x256 .bf16) (x2 : Vec F S256x128 .bf16) (x3 : Vec F S1024x128 .bf16)
    (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k1_pay3 (k1_pay2 x1 x2 (if p1 then k1_pay1 (F := F) else a) x0) else x3)
            ∗ owns (c : Thread nD τ) arg6 fullShare (k1_pay2 x1 x2 (if p1 then k1_pay1 (F := F) else a) x0)) -∗ K ⟨⟩))
      ⊢ wp frame (wpE (defs₀ (F := F)) Variants.none c none) E (cc1__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc1__fused_agg_kernel_eq_skeleton]; unfold cc1__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover1_O _ _), View.canon_cons_unit_zero zero2]
           exact congrArg k1_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover1_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM1 : Memref sig .tc .vmem S1024x128 .f32 := Memref.whole cc1_scratch0

abbrev rest1 (c : Dev nD) : sProp 𝕄 := iprop((∃ r, prngReg c r)
  ∗ Pipeline.scopedRestBut (Ix := Unit) (Name := ℕ) (U := UR sig nD τ) (Lvl := ℕ) (Val := Elt F) spec1 c [cc1_scratch0])

/-- The invariant before position `n`: past the first point the running sum is what the point before left. -/
def Phi1 (c : Dev nD) (n : ℕ) : sProp 𝕄 :=
  iprop((∃ d, ⌜n ≠ 0 → d = acc1 V c (n - 1)⌝ ∗ owns (c : Thread nD τ) scM1 fullShare d) ∗ rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val)
  Φ t := Phi1 V c t.val
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = k1_pay3 (acc1 V c t.val) := by
  dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem leaves1_3 (c : Dev nD) (t : Fin cfg1.N) (d) (s : Vec F S1024x128 .f32) (hs : s = acc1 V c t.val) :
    owns (c : Thread nD τ) (st1_3 t) fullShare (if t.val % 8 = 7 then k1_pay3 s else (dat1 V c).before 3 t d)
      ⊢ (dat1 V c).leavesExact 3 t := by
  by_cases h7 : t.val % 8 = 7
  · rw [if_pos h7, hs, ← after1_3]; unfold Dat.leavesExact; rw [idle1_3 t, decide_eq_false (not_not.mpr h7)]
  · rw [if_neg h7, Dat.leavesExact_idle _ 3 t ((idle1_3 t).trans (decide_eq_true h7)) (Bool.eq_false_iff.mpr (mt (flush1_3 t).mp h7))]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl]
  unfold Phi1
  iintro ⟨⟨⟨%a, %ha, HS⟩, HR⟩, Ho, ⟨%d0, H0⟩, ⟨%d1, H1⟩, ⟨%d2, H2⟩, ⟨%d3, H3⟩⟩
  iapply (sound_kernel1 c Set.univ (grid1.coords t) _ _ _ _ _ _ _ _ _ _ (t.val % 8 = 0) (t.val % 8 = 7) (hcond1_1 t) (hcond1_2 t)
    (by omega) (iblk1 V c 0 t) (iblk1 V c 1 t) (iblk1 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc1_eq V c t a ha
      iexact HS
    iexact HR
  isplitl [Ho]; · iexact Ho
  isplitl [H0]; · iexact H0
  isplitl [H1]; · iexact H1
  isplitl [H2]; · iexact H2
  iapply (leaves1_3 V c t d3 _ (acc1_eq V c t a ha))
  iexact H3

theorem body_obligation1 (c : Dev nD) : BodyObligation (dat1 (F := F) V c) (defs₀ (F := F)) Variants.none () Set.univ := fun t => by
  rw [bigSep_W1, bigSep_W1]
  exact sound_body1 V c t

theorem phi_in1 (c : Dev nD) :
    iprop((∃ r, prngReg c r) ∗ Pipeline.scopedRest (Ix := Unit) (Name := ℕ) (U := UR sig nD τ) (Lvl := ℕ) (Val := Elt F) spec1 c)
      ⊢ (dat1 V c).Φ 0 := by
  rw [show (dat1 V c).Φ 0 = Phi1 V c 0 from rfl, scopedRest1_split]; unfold Phi1
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out1 (c : Dev nD) :
    (dat1 V c).Φ (Fin.last cfg1.N)
      ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c cfg1.N from rfl, scopedRest1_split]; unfold Phi1
  simp only [owns_whole]
  iintro ⟨⟨%d, -, HS⟩, Hg, HR⟩
  isplitl [Hg]; · iexact Hg
  isplitl [HS]; · iexists d; iexact HS
  iexact HR

end Cert.KernelIdeal.Agg1

end
-- ==== Proof.KI.Agg2.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Agg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's update of the running sum `a`: restarted from zero where the reduction coordinate is zero. -/
def step2 (c : Dev nD) (n : ℕ) (a : Vec F S1024x64 .f32) : Vec F S1024x64 .f32 :=
  if h : n < cfg2.N then
    k2_pay2 (iblk2 V c 1 ⟨n, h⟩) (iblk2 V c 2 ⟨n, h⟩) (if n % 8 = 0 then k2_pay1 (F := F) else a) (iblk2 V c 0 ⟨n, h⟩)
  else a

/-- The running sum after point `n`. -/
def acc2 (c : Dev nD) : ℕ → Vec F S1024x64 .f32
  | 0 => step2 V c 0 (k2_pay1 (F := F))
  | n + 1 => step2 V c (n + 1) (acc2 c n)

theorem acc2_eq (c : Dev nD) (t : Fin cfg2.N) (a : Vec F S1024x64 .f32) (ha : t.val ≠ 0 → a = acc2 V c (t.val - 1)) :
    k2_pay2 (iblk2 V c 1 t) (iblk2 V c 2 t) (if t.val % 8 = 0 then k2_pay1 (F := F) else a) (iblk2 V c 0 t) = acc2 V c t.val := by
  obtain ⟨n, hn⟩ := t
  cases n with
  | zero => unfold acc2 step2; rw [dif_pos hn, if_pos (Nat.zero_mod 8), if_pos (Nat.zero_mod 8)]
  | succ n =>
    rw [ha (Nat.succ_ne_zero n)]
    show _ = acc2 V c (n + 1)
    rw [acc2, step2, dif_pos hn]; rfl

abbrev cond2_1 (i : grid2.Coords) : Prop := (Scalar.cmpi .ne (Scalar.extui (Scalar.cmpi .eq (BitVec.ofNat 32 (i 1).val) 0#32)) 0#32) = 1#1
theorem hcond2_1 : ∀ t : Fin cfg2.N, cond2_1 (grid2.coords t) ↔ t.val % 8 = 0 :=
  (by decide +kernel : ∀ t : Fin grid2.N, cond2_1 (grid2.coords t) ↔ t.val % 8 = 0)

abbrev cond2_2 (i : grid2.Coords) : Prop := k2_cond2 i = 1#1
theorem hcond2_2 : ∀ t : Fin cfg2.N, cond2_2 (grid2.coords t) ↔ t.val % 8 = 7 :=
  (by decide +kernel : ∀ t : Fin grid2.N, cond2_2 (grid2.coords t) ↔ t.val % 8 = 7)

abbrev r2_O : Rect S1024x64 := Rect.unit (s := S1024x64) ![0, 0] S1024x64.size inb_S1024x64_S1024x64_0_0

theorem zero2 : (![0, 0] : Fin 2 → ℕ) = fun _ => 0 := by
  funext a; fin_cases a <;> rfl

theorem idle2_3 : ∀ t : Fin cfg2.N, cfg2.idle 3 (grid2.coords t) = decide (t.val % 8 ≠ 7) := by decide +kernel

theorem cover2_O {e : EltTy} (p : r2_O.shape.Idx → Elt F e) (L : List (View.Piece (Elt F) S1024x64 e)) (y : S1024x64.Idx) :
    ∃ pc ∈ ((⟨r2_O, p⟩ : View.Piece (Elt F) S1024x64 e) :: L), y ∈ pc.1.set :=
  ⟨_, List.mem_cons_self .., View.mem_set_unit_zero zero2 inb_S1024x64_S1024x64_0_0 y⟩

theorem pay2_congr {x1 x1' : Vec F S1024x128 .bf16} {x2 x2' : Vec F S128x64 .bf16} {a a' : Vec F S1024x64 .f32}
    {x0 x0' : Vec F S1024x1024 .bf16} (h1 : x1 = x1') (h2 : x2 = x2') (ha : a = a') (h0 : x0 = x0') :
    k2_pay2 x1 x2 a x0 = k2_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel2 (c : Dev nD) (E : Set ℕ) (i : grid2.Coords)
    (arg2 : Memref sig .tc .vmem S1024x1024 .bf16) (harg2 : arg2.IsWhole) (arg3 : Memref sig .tc .vmem S1024x128 .bf16) (harg3 : arg3.IsWhole)
    (arg4 : Memref sig .tc .vmem S128x64 .bf16) (harg4 : arg4.IsWhole) (arg5 : Memref sig .tc .vmem S1024x64 .f32) (harg5 : arg5.IsWhole)
    (arg6 : Memref sig .tc .vmem S1024x64 .f32) (harg6 : arg6.IsWhole)
    (p1 p2 : Prop) [Decidable p1] [Decidable p2] (h1 : cond2_1 i ↔ p1) (h2 : cond2_2 i ↔ p2) (hx : ¬(p1 ∧ p2))
    (x0 : Vec F S1024x1024 .bf16) (x1 : Vec F S1024x128 .bf16) (x2 : Vec F S128x64 .bf16) (x3 : Vec F S1024x64 .f32)
    (a : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then (k2_pay2 x1 x2 (if p1 then k2_pay1 (F := F) else a) x0) else x3)
            ∗ owns (c : Thread nD τ) arg6 fullShare (k2_pay2 x1 x2 (if p1 then k2_pay1 (F := F) else a) x0)) -∗ K ⟨⟩))
      ⊢ wp frame (wpE (defs₀ (F := F)) Variants.none c none) E (cc2__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc2__fused_agg_kernel_eq_skeleton]; unfold cc2__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover2_O _ _), View.canon_cons_unit_zero zero2]
           exact ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover2_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM2 : Memref sig .tc .vmem S1024x64 .f32 := Memref.whole cc2_scratch0

abbrev rest2 (c : Dev nD) : sProp 𝕄 := iprop((∃ r, prngReg c r)
  ∗ Pipeline.scopedRestBut (Ix := Unit) (Name := ℕ) (U := UR sig nD τ) (Lvl := ℕ) (Val := Elt F) spec2 c [cc2_scratch0])

/-- The invariant before position `n`: past the first point the running sum is what the point before left. -/
def Phi2 (c : Dev nD) (n : ℕ) : sProp 𝕄 :=
  iprop((∃ d, ⌜n ≠ 0 → d = acc2 V c (n - 1)⌝ ∗ owns (c : Thread nD τ) scM2 fullShare d) ∗ rest2 c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (acc2 V c t.val)
  Φ t := Phi2 V c t.val
  q _ := fullShare
  owed _ := 0

theorem A_eq2 (c : Dev nD) (w : Fin cfg2.W) : (dat2 V c).A w = V c (Pipeline.arrRef spec2 w) := by
  dsimp only [dat2]

theorem after2_3 (c : Dev nD) (t : Fin cfg2.N) : (dat2 V c).after 3 t = (acc2 V c t.val) := by
  dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

theorem leaves2_3 (c : Dev nD) (t : Fin cfg2.N) (d) (s : Vec F S1024x64 .f32) (hs : s = acc2 V c t.val) :
    owns (c : Thread nD τ) (st2_3 t) fullShare (if t.val % 8 = 7 then s else (dat2 V c).before 3 t d)
      ⊢ (dat2 V c).leavesExact 3 t := by
  by_cases h7 : t.val % 8 = 7
  · rw [if_pos h7, hs, ← after2_3]; unfold Dat.leavesExact; rw [idle2_3 t, decide_eq_false (not_not.mpr h7)]
  · rw [if_neg h7, Dat.leavesExact_idle _ 3 t ((idle2_3 t).trans (decide_eq_true h7)) (Bool.eq_false_iff.mpr (mt (flush2_3 t).mp h7))]
    iintro H; iexists d; iexact H

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ (dat2 V c).leavesExact 3 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) from rfl,
    show (dat2 V c).Φ t.castSucc = Phi2 V c t.val from rfl]
  unfold Phi2
  iintro ⟨⟨⟨%a, %ha, HS⟩, HR⟩, Ho, ⟨%d0, H0⟩, ⟨%d1, H1⟩, ⟨%d2, H2⟩, ⟨%d3, H3⟩⟩
  iapply (sound_kernel2 c Set.univ (grid2.coords t) _ _ _ _ _ _ _ _ _ _ (t.val % 8 = 0) (t.val % 8 = 7) (hcond2_1 t) (hcond2_2 t)
    (by omega) (iblk2 V c 0 t) (iblk2 V c 1 t) (iblk2 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc2_eq V c t a ha
      iexact HS
    iexact HR
  isplitl [Ho]; · iexact Ho
  isplitl [H0]; · iexact H0
  isplitl [H1]; · iexact H1
  isplitl [H2]; · iexact H2
  iapply (leaves2_3 V c t d3 _ (acc2_eq V c t a ha))
  iexact H3

theorem body_obligation2 (c : Dev nD) : BodyObligation (dat2 (F := F) V c) (defs₀ (F := F)) Variants.none () Set.univ := fun t => by
  rw [bigSep_W2, bigSep_W2]
  exact sound_body2 V c t

theorem phi_in2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = Phi2 V c 0 from rfl, scopedRest2_split]; unfold Phi2
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = Phi2 V c cfg2.N from rfl, scopedRest2_split]; unfold Phi2
  simp only [owns_whole]
  iintro ⟨⟨%d, -, HS⟩, Hg, HR⟩
  isplitl [Hg]; · iexact Hg
  isplitl [HS]; · iexists d; iexact HS
  iexact HR

end Cert.KernelIdeal.Agg2

end
-- ==== Proof.KI.Zzt3.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Zzt3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S512x64 := Rect.unit (s := S512x64) ![0, 0] S512x64.size inb_S512x64_S512x64_0_0
abbrev r3_1 : Rect S2048x64 := Rect.unit (s := S2048x64) ![0, 0] S2048x64.size inb_S2048x64_S2048x64_0_0
abbrev r3_2 : Rect S512x2048 := Rect.unit (s := S512x2048) ![0, 0] S512x2048.size inb_S512x2048_S512x2048_0_0

def out3_2 (x0 : Vec F S512x64 .bf16) (x1 : Vec F S2048x64 .bf16) : Vec F S512x2048 .f32 :=
  View.canon [⟨r3_2, k3_pay1 (View.ld x0 r3_0) (View.ld x1 r3_1)⟩]

theorem cover3_2 (p0 : Vec F S512x2048 .f32) (y : S512x2048.Idx) :
    ∃ pc ∈ ([⟨r3_2, p0⟩] : List (View.Piece (Elt F) S512x2048 .f32)), y ∈ pc.1.set :=
  View.cover_of_tiled [⟨r3_2, p0⟩] S512x2048.size (by rfl) y

set_option maxHeartbeats 1000000 in

theorem sound_kernel3 (c : Dev nD) (E : Set ℕ) (i : grid3.Coords)
    (arg2 : Memref sig .tc .vmem S512x64 .bf16) (harg2 : arg2.IsWhole)
    (arg3 : Memref sig .tc .vmem S2048x64 .bf16) (harg3 : arg3.IsWhole)
    (arg4 : Memref sig .tc .vmem S512x2048 .f32) (harg4 : arg4.IsWhole)
    (x0 : Vec F S512x64 .bf16) (x1 : Vec F S2048x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__zzt_kernel i arg2 harg2 arg3 harg3 arg4 harg4) K := by
  simp only [cc3__zzt_kernel_eq_skeleton]; unfold cc3__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d

theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

theorem arrRefs3 : Finset.univ.image (Pipeline.arrRef spec3) = [main_v23, main_v24].toFinset := by decide

theorem arrays3_eq (c : Dev nD) (G : (w : Fin cfg3.W) → Buf (Elt F) ((cfg3.win w).arr.view.loc (c.tc : Thread nD τ))) :
    (dat3 V c).arrays G
      = iprop(((((c.tc : Thread nD τ).loc main_v23) ↦{fullShare.left} G 0 : sProp 𝕄))
          ∗ (((c.tc : Thread nD τ).loc main_v23) ↦{fullShare.right} G 1)
          ∗ (((c.tc : Thread nD τ).loc main_v24) ↦{fullShare} G 2)) := by
  unfold Dat.arrays
  rw [bigSep_W3, (arr_whole3 0).set_eq_univ, (arr_whole3 2).set_eq_univ]
  rfl

theorem arrBufs3_eq (c : Dev nD) (W : (b : Ref sig .tc) → Buf (Elt F) ((c : Thread nD τ).loc b)) :
    (Pipeline.arrBufs spec3 c W : sProp 𝕄)
      = iprop((((c.tc : Thread nD τ).loc main_v23) ↦{fullShare} W main_v23) ∗ (((c.tc : Thread nD τ).loc main_v24) ↦{fullShare} W main_v24)) :=
  bigSep_eq_bigSepL_of_eq [main_v23, main_v24] arrRefs3 (by decide) _

theorem arrays_of_arrBufs3 (c : Dev nD) :
    (Pipeline.arrBufs spec3 c (V c) : sProp 𝕄) ⊢ (dat3 V c).arrays ((dat3 V c).arrAt · 0) := by
  rw [arrays3_eq]
  rw [arrBufs3_eq]
  rw [show (dat3 V c).arrAt 0 0 = V c (Pipeline.arrRef spec3 0) from A_eq3 V c 0,
    show (dat3 V c).arrAt 1 0 = V c (Pipeline.arrRef spec3 1) from A_eq3 V c 1,
    show (dat3 V c).arrAt 2 0 = V c (Pipeline.arrRef spec3 2) from A_eq3 V c 2]
  iintro ⟨H23, H24⟩
  ihave H := (pointsTo_share (PosShare.mem_left_op_right fullShare)).1 $$ H23
  icases H with ⟨Hl, Hr⟩
  isplitl [Hl]; · iexact Hl
  isplitl [Hr]; · iexact Hr
  iexact H24

theorem arrBufs_of_arrays3 (V' : (c : Dev nD) → (b : Ref sig .tc) → Buf (Elt F) ((c : Thread nD τ).loc b)) (c : Dev nD)
    (hF : ∀ w, (dat3 V c).arrAt w cfg3.N = V' c (Pipeline.arrRef spec3 w)) :
    (dat3 V c).arrays ((dat3 V c).arrAt · cfg3.N) ⊢ (Pipeline.arrBufs spec3 c (V' c) : sProp 𝕄) := by
  rw [arrays3_eq]
  rw [arrBufs3_eq]
  rw [hF 0, hF 1, hF 2]
  iintro ⟨Hl, Hr, H24⟩
  isplitl [Hl Hr]
  · iapply (pointsTo_share (PosShare.mem_left_op_right fullShare)).2
    isplitl [Hl]; · iexact Hl
    iexact Hr
  iexact H24

end Cert.KernelIdeal.Zzt3
-- ==== Proof.KI.Agg4.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Agg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- One point's update of the running sum `a`: restarted from zero where the reduction coordinate is zero. -/
def step4 (c : Dev nD) (n : ℕ) (a : Vec F S1024x128 .f32) : Vec F S1024x128 .f32 :=
  if h : n < cfg4.N then
    k4_pay2 (iblk4 V c 1 ⟨n, h⟩) (iblk4 V c 2 ⟨n, h⟩) (if n % 8 = 0 then k4_pay1 (F := F) else a) (iblk4 V c 0 ⟨n, h⟩)
  else a

/-- The running sum after point `n`. -/
def acc4 (c : Dev nD) : ℕ → Vec F S1024x128 .f32
  | 0 => step4 V c 0 (k4_pay1 (F := F))
  | n + 1 => step4 V c (n + 1) (acc4 c n)

theorem acc4_eq (c : Dev nD) (t : Fin cfg4.N) (a : Vec F S1024x128 .f32) (ha : t.val ≠ 0 → a = acc4 V c (t.val - 1)) :
    k4_pay2 (iblk4 V c 1 t) (iblk4 V c 2 t) (if t.val % 8 = 0 then k4_pay1 (F := F) else a) (iblk4 V c 0 t) = acc4 V c t.val := by
  obtain ⟨n, hn⟩ := t
  cases n with
  | zero => unfold acc4 step4; rw [dif_pos hn, if_pos (Nat.zero_mod 8), if_pos (Nat.zero_mod 8)]
  | succ n =>
    rw [ha (Nat.succ_ne_zero n)]
    show _ = acc4 V c (n + 1)
    rw [acc4, step4, dif_pos hn]; rfl

abbrev cond4_1 (i : grid4.Coords) : Prop := (Scalar.cmpi .ne (Scalar.extui (Scalar.cmpi .eq (BitVec.ofNat 32 (i 1).val) 0#32)) 0#32) = 1#1
theorem hcond4_1 : ∀ t : Fin cfg4.N, cond4_1 (grid4.coords t) ↔ t.val % 8 = 0 :=
  (by decide +kernel : ∀ t : Fin grid4.N, cond4_1 (grid4.coords t) ↔ t.val % 8 = 0)

abbrev cond4_2 (i : grid4.Coords) : Prop := k4_cond2 i = 1#1
theorem hcond4_2 : ∀ t : Fin cfg4.N, cond4_2 (grid4.coords t) ↔ t.val % 8 = 7 :=
  (by decide +kernel : ∀ t : Fin grid4.N, cond4_2 (grid4.coords t) ↔ t.val % 8 = 7)

abbrev r4_O : Rect S1024x128 := Rect.unit (s := S1024x128) ![0, 0] S1024x128.size inb_S1024x128_S1024x128_0_0

theorem zero2 : (![0, 0] : Fin 2 → ℕ) = fun _ => 0 := by
  funext a; fin_cases a <;> rfl

theorem idle4_3 : ∀ t : Fin cfg4.N, cfg4.idle 3 (grid4.coords t) = decide (t.val % 8 ≠ 7) := by decide +kernel

theorem cover4_O {e : EltTy} (p : r4_O.shape.Idx → Elt F e) (L : List (View.Piece (Elt F) S1024x128 e)) (y : S1024x128.Idx) :
    ∃ pc ∈ ((⟨r4_O, p⟩ : View.Piece (Elt F) S1024x128 e) :: L), y ∈ pc.1.set :=
  ⟨_, List.mem_cons_self .., View.mem_set_unit_zero zero2 inb_S1024x128_S1024x128_0_0 y⟩

theorem pay2_congr {x1 x1' : Vec F S1024x64 .bf16} {x2 x2' : Vec F S64x128 .bf16} {a a' : Vec F S1024x128 .f32}
    {x0 x0' : Vec F S1024x1024 .bf16} (h1 : x1 = x1') (h2 : x2 = x2') (ha : a = a') (h0 : x0 = x0') :
    k4_pay2 x1 x2 a x0 = k4_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel4 (c : Dev nD) (E : Set ℕ) (i : grid4.Coords)
    (arg2 : Memref sig .tc .vmem S1024x1024 .bf16) (harg2 : arg2.IsWhole) (arg3 : Memref sig .tc .vmem S1024x64 .bf16) (harg3 : arg3.IsWhole)
    (arg4 : Memref sig .tc .vmem S64x128 .bf16) (harg4 : arg4.IsWhole) (arg5 : Memref sig .tc .vmem S1024x128 .bf16) (harg5 : arg5.IsWhole)
    (arg6 : Memref sig .tc .vmem S1024x128 .f32) (harg6 : arg6.IsWhole)
    (p1 p2 : Prop) [Decidable p1] [Decidable p2] (h1 : cond4_1 i ↔ p1) (h2 : cond4_2 i ↔ p2) (hx : ¬(p1 ∧ p2))
    (x0 : Vec F S1024x1024 .bf16) (x1 : Vec F S1024x64 .bf16) (x2 : Vec F S64x128 .bf16) (x3 : Vec F S1024x128 .bf16)
    (a : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k4_pay3 (k4_pay2 x1 x2 (if p1 then k4_pay1 (F := F) else a) x0) else x3)
            ∗ owns (c : Thread nD τ) arg6 fullShare (k4_pay2 x1 x2 (if p1 then k4_pay1 (F := F) else a) x0)) -∗ K ⟨⟩))
      ⊢ wp frame (wpE (defs₀ (F := F)) Variants.none c none) E (cc4__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc4__fused_agg_kernel_eq_skeleton]; unfold cc4__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover4_O _ _), View.canon_cons_unit_zero zero2]
           exact congrArg k4_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover4_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM4 : Memref sig .tc .vmem S1024x128 .f32 := Memref.whole cc4_scratch0

abbrev rest4 (c : Dev nD) : sProp 𝕄 := iprop((∃ r, prngReg c r)
  ∗ Pipeline.scopedRestBut (Ix := Unit) (Name := ℕ) (U := UR sig nD τ) (Lvl := ℕ) (Val := Elt F) spec4 c [cc4_scratch0])

/-- The invariant before position `n`: past the first point the running sum is what the point before left. -/
def Phi4 (c : Dev nD) (n : ℕ) : sProp 𝕄 :=
  iprop((∃ d, ⌜n ≠ 0 → d = acc4 V c (n - 1)⌝ ∗ owns (c : Thread nD τ) scM4 fullShare d) ∗ rest4 c)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (acc4 V c t.val)
  Φ t := Phi4 V c t.val
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = k4_pay3 (acc4 V c t.val) := by
  dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem leaves4_3 (c : Dev nD) (t : Fin cfg4.N) (d) (s : Vec F S1024x128 .f32) (hs : s = acc4 V c t.val) :
    owns (c : Thread nD τ) (st4_3 t) fullShare (if t.val % 8 = 7 then k4_pay3 s else (dat4 V c).before 3 t d)
      ⊢ (dat4 V c).leavesExact 3 t := by
  by_cases h7 : t.val % 8 = 7
  · rw [if_pos h7, hs, ← after4_3]; unfold Dat.leavesExact; rw [idle4_3 t, decide_eq_false (not_not.mpr h7)]
  · rw [if_neg h7, Dat.leavesExact_idle _ 3 t ((idle4_3 t).trans (decide_eq_true h7)) (Bool.eq_false_iff.mpr (mt (flush4_3 t).mp h7))]
    iintro H; iexists d; iexact H

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ (dat4 V c).leavesExact 3 t)

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Phi4 V c (t.val + 1) from rfl,
    show (dat4 V c).Φ t.castSucc = Phi4 V c t.val from rfl]
  unfold Phi4
  iintro ⟨⟨⟨%a, %ha, HS⟩, HR⟩, Ho, ⟨%d0, H0⟩, ⟨%d1, H1⟩, ⟨%d2, H2⟩, ⟨%d3, H3⟩⟩
  iapply (sound_kernel4 c Set.univ (grid4.coords t) _ _ _ _ _ _ _ _ _ _ (t.val % 8 = 0) (t.val % 8 = 7) (hcond4_1 t) (hcond4_2 t)
    (by omega) (iblk4 V c 0 t) (iblk4 V c 1 t) (iblk4 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc4_eq V c t a ha
      iexact HS
    iexact HR
  isplitl [Ho]; · iexact Ho
  isplitl [H0]; · iexact H0
  isplitl [H1]; · iexact H1
  isplitl [H2]; · iexact H2
  iapply (leaves4_3 V c t d3 _ (acc4_eq V c t a ha))
  iexact H3

theorem body_obligation4 (c : Dev nD) : BodyObligation (dat4 (F := F) V c) (defs₀ (F := F)) Variants.none () Set.univ := fun t => by
  rw [bigSep_W4, bigSep_W4]
  exact sound_body4 V c t

theorem phi_in4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  rw [show (dat4 V c).Φ 0 = Phi4 V c 0 from rfl, scopedRest4_split]; unfold Phi4
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  rw [show (dat4 V c).Φ (Fin.last cfg4.N) = Phi4 V c cfg4.N from rfl, scopedRest4_split]; unfold Phi4
  simp only [owns_whole]
  iintro ⟨⟨%d, -, HS⟩, Hg, HR⟩
  isplitl [Hg]; · iexact Hg
  isplitl [HS]; · iexists d; iexact HS
  iexact HR

end Cert.KernelIdeal.Agg4

end
-- ==== Proof.KI.Agg5.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Agg5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- One point's update of the running sum `a`: restarted from zero where the reduction coordinate is zero. -/
def step5 (c : Dev nD) (n : ℕ) (a : Vec F S1024x256 .f32) : Vec F S1024x256 .f32 :=
  if h : n < cfg5.N then
    k5_pay2 (iblk5 V c 1 ⟨n, h⟩) (iblk5 V c 2 ⟨n, h⟩) (if n % 8 = 0 then k5_pay1 (F := F) else a) (iblk5 V c 0 ⟨n, h⟩)
  else a

/-- The running sum after point `n`. -/
def acc5 (c : Dev nD) : ℕ → Vec F S1024x256 .f32
  | 0 => step5 V c 0 (k5_pay1 (F := F))
  | n + 1 => step5 V c (n + 1) (acc5 c n)

theorem acc5_eq (c : Dev nD) (t : Fin cfg5.N) (a : Vec F S1024x256 .f32) (ha : t.val ≠ 0 → a = acc5 V c (t.val - 1)) :
    k5_pay2 (iblk5 V c 1 t) (iblk5 V c 2 t) (if t.val % 8 = 0 then k5_pay1 (F := F) else a) (iblk5 V c 0 t) = acc5 V c t.val := by
  obtain ⟨n, hn⟩ := t
  cases n with
  | zero => unfold acc5 step5; rw [dif_pos hn, if_pos (Nat.zero_mod 8), if_pos (Nat.zero_mod 8)]
  | succ n =>
    rw [ha (Nat.succ_ne_zero n)]
    show _ = acc5 V c (n + 1)
    rw [acc5, step5, dif_pos hn]; rfl

abbrev cond5_1 (i : grid5.Coords) : Prop := (Scalar.cmpi .ne (Scalar.extui (Scalar.cmpi .eq (BitVec.ofNat 32 (i 1).val) 0#32)) 0#32) = 1#1
theorem hcond5_1 : ∀ t : Fin cfg5.N, cond5_1 (grid5.coords t) ↔ t.val % 8 = 0 :=
  (by decide +kernel : ∀ t : Fin grid5.N, cond5_1 (grid5.coords t) ↔ t.val % 8 = 0)

abbrev cond5_2 (i : grid5.Coords) : Prop := k5_cond2 i = 1#1
theorem hcond5_2 : ∀ t : Fin cfg5.N, cond5_2 (grid5.coords t) ↔ t.val % 8 = 7 :=
  (by decide +kernel : ∀ t : Fin grid5.N, cond5_2 (grid5.coords t) ↔ t.val % 8 = 7)

abbrev r5_O : Rect S1024x256 := Rect.unit (s := S1024x256) ![0, 0] S1024x256.size inb_S1024x256_S1024x256_0_0

theorem zero2 : (![0, 0] : Fin 2 → ℕ) = fun _ => 0 := by
  funext a; fin_cases a <;> rfl

theorem idle5_3 : ∀ t : Fin cfg5.N, cfg5.idle 3 (grid5.coords t) = decide (t.val % 8 ≠ 7) := by decide +kernel

theorem cover5_O {e : EltTy} (p : r5_O.shape.Idx → Elt F e) (L : List (View.Piece (Elt F) S1024x256 e)) (y : S1024x256.Idx) :
    ∃ pc ∈ ((⟨r5_O, p⟩ : View.Piece (Elt F) S1024x256 e) :: L), y ∈ pc.1.set :=
  ⟨_, List.mem_cons_self .., View.mem_set_unit_zero zero2 inb_S1024x256_S1024x256_0_0 y⟩

theorem pay2_congr {x1 x1' : Vec F S1024x128 .bf16} {x2 x2' : Vec F S128x256 .bf16} {a a' : Vec F S1024x256 .f32}
    {x0 x0' : Vec F S1024x1024 .bf16} (h1 : x1 = x1') (h2 : x2 = x2') (ha : a = a') (h0 : x0 = x0') :
    k5_pay2 x1 x2 a x0 = k5_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel5 (c : Dev nD) (E : Set ℕ) (i : grid5.Coords)
    (arg2 : Memref sig .tc .vmem S1024x1024 .bf16) (harg2 : arg2.IsWhole) (arg3 : Memref sig .tc .vmem S1024x128 .bf16) (harg3 : arg3.IsWhole)
    (arg4 : Memref sig .tc .vmem S128x256 .bf16) (harg4 : arg4.IsWhole) (arg5 : Memref sig .tc .vmem S1024x256 .bf16) (harg5 : arg5.IsWhole)
    (arg6 : Memref sig .tc .vmem S1024x256 .f32) (harg6 : arg6.IsWhole)
    (p1 p2 : Prop) [Decidable p1] [Decidable p2] (h1 : cond5_1 i ↔ p1) (h2 : cond5_2 i ↔ p2) (hx : ¬(p1 ∧ p2))
    (x0 : Vec F S1024x1024 .bf16) (x1 : Vec F S1024x128 .bf16) (x2 : Vec F S128x256 .bf16) (x3 : Vec F S1024x256 .bf16)
    (a : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then k5_pay3 (k5_pay2 x1 x2 (if p1 then k5_pay1 (F := F) else a) x0) else x3)
            ∗ owns (c : Thread nD τ) arg6 fullShare (k5_pay2 x1 x2 (if p1 then k5_pay1 (F := F) else a) x0)) -∗ K ⟨⟩))
      ⊢ wp frame (wpE (defs₀ (F := F)) Variants.none c none) E (cc5__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc5__fused_agg_kernel_eq_skeleton]; unfold cc5__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover5_O _ _), View.canon_cons_unit_zero zero2]
           exact congrArg k5_pay3 ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover5_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM5 : Memref sig .tc .vmem S1024x256 .f32 := Memref.whole cc5_scratch0

abbrev rest5 (c : Dev nD) : sProp 𝕄 := iprop((∃ r, prngReg c r)
  ∗ Pipeline.scopedRestBut (Ix := Unit) (Name := ℕ) (U := UR sig nD τ) (Lvl := ℕ) (Val := Elt F) spec5 c [cc5_scratch0])

/-- The invariant before position `n`: past the first point the running sum is what the point before left. -/
def Phi5 (c : Dev nD) (n : ℕ) : sProp 𝕄 :=
  iprop((∃ d, ⌜n ≠ 0 → d = acc5 V c (n - 1)⌝ ∗ owns (c : Thread nD τ) scM5 fullShare d) ∗ rest5 c)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val)
  Φ t := Phi5 V c t.val
  q _ := fullShare
  owed _ := 0

theorem A_eq5 (c : Dev nD) (w : Fin cfg5.W) : (dat5 V c).A w = V c (Pipeline.arrRef spec5 w) := by
  dsimp only [dat5]

theorem after5_3 (c : Dev nD) (t : Fin cfg5.N) : (dat5 V c).after 3 t = k5_pay3 (acc5 V c t.val) := by
  dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

theorem leaves5_3 (c : Dev nD) (t : Fin cfg5.N) (d) (s : Vec F S1024x256 .f32) (hs : s = acc5 V c t.val) :
    owns (c : Thread nD τ) (st5_3 t) fullShare (if t.val % 8 = 7 then k5_pay3 s else (dat5 V c).before 3 t d)
      ⊢ (dat5 V c).leavesExact 3 t := by
  by_cases h7 : t.val % 8 = 7
  · rw [if_pos h7, hs, ← after5_3]; unfold Dat.leavesExact; rw [idle5_3 t, decide_eq_false (not_not.mpr h7)]
  · rw [if_neg h7, Dat.leavesExact_idle _ 3 t ((idle5_3 t).trans (decide_eq_true h7)) (Bool.eq_false_iff.mpr (mt (flush5_3 t).mp h7))]
    iintro H; iexists d; iexact H

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare (iblk5 V c 0 t)
    ∗ owns (c : Thread nD τ) (st5_1 t) fullShare (iblk5 V c 1 t)
    ∗ owns (c : Thread nD τ) (st5_2 t) fullShare (iblk5 V c 2 t)
    ∗ (dat5 V c).leavesExact 3 t)

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    show (dat5 V c).Φ t.succ = Phi5 V c (t.val + 1) from rfl,
    show (dat5 V c).Φ t.castSucc = Phi5 V c t.val from rfl]
  unfold Phi5
  iintro ⟨⟨⟨%a, %ha, HS⟩, HR⟩, Ho, ⟨%d0, H0⟩, ⟨%d1, H1⟩, ⟨%d2, H2⟩, ⟨%d3, H3⟩⟩
  iapply (sound_kernel5 c Set.univ (grid5.coords t) _ _ _ _ _ _ _ _ _ _ (t.val % 8 = 0) (t.val % 8 = 7) (hcond5_1 t) (hcond5_2 t)
    (by omega) (iblk5 V c 0 t) (iblk5 V c 1 t) (iblk5 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc5_eq V c t a ha
      iexact HS
    iexact HR
  isplitl [Ho]; · iexact Ho
  isplitl [H0]; · iexact H0
  isplitl [H1]; · iexact H1
  isplitl [H2]; · iexact H2
  iapply (leaves5_3 V c t d3 _ (acc5_eq V c t a ha))
  iexact H3

theorem body_obligation5 (c : Dev nD) : BodyObligation (dat5 (F := F) V c) (defs₀ (F := F)) Variants.none () Set.univ := fun t => by
  rw [bigSep_W5, bigSep_W5]
  exact sound_body5 V c t

theorem phi_in5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  rw [show (dat5 V c).Φ 0 = Phi5 V c 0 from rfl, scopedRest5_split]; unfold Phi5
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Phi5 V c cfg5.N from rfl, scopedRest5_split]; unfold Phi5
  simp only [owns_whole]
  iintro ⟨⟨%d, -, HS⟩, Hg, HR⟩
  isplitl [Hg]; · iexact Hg
  isplitl [HS]; · iexists d; iexact HS
  iexact HR

end Cert.KernelIdeal.Agg5

end
-- ==== Proof.KI.Agg6.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Agg6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- One point's update of the running sum `a`: restarted from zero where the reduction coordinate is zero. -/
def step6 (c : Dev nD) (n : ℕ) (a : Vec F S1024x512 .f32) : Vec F S1024x512 .f32 :=
  if h : n < cfg6.N then
    k6_pay2 (iblk6 V c 1 ⟨n, h⟩) (iblk6 V c 2 ⟨n, h⟩) (if n % 8 = 0 then k6_pay1 (F := F) else a) (iblk6 V c 0 ⟨n, h⟩)
  else a

/-- The running sum after point `n`. -/
def acc6 (c : Dev nD) : ℕ → Vec F S1024x512 .f32
  | 0 => step6 V c 0 (k6_pay1 (F := F))
  | n + 1 => step6 V c (n + 1) (acc6 c n)

theorem acc6_eq (c : Dev nD) (t : Fin cfg6.N) (a : Vec F S1024x512 .f32) (ha : t.val ≠ 0 → a = acc6 V c (t.val - 1)) :
    k6_pay2 (iblk6 V c 1 t) (iblk6 V c 2 t) (if t.val % 8 = 0 then k6_pay1 (F := F) else a) (iblk6 V c 0 t) = acc6 V c t.val := by
  obtain ⟨n, hn⟩ := t
  cases n with
  | zero => unfold acc6 step6; rw [dif_pos hn, if_pos (Nat.zero_mod 8), if_pos (Nat.zero_mod 8)]
  | succ n =>
    rw [ha (Nat.succ_ne_zero n)]
    show _ = acc6 V c (n + 1)
    rw [acc6, step6, dif_pos hn]; rfl

abbrev cond6_1 (i : grid6.Coords) : Prop := (Scalar.cmpi .ne (Scalar.extui (Scalar.cmpi .eq (BitVec.ofNat 32 (i 1).val) 0#32)) 0#32) = 1#1
theorem hcond6_1 : ∀ t : Fin cfg6.N, cond6_1 (grid6.coords t) ↔ t.val % 8 = 0 :=
  (by decide +kernel : ∀ t : Fin grid6.N, cond6_1 (grid6.coords t) ↔ t.val % 8 = 0)

abbrev cond6_2 (i : grid6.Coords) : Prop := k6_cond2 i = 1#1
theorem hcond6_2 : ∀ t : Fin cfg6.N, cond6_2 (grid6.coords t) ↔ t.val % 8 = 7 :=
  (by decide +kernel : ∀ t : Fin grid6.N, cond6_2 (grid6.coords t) ↔ t.val % 8 = 7)

abbrev r6_O : Rect S1024x512 := Rect.unit (s := S1024x512) ![0, 0] S1024x512.size inb_S1024x512_S1024x512_0_0

theorem zero2 : (![0, 0] : Fin 2 → ℕ) = fun _ => 0 := by
  funext a; fin_cases a <;> rfl

theorem idle6_3 : ∀ t : Fin cfg6.N, cfg6.idle 3 (grid6.coords t) = decide (t.val % 8 ≠ 7) := by decide +kernel

theorem cover6_O {e : EltTy} (p : r6_O.shape.Idx → Elt F e) (L : List (View.Piece (Elt F) S1024x512 e)) (y : S1024x512.Idx) :
    ∃ pc ∈ ((⟨r6_O, p⟩ : View.Piece (Elt F) S1024x512 e) :: L), y ∈ pc.1.set :=
  ⟨_, List.mem_cons_self .., View.mem_set_unit_zero zero2 inb_S1024x512_S1024x512_0_0 y⟩

theorem pay2_congr {x1 x1' : Vec F S1024x256 .bf16} {x2 x2' : Vec F S256x512 .bf16} {a a' : Vec F S1024x512 .f32}
    {x0 x0' : Vec F S1024x1024 .bf16} (h1 : x1 = x1') (h2 : x2 = x2') (ha : a = a') (h0 : x0 = x0') :
    k6_pay2 x1 x2 a x0 = k6_pay2 x1' x2' a' x0' := by
  subst h1; subst h2; subst ha; subst h0; rfl

set_option maxHeartbeats 4000000 in
/-- One pass at coordinates `i`: the running sum `a` restarts where the first test holds (`p1`); where the second holds (`p2`) the output block takes the new sum, narrowed. -/
theorem sound_kernel6 (c : Dev nD) (E : Set ℕ) (i : grid6.Coords)
    (arg2 : Memref sig .tc .vmem S1024x1024 .bf16) (harg2 : arg2.IsWhole) (arg3 : Memref sig .tc .vmem S1024x256 .bf16) (harg3 : arg3.IsWhole)
    (arg4 : Memref sig .tc .vmem S256x512 .bf16) (harg4 : arg4.IsWhole) (arg5 : Memref sig .tc .vmem S1024x512 .f32) (harg5 : arg5.IsWhole)
    (arg6 : Memref sig .tc .vmem S1024x512 .f32) (harg6 : arg6.IsWhole)
    (p1 p2 : Prop) [Decidable p1] [Decidable p2] (h1 : cond6_1 i ↔ p1) (h2 : cond6_2 i ↔ p2) (hx : ¬(p1 ∧ p2))
    (x0 : Vec F S1024x1024 .bf16) (x1 : Vec F S1024x256 .bf16) (x2 : Vec F S256x512 .bf16) (x3 : Vec F S1024x512 .f32)
    (a : Vec F S1024x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (if p2 then (k6_pay2 x1 x2 (if p1 then k6_pay1 (F := F) else a) x0) else x3)
            ∗ owns (c : Thread nD τ) arg6 fullShare (k6_pay2 x1 x2 (if p1 then k6_pay1 (F := F) else a) x0)) -∗ K ⟨⟩))
      ⊢ wp frame (wpE (defs₀ (F := F)) Variants.none c none) E (cc6__fused_agg_kernel i arg2 harg2 arg3 harg3 arg4 harg4 arg5 harg5 arg6 harg6) K := by
  by_cases hp1 : p1 <;> by_cases hp2 : p2
  · exact absurd ⟨hp1, hp2⟩ hx
  all_goals
    first | rw [if_pos hp1] | rw [if_neg hp1]
    first | rw [if_pos hp2] | rw [if_neg hp2]
    simp only [cc6__fused_agg_kernel_eq_skeleton]; unfold cc6__fused_agg_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    subst hf0; subst hf1; subst hf2; subst hf3; subst hf6
    sl_exec (disch := first | exact h1.mpr hp1 | exact mt h1.mp hp1 | exact h2.mpr hp2 | exact mt h2.mp hp2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr
      swap; · iexact H3
      ipureintro
      first
        | (sl_unfold_run_names
           rw [View.read_writes_eq_canon _ _ _ (cover6_O _ _), View.canon_cons_unit_zero zero2]
           exact ((View.readCov_cons_toLoadRect _ _ _ _).trans (pay2_congr (View.ld_unit_zero zero2 _ _) (View.ld_unit_zero zero2 _ _) (View.ld_unit_zero zero2 _ _) (View.ld_unit_zero zero2 _ _))))
        | rfl
    iexists _; isplitr
    swap; · iexact H6
    ipureintro
    sl_unfold_run_names
    rw [View.read_writes_eq_canon _ _ _ (cover6_O _ _), View.canon_cons_unit_zero zero2]
    first
      | exact pay2_congr (View.ld_unit_zero zero2 _ _) (View.ld_unit_zero zero2 _ _) (View.ld_unit_zero zero2 _ _) (View.ld_unit_zero zero2 _ _)
      | exact pay2_congr (View.ld_unit_zero zero2 _ _) (View.ld_unit_zero zero2 _ _) (View.readCov_cons_toLoadRect _ _ _ _) (View.ld_unit_zero zero2 _ _)

abbrev scM6 : Memref sig .tc .vmem S1024x512 .f32 := Memref.whole cc6_scratch0

abbrev rest6 (c : Dev nD) : sProp 𝕄 := iprop((∃ r, prngReg c r)
  ∗ Pipeline.scopedRestBut (Ix := Unit) (Name := ℕ) (U := UR sig nD τ) (Lvl := ℕ) (Val := Elt F) spec6 c [cc6_scratch0])

/-- The invariant before position `n`: past the first point the running sum is what the point before left. -/
def Phi6 (c : Dev nD) (n : ℕ) : sProp 𝕄 :=
  iprop((∃ d, ⌜n ≠ 0 → d = acc6 V c (n - 1)⌝ ∗ owns (c : Thread nD τ) scM6 fullShare d) ∗ rest6 c)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (acc6 V c t.val)
  Φ t := Phi6 V c t.val
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) : (dat6 V c).after 3 t = (acc6 V c t.val) := by
  dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

theorem leaves6_3 (c : Dev nD) (t : Fin cfg6.N) (d) (s : Vec F S1024x512 .f32) (hs : s = acc6 V c t.val) :
    owns (c : Thread nD τ) (st6_3 t) fullShare (if t.val % 8 = 7 then s else (dat6 V c).before 3 t d)
      ⊢ (dat6 V c).leavesExact 3 t := by
  by_cases h7 : t.val % 8 = 7
  · rw [if_pos h7, hs, ← after6_3]; unfold Dat.leavesExact; rw [idle6_3 t, decide_eq_false (not_not.mpr h7)]
  · rw [if_neg h7, Dat.leavesExact_idle _ 3 t ((idle6_3 t).trans (decide_eq_true h7)) (Bool.eq_false_iff.mpr (mt (flush6_3 t).mp h7))]
    iintro H; iexists d; iexact H

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare (iblk6 V c 0 t)
    ∗ owns (c : Thread nD τ) (st6_1 t) fullShare (iblk6 V c 1 t)
    ∗ owns (c : Thread nD τ) (st6_2 t) fullShare (iblk6 V c 2 t)
    ∗ (dat6 V c).leavesExact 3 t)

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) from rfl,
    show (dat6 V c).Φ t.castSucc = Phi6 V c t.val from rfl]
  unfold Phi6
  iintro ⟨⟨⟨%a, %ha, HS⟩, HR⟩, Ho, ⟨%d0, H0⟩, ⟨%d1, H1⟩, ⟨%d2, H2⟩, ⟨%d3, H3⟩⟩
  iapply (sound_kernel6 c Set.univ (grid6.coords t) _ _ _ _ _ _ _ _ _ _ (t.val % 8 = 0) (t.val % 8 = 7) (hcond6_1 t) (hcond6_2 t)
    (by omega) (iblk6 V c 0 t) (iblk6 V c 1 t) (iblk6 V c 2 t) _ a _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]
    · iexists _; isplitr
      · ipureintro; exact fun _ => acc6_eq V c t a ha
      iexact HS
    iexact HR
  isplitl [Ho]; · iexact Ho
  isplitl [H0]; · iexact H0
  isplitl [H1]; · iexact H1
  isplitl [H2]; · iexact H2
  iapply (leaves6_3 V c t d3 _ (acc6_eq V c t a ha))
  iexact H3

theorem body_obligation6 (c : Dev nD) : BodyObligation (dat6 (F := F) V c) (defs₀ (F := F)) Variants.none () Set.univ := fun t => by
  rw [bigSep_W6, bigSep_W6]
  exact sound_body6 V c t

theorem phi_in6 (c : Dev nD) :
    iprop((∃ r, prngReg c r) ∗ Pipeline.scopedRest (Ix := Unit) (Name := ℕ) (U := UR sig nD τ) (Lvl := ℕ) (Val := Elt F) spec6 c)
      ⊢ (dat6 V c).Φ 0 := by
  rw [show (dat6 V c).Φ 0 = Phi6 V c 0 from rfl, scopedRest6_split]; unfold Phi6
  simp only [owns_whole]
  iintro ⟨Hg, ⟨%f, HS⟩, HR⟩
  isplitl [HS]
  · iexists f; isplitr; · ipureintro; exact fun h => absurd rfl h
    iexact HS
  isplitl [Hg]; · iexact Hg
  iexact HR

theorem phi_out6 (c : Dev nD) :
    (dat6 V c).Φ (Fin.last cfg6.N)
      ⊢ iprop((∃ r, prngReg c r) ∗ Pipeline.scopedRest (Ix := Unit) (Name := ℕ) (U := UR sig nD τ) (Lvl := ℕ) (Val := Elt F) spec6 c) := by
  rw [show (dat6 V c).Φ (Fin.last cfg6.N) = Phi6 V c cfg6.N from rfl, scopedRest6_split]; unfold Phi6
  simp only [owns_whole]
  iintro ⟨⟨%d, -, HS⟩, Hg, HR⟩
  isplitl [Hg]; · iexact Hg
  isplitl [HS]; · iexists d; iexact HS
  iexact HR

end Cert.KernelIdeal.Agg6

end
-- ==== Proof.KI.Zzt7.lean ====
import proofs.«407852_j22428319219864_3_alg».proof.Proof.Gen.KernelIdeal.Launch
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Zzt7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S512x512 := Rect.unit (s := S512x512) ![0, 0] S512x512.size inb_S512x512_S512x512_0_0
abbrev r7_1 : Rect S2048x512 := Rect.unit (s := S2048x512) ![0, 0] S2048x512.size inb_S2048x512_S2048x512_0_0
abbrev r7_2 : Rect S512x2048 := Rect.unit (s := S512x2048) ![0, 0] S512x2048.size inb_S512x2048_S512x2048_0_0

def out7_2 (x0 : Vec F S512x512 .bf16) (x1 : Vec F S2048x512 .bf16) : Vec F S512x2048 .f32 :=
  View.canon [⟨r7_2, k7_pay1 (View.ld x0 r7_0) (View.ld x1 r7_1)⟩]

theorem cover7_2 (p0 : Vec F S512x2048 .f32) (y : S512x2048.Idx) :
    ∃ pc ∈ ([⟨r7_2, p0⟩] : List (View.Piece (Elt F) S512x2048 .f32)), y ∈ pc.1.set :=
  View.cover_of_tiled [⟨r7_2, p0⟩] S512x2048.size (by rfl) y

set_option maxHeartbeats 1000000 in

theorem sound_kernel7 (c : Dev nD) (E : Set ℕ) (i : grid7.Coords)
    (arg2 : Memref sig .tc .vmem S512x512 .bf16) (harg2 : arg2.IsWhole)
    (arg3 : Memref sig .tc .vmem S2048x512 .bf16) (harg3 : arg3.IsWhole)
    (arg4 : Memref sig .tc .vmem S512x2048 .f32) (harg4 : arg4.IsWhole)
    (x0 : Vec F S512x512 .bf16) (x1 : Vec F S2048x512 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out7_2 x0 x1)) -∗ K ⟨⟩))
      ⊢ wp frame (wpE (defs₀ (F := F)) Variants.none c none) E (cc7__zzt_kernel i arg2 harg2 arg3 harg3 arg4 harg4) K := by
  simp only [cc7__zzt_kernel_eq_skeleton]; unfold cc7__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q w := match w with
    | ⟨0, _⟩ => fullShare.left
    | ⟨1, _⟩ => fullShare.right
    | ⟨2, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (iblk7 V c 0 t) (iblk7 V c 1 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d

theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

theorem arrRefs7 : Finset.univ.image (Pipeline.arrRef spec7) = [main_v32, main_v33].toFinset := by decide

theorem arrays7_eq (c : Dev nD) (G : (w : Fin cfg7.W) → Buf (Elt F) ((cfg7.win w).arr.view.loc (c.tc : Thread nD τ))) :
    (dat7 V c).arrays G
      = iprop(((((c.tc : Thread nD τ).loc main_v32) ↦{fullShare.left} G 0 : sProp 𝕄))
          ∗ (((c.tc : Thread nD τ).loc main_v32) ↦{fullShare.right} G 1)
          ∗ (((c.tc : Thread nD τ).loc main_v33) ↦{fullShare} G 2)) := by
  unfold Dat.arrays
  rw [bigSep_W7, (arr_whole7 0).set_eq_univ, (arr_whole7 2).set_eq_univ]
  rfl

theorem arrBufs7_eq (c : Dev nD) (W : (b : Ref sig .tc) → Buf (Elt F) ((c : Thread nD τ).loc b)) :
    (Pipeline.arrBufs spec7 c W : sProp 𝕄)
      = iprop((((c.tc : Thread nD τ).loc main_v32) ↦{fullShare} W main_v32) ∗ (((c.tc : Thread nD τ).loc main_v33) ↦{fullShare} W main_v33)) :=
  bigSep_eq_bigSepL_of_eq [main_v32, main_v33] arrRefs7 (by decide) _

theorem arrays_of_arrBufs7 (c : Dev nD) :
    (Pipeline.arrBufs spec7 c (V c) : sProp 𝕄) ⊢ (dat7 V c).arrays ((dat7 V c).arrAt · 0) := by
  rw [arrays7_eq]
  rw [arrBufs7_eq]
  rw [show (dat7 V c).arrAt 0 0 = V c (Pipeline.arrRef spec7 0) from A_eq7 V c 0,
    show (dat7 V c).arrAt 1 0 = V c (Pipeline.arrRef spec7 1) from A_eq7 V c 1,
    show (dat7 V c).arrAt 2 0 = V c (Pipeline.arrRef spec7 2) from A_eq7 V c 2]
  iintro ⟨H23, H24⟩
  ihave H := (pointsTo_share (PosShare.mem_left_op_right fullShare)).1 $$ H23
  icases H with ⟨Hl, Hr⟩
  isplitl [Hl]; · iexact Hl
  isplitl [Hr]; · iexact Hr
  iexact H24

theorem arrBufs_of_arrays7 (V' : (c : Dev nD) → (b : Ref sig .tc) → Buf (Elt F) ((c : Thread nD τ).loc b)) (c : Dev nD)
    (hF : ∀ w, (dat7 V c).arrAt w cfg7.N = V' c (Pipeline.arrRef spec7 w)) :
    (dat7 V c).arrays ((dat7 V c).arrAt · cfg7.N) ⊢ (Pipeline.arrBufs spec7 c (V' c) : sProp 𝕄) := by
  rw [arrays7_eq]
  rw [arrBufs7_eq]
  rw [hF 0, hF 1, hF 2]
  iintro ⟨Hl, Hr, H24⟩
  isplitl [Hl Hr]
  · iapply (pointsTo_share (PosShare.mem_left_op_right fullShare)).2
    isplitl [Hl]; · iexact Hl
    iexact Hr
  iexact H24

end Cert.KernelIdeal.Zzt7
-- ==== Proof.KI.Run.lean ====
import proofs.«407852_j22428319219864_3_alg».proof.Proof.KI.Agg0
import proofs.«407852_j22428319219864_3_alg».proof.Proof.KI.Agg1
import proofs.«407852_j22428319219864_3_alg».proof.Proof.KI.Agg2
import proofs.«407852_j22428319219864_3_alg».proof.Proof.KI.Zzt3
import proofs.«407852_j22428319219864_3_alg».proof.Proof.KI.Agg4
import proofs.«407852_j22428319219864_3_alg».proof.Proof.KI.Agg5
import proofs.«407852_j22428319219864_3_alg».proof.Proof.KI.Agg6
import proofs.«407852_j22428319219864_3_alg».proof.Proof.KI.Zzt7
import proofs.«407852_j22428319219864_3_alg».proof.Proof.Gen.KernelIdeal.Regions
import proofs.«407852_j22428319219864_3_alg».proof.Proof.Gen.KernelIdeal.Skeleton
import proofs.«407852_j22428319219864_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg arrRef unscopedRest scopedRest arrBufs ucRefs)

variable {F : FTy → Type} [FloatOps F]

local notation "𝕄" => MT nD τ sig Unit (Elt F) ℕ (UR sig nD τ) ℕ

variable (m : (ℓ : Loc nD τ sig) → Buf (Elt F) ℓ)

/-! What each region leaves in its output, threaded through the program in order. -/
def X1 (c : Dev nD) : Valuation τ sig (Elt F) := V1 m c
def o2 (c : Dev nD) : Buf (Elt F) ((c : Thread nD τ).loc main_v18) :=
  (Agg0.dat0 (fun c b => X1 m c b) c).arrAt 3 cfg0.N
def X3 (c : Dev nD) : Valuation τ sig (Elt F) :=
  StableHlo.after hostOps1 (Function.update (X1 m c) main_v18 (o2 m c))
def o4 (c : Dev nD) : Buf (Elt F) ((c : Thread nD τ).loc main_v20) :=
  (Agg1.dat1 (fun c b => X3 m c b) c).arrAt 3 cfg1.N
def X5 (c : Dev nD) : Valuation τ sig (Elt F) :=
  StableHlo.after hostOps2 (Function.update (X3 m c) main_v20 (o4 m c))
def o6 (c : Dev nD) : Buf (Elt F) ((c : Thread nD τ).loc main_v22) :=
  (Agg2.dat2 (fun c b => X5 m c b) c).arrAt 3 cfg2.N
def X7 (c : Dev nD) : Valuation τ sig (Elt F) :=
  StableHlo.after hostOps3 (Function.update (X5 m c) main_v22 (o6 m c))
def o8 (c : Dev nD) : Buf (Elt F) ((c : Thread nD τ).loc main_v24) :=
  (Zzt3.dat3 (fun c b => X7 m c b) c).arrAt 2 cfg3.N
def X9 (c : Dev nD) : Valuation τ sig (Elt F) :=
  StableHlo.after hostOps4 (Function.update (X7 m c) main_v24 (o8 m c))
def o10 (c : Dev nD) : Buf (Elt F) ((c : Thread nD τ).loc main_v27) :=
  (Agg4.dat4 (fun c b => X9 m c b) c).arrAt 3 cfg4.N
def X11 (c : Dev nD) : Valuation τ sig (Elt F) :=
  StableHlo.after hostOps5 (Function.update (X9 m c) main_v27 (o10 m c))
def o12 (c : Dev nD) : Buf (Elt F) ((c : Thread nD τ).loc main_v29) :=
  (Agg5.dat5 (fun c b => X11 m c b) c).arrAt 3 cfg5.N
def X13 (c : Dev nD) : Valuation τ sig (Elt F) :=
  StableHlo.after hostOps6 (Function.update (X11 m c) main_v29 (o12 m c))
def o14 (c : Dev nD) : Buf (Elt F) ((c : Thread nD τ).loc main_v31) :=
  (Agg6.dat6 (fun c b => X13 m c b) c).arrAt 3 cfg6.N
def X15 (c : Dev nD) : Valuation τ sig (Elt F) :=
  StableHlo.after hostOps7 (Function.update (X13 m c) main_v31 (o14 m c))
def o16 (c : Dev nD) : Buf (Elt F) ((c : Thread nD τ).loc main_v33) :=
  (Zzt7.dat7 (fun c b => X15 m c b) c).arrAt 2 cfg7.N
def outsOf : Outs (F := F) := fun _ r c =>
  if h : r = main_v18 then h ▸ o2 m c
  else if h : r = main_v20 then h ▸ o4 m c
  else if h : r = main_v22 then h ▸ o6 m c
  else if h : r = main_v24 then h ▸ o8 m c
  else if h : r = main_v27 then h ▸ o10 m c
  else if h : r = main_v29 then h ▸ o12 m c
  else if h : r = main_v31 then h ▸ o14 m c
  else if h : r = main_v33 then h ▸ o16 m c
  else m ((c : Thread nD τ).loc r)
theorem outsOf_2 (J : ℕ) (c : Dev nD) : outsOf m J main_v18 c = o2 m c := by
  unfold outsOf; (repeat rw [dif_neg (by decide)]); rw [dif_pos rfl]
theorem outsOf_4 (J : ℕ) (c : Dev nD) : outsOf m J main_v20 c = o4 m c := by
  unfold outsOf; (repeat rw [dif_neg (by decide)]); rw [dif_pos rfl]
theorem outsOf_6 (J : ℕ) (c : Dev nD) : outsOf m J main_v22 c = o6 m c := by
  unfold outsOf; (repeat rw [dif_neg (by decide)]); rw [dif_pos rfl]
theorem outsOf_8 (J : ℕ) (c : Dev nD) : outsOf m J main_v24 c = o8 m c := by
  unfold outsOf; (repeat rw [dif_neg (by decide)]); rw [dif_pos rfl]
theorem outsOf_10 (J : ℕ) (c : Dev nD) : outsOf m J main_v27 c = o10 m c := by
  unfold outsOf; (repeat rw [dif_neg (by decide)]); rw [dif_pos rfl]
theorem outsOf_12 (J : ℕ) (c : Dev nD) : outsOf m J main_v29 c = o12 m c := by
  unfold outsOf; (repeat rw [dif_neg (by decide)]); rw [dif_pos rfl]
theorem outsOf_14 (J : ℕ) (c : Dev nD) : outsOf m J main_v31 c = o14 m c := by
  unfold outsOf; (repeat rw [dif_neg (by decide)]); rw [dif_pos rfl]
theorem outsOf_16 (J : ℕ) (c : Dev nD) : outsOf m J main_v33 c = o16 m c := by
  unfold outsOf; (repeat rw [dif_neg (by decide)]); rw [dif_pos rfl]
theorem V1_eq (c : Dev nD) : V1 m c = X1 m c := rfl
theorem V3_eq (c : Dev nD) : V3 m (outsOf m) c = X3 m c := by
  unfold X3; rw [← V1_eq, ← outsOf_2 m 2 c]
theorem V5_eq (c : Dev nD) : V5 m (outsOf m) c = X5 m c := by
  unfold X5; rw [← V3_eq, ← outsOf_4 m 4 c]
theorem V7_eq (c : Dev nD) : V7 m (outsOf m) c = X7 m c := by
  unfold X7; rw [← V5_eq, ← outsOf_6 m 6 c]
theorem V9_eq (c : Dev nD) : V9 m (outsOf m) c = X9 m c := by
  unfold X9; rw [← V7_eq, ← outsOf_8 m 8 c]
theorem V11_eq (c : Dev nD) : V11 m (outsOf m) c = X11 m c := by
  unfold X11; rw [← V9_eq, ← outsOf_10 m 10 c]
theorem V13_eq (c : Dev nD) : V13 m (outsOf m) c = X13 m c := by
  unfold X13; rw [← V11_eq, ← outsOf_12 m 12 c]
theorem V15_eq (c : Dev nD) : V15 m (outsOf m) c = X15 m c := by
  unfold X15; rw [← V13_eq, ← outsOf_14 m 14 c]

/-- A valuation per core, read at the core's references. -/
abbrev rd (V : Dev nD → Valuation τ sig (Elt F)) : (c : Dev nD) → (b : Ref sig .tc) → Buf (Elt F) ((c : Thread nD τ).loc b) :=
  fun c b => V c b
/-- Valuations equal at every core read the same there. -/
theorem enx {V X : Dev nD → Valuation τ sig (Elt F)} (h : ∀ c, V c = X c) : rd V = rd X := by
  funext c b; unfold rd; rw [h]
abbrev En1 := rd (V1 m)
theorem EnX1 : En1 m = fun (c : Dev nD) (b : Ref sig .tc) => X1 m c b := enx (V1_eq m)
abbrev En3 := rd (V3 m (outsOf m))
theorem EnX3 : En3 m = fun (c : Dev nD) (b : Ref sig .tc) => X3 m c b := enx (V3_eq m)
abbrev En5 := rd (V5 m (outsOf m))
theorem EnX5 : En5 m = fun (c : Dev nD) (b : Ref sig .tc) => X5 m c b := enx (V5_eq m)
abbrev En7 := rd (V7 m (outsOf m))
theorem EnX7 : En7 m = fun (c : Dev nD) (b : Ref sig .tc) => X7 m c b := enx (V7_eq m)
abbrev En9 := rd (V9 m (outsOf m))
theorem EnX9 : En9 m = fun (c : Dev nD) (b : Ref sig .tc) => X9 m c b := enx (V9_eq m)
abbrev En11 := rd (V11 m (outsOf m))
theorem EnX11 : En11 m = fun (c : Dev nD) (b : Ref sig .tc) => X11 m c b := enx (V11_eq m)
abbrev En13 := rd (V13 m (outsOf m))
theorem EnX13 : En13 m = fun (c : Dev nD) (b : Ref sig .tc) => X13 m c b := enx (V13_eq m)
abbrev En15 := rd (V15 m (outsOf m))
theorem EnX15 : En15 m = fun (c : Dev nD) (b : Ref sig .tc) => X15 m c b := enx (V15_eq m)

def pdats : (p : Fin 8) → (c : Dev nD) → Dat τ (Elt F) Unit ℕ (UR sig nD τ) ℕ (cfgs p) c
  | ⟨0, _⟩ => Agg0.dat0 (En1 m)
  | ⟨1, _⟩ => Agg1.dat1 (En3 m)
  | ⟨2, _⟩ => Agg2.dat2 (En5 m)
  | ⟨3, _⟩ => Zzt3.dat3 (En7 m)
  | ⟨4, _⟩ => Agg4.dat4 (En9 m)
  | ⟨5, _⟩ => Agg5.dat5 (En11 m)
  | ⟨6, _⟩ => Agg6.dat6 (En13 m)
  | ⟨7, _⟩ => Zzt7.dat7 (En15 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem owed0 (p : Fin 8) (c : Dev nD) (t) : (pdats m p c).owed t = 0 := by fin_cases p <;> rfl
theorem rec0 (p : Fin 8) (c : Dev nD) (t) : (pdats m p c).recorded t = Set.univ := by fin_cases p <;> rfl

/-- Every unscoped buffer of a core, whole at a valuation. -/
abbrev heldAt (V : Dev nD → Valuation τ sig (Elt F)) (c : Dev nD) : sProp 𝕄 :=
  StableHlo.held (c : Thread nD τ) (ucRefs τ sig) (V c)

/-- The buffers that are no array of a region, at two valuations that agree off the region's arrays. -/
theorem unscopedRest_congr {gr : Nat} {W : Nat} (win : Fin W → Pipeline.WinSpec sig gr) (c : Dev nD)
    (V V' : (b : Ref sig .tc) → Buf (Elt F) ((c : Thread nD τ).loc b))
    (h : ∀ b, b ∉ Finset.univ.image (arrRef win) → V' b = V b) :
    (unscopedRest (Ix := Unit) (Name := ℕ) (U := UR sig nD τ) (Lvl := ℕ) win c V : sProp 𝕄) = unscopedRest win c V' := by
  unfold Pipeline.unscopedRest
  exact bigSep_congr fun b hb => by rw [h b (Finset.mem_sdiff.mp hb).2]

section Region

variable (p : Fin 8) (Vi Vo : Dev nD → Valuation τ sig (Elt F))

/-- A region's arrays when it is left, its output window `wo`'s array alone differing: an input's array is never written. -/
theorem exit_vals (c : Dev nD) (wo : Fin (cfgs p).W) (x : Buf (Elt F) ((c : Thread nD τ).loc (arrRef (cfgs p).spec wo)))
    (hVo : Vo c = Function.update (Vi c) (arrRef (cfgs p).spec wo) x)
    (hio : ∀ w, w ≠ wo → ((cfgs p).win w).isOut = false ∧ arrRef (cfgs p).spec w ≠ arrRef (cfgs p).spec wo)
    (hA : ∀ w, (pdats m p c).A w = rd Vi c (arrRef (cfgs p).spec w))
    (ho : (pdats m p c).arrAt wo (cfgs p).N = x) :
    (∀ w, (pdats m p c).arrAt w (cfgs p).N = rd Vo c (arrRef (cfgs p).spec w))
      ∧ ∀ b, b ∉ Finset.univ.image (arrRef (cfgs p).spec) → rd Vo c b = rd Vi c b := by
  unfold rd at *
  have hof : ∀ r : Ref sig .tc, r ≠ arrRef (cfgs p).spec wo → (Vo c r : Buf (Elt F) ((c : Thread nD τ).loc r)) = Vi c r :=
    fun r h => by rw [hVo, Function.update_of_ne (StableHlo.devRef_ne_of_ne h)]
  refine ⟨fun w => ?_, fun b hb => hof b fun h => hb (Finset.mem_image.mpr ⟨wo, Finset.mem_univ _, h.symm⟩)⟩
  rcases eq_or_ne w wo with rfl | h
  · rw [hVo, Function.update_self]; exact ho
  · exact ((pdats m p c).arrAt_in w (hio w h).1 _).trans ((hA w).trans (hof _ (hio w h).2).symm)

variable (hb : ∀ c, BodyObligation (pdats m p c) (defs₀ (F := F)) 𝒱₀ () Set.univ)
  (hΦi : ∀ c, iprop((∃ r, prngReg c r) ∗ scopedRest (cfgs p).spec c) ⊢ (pdats m p c).Φ 0)
  (hΦo : ∀ c, (pdats m p c).Φ (Fin.last (cfgs p).N) ⊢ iprop((∃ r, prngReg c r) ∗ scopedRest (cfgs p).spec c))

set_option backward.isDefEq.respectTransparency.types false in
/-- A region entered with every unscoped buffer at `Vi` and left with them at `Vo`, its arrays leaving and rejoining the buffers by `hs` and `hj`. -/
def mkReg (win : Pipeline.WinFacts₀ (cfgs p).spec) (bp : ∀ w : Fin (cfgs p).W, 0 < ((cfgs p).spec w).block.numel)
    (sw : ∀ (w : Fin (cfgs p).W) (s : Fin ((cfgs p).spec w).nbuf), (((cfgs p).spec w).stage s).IsWhole)
    (hs : ∀ c : Dev nD, heldAt Vi c
      ⊢ iprop((pdats m p c).arrays ((pdats m p c).arrAt · 0) ∗ unscopedRest (cfgs p).spec c (rd Vi c)))
    (hj : ∀ c : Dev nD, iprop((pdats m p c).arrays ((pdats m p c).arrAt · (cfgs p).N) ∗ unscopedRest (cfgs p).spec c (rd Vi c))
      ⊢ heldAt Vo c) :
    RegionSeg (pcfgs (F := F)) adm (pdats m) () defs₀ 𝒱₀ L lv p where
  win := win
  block_pos := bp
  stage_whole := sw
  K := PEmpty
  osem k := k.elim
  ho := Pipeline.OwnSemFacts.none _
  hbody c := (hb c).loose
  hwaits := Pipeline.hwaits_of_owed_zero _ _ _ _ L lv p (owed0 m p)
  pre c := iprop(heldAt Vi c ∗ R c)
  post c := iprop(heldAt Vo c ∗ R c)
  X c := iprop(∃ r, prngReg c r)
  Y c := iprop(∃ r, prngReg c r)
  Z c := unscopedRest (cfgs p).spec c (rd Vi c)
  hentry c := by
    rw [Pipeline.ownSems0_none]; unfold Pipeline.Dat.owesAt Pipeline.owesWithin; rw [owed0]
    iintro ⟨⟨Hub, Hp, HO⟩, -, -⟩
    ihave H := hs c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (rec0 m p c 0 ▸ Set.mem_univ x)
      iexact HO
    isplitl [Hp]; · iexact Hp
    iexact Hrest
  hin c := by
    refine .trans ?_ (hΦi c)
    iintro ⟨Hp, -, Hr⟩
    isplitl [Hp]; · iexact Hp
    iexact Hr
  hout c := by
    rw [Pipeline.ownSems0_none]
    refine (hΦo c).trans ?_
    iintro ⟨Hp, Hr⟩
    isplitl [Hp]; · iexact Hp
    isplitr; · iempintro
    iexact Hr
  hexit c := by
    unfold Pipeline.Dat.owesAt Pipeline.owesWithin; rw [owed0]
    iintro ⟨Ha, HO, HY, Hrest⟩
    imodintro
    isplitl [Ha Hrest]
    · iapply hj c; isplitl [Ha] <;> iassumption
    isplitl [HY]; · iexact HY
    icases HO with ⟨%W, -, HO⟩; iexists W; iexact HO

/-- A region whose windows read distinct arrays, each a whole buffer held at the full share. -/
def mkAgg (lk : Pipeline.LaunchFacts (nD := nD) (τ := τ) cfgs p) (hq : ∀ c w, (pdats m p c).q w = fullShare)
    (hA : ∀ c w, (pdats m p c).A w = rd Vi c (arrRef (cfgs p).spec w))
    (hx : ∀ c, (∀ w, (pdats m p c).arrAt w (cfgs p).N = rd Vo c (arrRef (cfgs p).spec w))
      ∧ ∀ b, b ∉ Finset.univ.image (arrRef (cfgs p).spec) → rd Vo c b = rd Vi c b) :=
  mkReg m p Vi Vo hb hΦi hΦo lk.win.to₀ lk.block_pos lk.stage_whole
    (fun c => (Entails.of_eq (Pipeline.unscopedBufs_held c (Vi c)).symm).trans
      (Pipeline.arrays_of_unscopedBufs (p := p) (pcfgs (F := F)) adm (pdats m) lk.win lk.arr_whole c
        ((pdats m p c).share_full (hq c)) (rd Vi c) (hA c)))
    (fun c => (Pipeline.unscopedBufs_of_arrays (p := p) (pcfgs (F := F)) adm
        lk.win lk.arr_whole c (pdats m) ((pdats m p c).share_full (hq c)) (rd Vi c) (rd Vo c) ((pdats m p c).arrAt · (cfgs p).N)
        (hx c).1 (hx c).2).trans (Entails.of_eq (Pipeline.unscopedBufs_held c (Vo c))))

/-- Entry through the distinct buffers behind a region's arrays. -/
theorem split_via (hw : Pipeline.WinFacts₀ (cfgs p).spec) (c : Dev nD) {A : sProp 𝕄}
    (h : (arrBufs (cfgs p).spec c (rd Vi c) : sProp 𝕄) ⊢ A) :
    heldAt Vi c ⊢ iprop(A ∗ unscopedRest (cfgs p).spec c (rd Vi c)) :=
  (Entails.of_eq ((Pipeline.unscopedBufs_held c (Vi c)).symm.trans
    (Pipeline.unscopedBufs_split₀ cfgs p hw.arr_unscoped c (rd Vi c)))).trans (BIClass.sep_mono h .rfl)

/-- Exit through them, every other buffer reading the same before and after. -/
theorem join_via (hw : Pipeline.WinFacts₀ (cfgs p).spec) (c : Dev nD) {A : sProp 𝕄}
    (h : A ⊢ (arrBufs (cfgs p).spec c (rd Vo c) : sProp 𝕄))
    (hrest : ∀ b, b ∉ Finset.univ.image (arrRef (cfgs p).spec) → rd Vo c b = rd Vi c b) :
    iprop(A ∗ unscopedRest (cfgs p).spec c (rd Vi c)) ⊢ heldAt Vo c :=
  (BIClass.sep_mono h (Entails.of_eq (unscopedRest_congr (cfgs p).spec c (rd Vi c) (rd Vo c) hrest))).trans (Entails.of_eq
    ((Pipeline.unscopedBufs_split₀ cfgs p hw.arr_unscoped c (rd Vo c)).symm.trans
      (Pipeline.unscopedBufs_held c (Vo c))))

end Region

def reg0 :=
  mkAgg m 0 (V1 m) (V2 m (outsOf m)) (Agg0.body_obligation0 (En1 m))
    (Agg0.phi_in0 (En1 m)) (Agg0.phi_out0 (En1 m)) launch0 (fun _ _ => rfl) (Agg0.A_eq0 (En1 m)) fun c =>
    exit_vals m 0 (V1 m) (V2 m (outsOf m)) c 3 _ rfl (by decide) (Agg0.A_eq0 (En1 m) c)
      ((congrArg (fun V => (Agg0.dat0 V c).arrAt 3 cfg0.N) (EnX1 m)).trans (outsOf_2 m 2 c).symm)

def reg1 :=
  mkAgg m 1 (V3 m (outsOf m)) (V4 m (outsOf m)) (Agg1.body_obligation1 (En3 m))
    (Agg1.phi_in1 (En3 m)) (Agg1.phi_out1 (En3 m)) launch1 (fun _ _ => rfl) (Agg1.A_eq1 (En3 m)) fun c =>
    exit_vals m 1 (V3 m (outsOf m)) (V4 m (outsOf m)) c 3 _ rfl (by decide) (Agg1.A_eq1 (En3 m) c)
      ((congrArg (fun V => (Agg1.dat1 V c).arrAt 3 cfg1.N) (EnX3 m)).trans (outsOf_4 m 4 c).symm)

def reg2 :=
  mkAgg m 2 (V5 m (outsOf m)) (V6 m (outsOf m)) (Agg2.body_obligation2 (En5 m))
    (Agg2.phi_in2 (En5 m)) (Agg2.phi_out2 (En5 m)) launch2 (fun _ _ => rfl) (Agg2.A_eq2 (En5 m)) fun c =>
    exit_vals m 2 (V5 m (outsOf m)) (V6 m (outsOf m)) c 3 _ rfl (by decide) (Agg2.A_eq2 (En5 m) c)
      ((congrArg (fun V => (Agg2.dat2 V c).arrAt 3 cfg2.N) (EnX5 m)).trans (outsOf_6 m 6 c).symm)

def reg3 :=
  mkReg m 3 (V7 m (outsOf m)) (V8 m (outsOf m)) (Zzt3.body_obligation3 (En7 m)) (fun _ => sep_symm) (fun _ => sep_symm)
    winFacts₀3 block_pos3 stage_whole3
    (fun c => split_via 3 _ winFacts₀3 c (Zzt3.arrays_of_arrBufs3 (En7 m) c))
    fun c => have e := (exit_vals m 3 (V7 m (outsOf m)) (V8 m (outsOf m)) c 2 _ rfl (by decide) (Zzt3.A_eq3 (En7 m) c)
      ((congrArg (fun V => (Zzt3.dat3 V c).arrAt 2 cfg3.N) (EnX7 m)).trans (outsOf_8 m 8 c).symm));
      join_via 3 _ _ winFacts₀3 c (Zzt3.arrBufs_of_arrays3 (En7 m) (rd (V8 m (outsOf m))) c e.1) e.2

def reg4 :=
  mkAgg m 4 (V9 m (outsOf m)) (V10 m (outsOf m)) (Agg4.body_obligation4 (En9 m))
    (Agg4.phi_in4 (En9 m)) (Agg4.phi_out4 (En9 m)) launch4 (fun _ _ => rfl) (Agg4.A_eq4 (En9 m)) fun c =>
    exit_vals m 4 (V9 m (outsOf m)) (V10 m (outsOf m)) c 3 _ rfl (by decide) (Agg4.A_eq4 (En9 m) c)
      ((congrArg (fun V => (Agg4.dat4 V c).arrAt 3 cfg4.N) (EnX9 m)).trans (outsOf_10 m 10 c).symm)

def reg5 :=
  mkAgg m 5 (V11 m (outsOf m)) (V12 m (outsOf m)) (Agg5.body_obligation5 (En11 m))
    (Agg5.phi_in5 (En11 m)) (Agg5.phi_out5 (En11 m)) launch5 (fun _ _ => rfl) (Agg5.A_eq5 (En11 m)) fun c =>
    exit_vals m 5 (V11 m (outsOf m)) (V12 m (outsOf m)) c 3 _ rfl (by decide) (Agg5.A_eq5 (En11 m) c)
      ((congrArg (fun V => (Agg5.dat5 V c).arrAt 3 cfg5.N) (EnX11 m)).trans (outsOf_12 m 12 c).symm)

def reg6 :=
  mkAgg m 6 (V13 m (outsOf m)) (V14 m (outsOf m)) (Agg6.body_obligation6 (En13 m))
    (Agg6.phi_in6 (En13 m)) (Agg6.phi_out6 (En13 m)) launch6 (fun _ _ => rfl) (Agg6.A_eq6 (En13 m)) fun c =>
    exit_vals m 6 (V13 m (outsOf m)) (V14 m (outsOf m)) c 3 _ rfl (by decide) (Agg6.A_eq6 (En13 m) c)
      ((congrArg (fun V => (Agg6.dat6 V c).arrAt 3 cfg6.N) (EnX13 m)).trans (outsOf_14 m 14 c).symm)

def reg7 :=
  mkReg m 7 (V15 m (outsOf m)) (V16 m (outsOf m)) (Zzt7.body_obligation7 (En15 m)) (fun _ => sep_symm) (fun _ => sep_symm)
    winFacts₀7 block_pos7 stage_whole7
    (fun c => split_via 7 _ winFacts₀7 c (Zzt7.arrays_of_arrBufs7 (En15 m) c))
    fun c => have e := (exit_vals m 7 (V15 m (outsOf m)) (V16 m (outsOf m)) c 2 _ rfl (by decide) (Zzt7.A_eq7 (En15 m) c)
      ((congrArg (fun V => (Zzt7.dat7 V c).arrAt 2 cfg7.N) (EnX15 m)).trans (outsOf_16 m 16 c).symm));
      join_via 7 _ _ winFacts₀7 c (Zzt7.arrBufs_of_arrays7 (En15 m) (rd (V16 m (outsOf m))) c e.1) e.2

def res22 (c : Dev nD) : Buf (Elt F) ((c : Thread nD τ).loc main_v22) := V16 m (outsOf m) c main_v22
def res24 (c : Dev nD) : Buf (Elt F) ((c : Thread nD τ).loc main_v24) := V16 m (outsOf m) c main_v24
def res31 (c : Dev nD) : Buf (Elt F) ((c : Thread nD τ).loc main_v31) := V16 m (outsOf m) c main_v31
def res33 (c : Dev nD) : Buf (Elt F) ((c : Thread nD τ).loc main_v33) := V16 m (outsOf m) c main_v33

abbrev segsR (c : Dev nD) :=
  segs m (outsOf m) 𝒱₀ L lv (fun _ c => R c) () (pdats m) (reg0 m) (reg1 m) (reg2 m) (reg3 m) (reg4 m) (reg5 m) (reg6 m) (reg7 m) c

set_option backward.isDefEq.respectTransparency.types false in
/-- Every fair execution terminates with the four results at the threaded contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v22) = res22 m c
      ∧ r.2.mem ((c.tc : Thread nD τ).loc main_v24) = res24 m c
      ∧ r.2.mem ((c.tc : Thread nD τ).loc main_v31) = res31 m c
      ∧ r.2.mem ((c.tc : Thread nD τ).loc main_v33) = res33 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segsR m)
    (fun c Q => by rewrite [main_chain c, Seg.run_eq_chain]; exact .rfl)
    (fun c => by simp only [segsR, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(heldAt (V0 m) c ∗ R c))
    (Tₙ := fun c => iprop(heldAt (V16 m (outsOf m)) c ∗ ∃ r, prngReg c r))
    (hch := fun c => ⟨.rfl, .rfl, .rfl, .rfl, .rfl, .rfl, .rfl, .rfl, .rfl, .rfl, .rfl, .rfl, .rfl, .rfl, .rfl, .rfl, BI.sep_assoc'⟩)
    (hinit := by
      refine Pipeline.initEach L lv fun c => ?_
      rw [show unscopedBufs c (fun b => m ((c : Thread nD τ).loc b)) = heldAt (V0 m) c
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := _) (hfin := fun c s' => ?_) (hQ := fun _ h => h)
  unfold heldAt StableHlo.held
  iintro ⟨⟨Hh, -⟩, HSI⟩
  ihave Hr := (pointsTo_read_all (ucRefs τ sig) (fun b => ((c : Thread nD τ).1, b)) (V16 m (outsOf m) c) s') $$ [Hh HSI]
  · isplitl [Hh] <;> iassumption
  icases Hr with ⟨%h, HSI⟩
  imodintro
  isplitr
  · ipureintro
    have g := fun (r : Ref sig .tc) hs => h (Proc.devRef .tc r) (Finset.mem_filter.mpr ⟨StableHlo.devRef_mem_tcRefs r, hs⟩)
    exact ⟨g main_v22 (by decide), g main_v24 (by decide), g main_v31 (by decide), g main_v33 (by decide),
      (g main_arg0 (by decide)).trans (V16_main_arg0 m (outsOf m) c),
      (g main_arg1 (by decide)).trans (V16_main_arg1 m (outsOf m) c),
      (g main_arg2 (by decide)).trans (V16_main_arg2 m (outsOf m) c),
      (g main_arg3 (by decide)).trans (V16_main_arg3 m (outsOf m) c),
      (g main_arg4 (by decide)).trans (V16_main_arg4 m (outsOf m) c),
      (g main_arg5 (by decide)).trans (V16_main_arg5 m (outsOf m) c),
      (g main_arg6 (by decide)).trans (V16_main_arg6 m (outsOf m) c),
      (g main_arg7 (by decide)).trans (V16_main_arg7 m (outsOf m) c),
      (g main_arg8 (by decide)).trans (V16_main_arg8 m (outsOf m) c),
      (g main_arg9 (by decide)).trans (V16_main_arg9 m (outsOf m) c)⟩
  · iexact HSI

end Cert.KernelIdeal.Run

end
-- ==== Proof.Spec.lean ====
import Idealize.ShloMosaic.PureOps.Ideal
import Idealize.ShloMosaic.Lib.ValueIdx

noncomputable section

namespace GcnSpec

open Idealize.ShloMosaic Idealize.ShloMosaic.ValueIdx

abbrev Mat (n d : Nat) : Type := (⟨2, ![n, d]⟩ : Shape).Idx → EReal

variable {n k d E : Nat}

def support (act : EReal → EReal) (x : Mat n k) (w : Mat k d) : Mat n d :=
  fun i => act (∑ j : Fin k, x (ix2 (i 0) j) * w (ix2 j (i 1)))

def edgeAgg (row col : Fin E → Fin n) (val : Fin E → EReal) (s : Mat n d) : Mat n d :=
  fun i => ∑ e : Fin E, if (row e).val = (i 0).val then val e * s (ix2 (col e) (i 1)) else 0

def adj (row col : Fin E → Fin n) (val : Fin E → EReal) : Mat n n :=
  fun i => ∑ e : Fin E, if (row e).val = (i 0).val ∧ (col e).val = (i 1).val then val e else 0

def denseAgg (a : Mat n n) (s : Mat n d) : Mat n d :=
  fun i => ∑ c : Fin n, a (ix2 (i 0) c) * s (ix2 c (i 1))

def gram (z : Mat n k) : Mat n n :=
  fun i => ∑ j : Fin k, z (ix2 (i 0) j) * z (ix2 (i 1) j)

def refLayer (act : EReal → EReal) (row col : Fin E → Fin n) (val : Fin E → EReal) (x : Mat n k) (w : Mat k d) : Mat n d :=
  edgeAgg row col val (support act x w)

def kerLayer (act : EReal → EReal) (a : Mat n n) (x : Mat n k) (w : Mat k d) : Mat n d :=
  denseAgg a (support act x w)

def sigRef (t : EReal) : EReal := Ideal.div 1 (1 + Ideal.exp (-t))

def idxFin (n : Nat) (a : IVec (⟨1, ![E]⟩ : Shape) 32) (h : ∀ e, 0 ≤ (a e).toInt ∧ (a e).toInt < (n : Int)) : Fin E → Fin n :=
  fun e => ⟨(a (ix1 e)).toInt.toNat, by have := h (ix1 e); omega⟩

def vecFin (a : (⟨1, ![E]⟩ : Shape).Idx → EReal) : Fin E → EReal := fun e => a (ix1 e)

def Finite (a : Mat n d) : Prop := ∀ i, ∃ r : ℝ, a i = (r : EReal)

end GcnSpec

end
-- ==== Proof.LibScatterRows.lean ====
import Idealize.ShloMosaic.PureOps.Ideal
import Idealize.ShloMosaic.Lib.ValueIdx

noncomputable section

namespace Idealize.ShloMosaic.ScatterRows

open Idealize.ShloMosaic Idealize.ShloMosaic.ValueIdx

variable {R C N : Nat}

abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Idealize.ShloMosaic.ScatterRows

end
-- ==== Proof.LibScatterPoints.lean ====
import Idealize.ShloMosaic.PureOps.Ideal
import Idealize.ShloMosaic.PureOps.Contract
import Idealize.ShloMosaic.Lib.ValueIdx
import proofs.«407852_j22428319219864_3_alg».proof.Proof.LibScatterRows

noncomputable section

namespace Idealize.ShloMosaic.ScatterPoints

open Idealize.ShloMosaic Idealize.ShloMosaic.ValueIdx

variable {R C N : Nat}

abbrev dimsP (wf : ScatterDims.WF (⟨2, ![R, C]⟩ : Shape) ⟨2, ![N, 2]⟩ ⟨1, ![N]⟩ [] [0, 1] [0, 1] 1) :
    ScatterDims (⟨2, ![R, C]⟩ : Shape) ⟨2, ![N, 2]⟩ ⟨1, ![N]⟩ where
  updateWindowDims := []
  insertedWindowDims := [0, 1]
  scatterDimsToOperandDims := [0, 1]
  indexVectorDim := 1
  wf := wf

variable (wf : ScatterDims.WF (⟨2, ![R, C]⟩ : Shape) ⟨2, ![N, 2]⟩ ⟨1, ![N]⟩ [] [0, 1] [0, 1] 1)

theorem start0 {w : Nat} (n : Fin N) (idx : IVec ⟨2, ![N, 2]⟩ w) :
    (dimsP wf).start (ix1 n) idx 0 = (idx (ix2 n 0)).toInt := by
  unfold ScatterDims.start
  rw [dif_pos (show (0 : Fin 2) ∈ [(0 : Fin 2), (1 : Fin 2)] by decide)]
  refine congrArg (fun k => (idx k).toInt) (funext fun b => Fin.ext ?_)
  match b with
  | ⟨0, _⟩ => rfl
  | ⟨1, _⟩ => rfl

theorem start1 {w : Nat} (n : Fin N) (idx : IVec ⟨2, ![N, 2]⟩ w) :
    (dimsP wf).start (ix1 n) idx 1 = (idx (ix2 n 1)).toInt := by
  unfold ScatterDims.start
  rw [dif_pos (show (1 : Fin 2) ∈ [(0 : Fin 2), (1 : Fin 2)] by decide)]
  refine congrArg (fun k => (idx k).toInt) (funext fun b => Fin.ext ?_)
  match b with
  | ⟨0, _⟩ => rfl
  | ⟨1, _⟩ => rfl

theorem window_zero (n : Fin N) (a : Fin 2) : (dimsP wf).window (ix1 n) a = 0 := by
  have h : ¬ (a : Fin (⟨2, ![R, C]⟩ : Shape).rank) ∈ (dimsP wf).sKept := by
    show ¬ a ∈ (List.finRange 2).filter (· ∉ [(0 : Fin 2), (1 : Fin 2)])
    revert a; decide
  unfold ScatterDims.window
  exact dif_neg h

theorem resultIdx_iff {w : Nat} (n : Fin N) (idx : IVec ⟨2, ![N, 2]⟩ w) (r : Fin R) (c : Fin C) :
    (dimsP wf).resultIdx? (ix1 n) idx = some (ix2 r c)
      ↔ (idx (ix2 n 0)).toInt = (r.val : Int) ∧ (idx (ix2 n 1)).toInt = (c.val : Int) := by
  have hs0 := start0 wf n idx
  have hs1 := start1 wf n idx
  have hw0 := window_zero wf n 0
  have hw1 := window_zero wf n 1
  have hr := r.isLt
  have hc := c.isLt
  unfold ScatterDims.resultIdx?
  split
  · rename_i h
    rw [Option.some.injEq]
    constructor
    · intro e
      have e0 : ((dimsP wf).start (ix1 n) idx 0 + ((dimsP wf).window (ix1 n) 0 : Nat)).toNat = r.val :=
        congrArg (fun f : (⟨2, ![R, C]⟩ : Shape).Idx => (f 0).val) e
      have e1 : ((dimsP wf).start (ix1 n) idx 1 + ((dimsP wf).window (ix1 n) 1 : Nat)).toNat = c.val :=
        congrArg (fun f : (⟨2, ![R, C]⟩ : Shape).Idx => (f 1).val) e
      have h0 := (h 0).1
      have h1 := (h 1).1
      rw [hs0, hw0] at e0 h0
      rw [hs1, hw1] at e1 h1
      exact ⟨by omega, by omega⟩
    · rintro ⟨e0, e1⟩
      funext a
      apply Fin.ext
      match a with
      | ⟨0, _⟩ =>
        show ((dimsP wf).start (ix1 n) idx 0 + ((dimsP wf).window (ix1 n) 0 : Nat)).toNat = r.val
        rw [hs0, hw0, e0]; omega
      | ⟨1, _⟩ =>
        show ((dimsP wf).start (ix1 n) idx 1 + ((dimsP wf).window (ix1 n) 1 : Nat)).toNat = c.val
        rw [hs1, hw1, e1]; omega
  · rename_i h
    constructor
    · intro e; cases e
    · rintro ⟨e0, e1⟩
      refine absurd (fun a => ?_) h
      match a with
      | ⟨0, _⟩ =>
        show (0 : Int) ≤ (dimsP wf).start (ix1 n) idx 0 + ((dimsP wf).window (ix1 n) 0 : Nat)
          ∧ (dimsP wf).start (ix1 n) idx 0 + ((dimsP wf).window (ix1 n) 0 : Nat) < (R : Nat)
        rw [hs0, hw0, e0]; omega
      | ⟨1, _⟩ =>
        show (0 : Int) ≤ (dimsP wf).start (ix1 n) idx 1 + ((dimsP wf).window (ix1 n) 1 : Nat)
          ∧ (dimsP wf).start (ix1 n) idx 1 + ((dimsP wf).window (ix1 n) 1 : Nat) < (C : Nat)
        rw [hs1, hw1, e1]; omega

theorem scatterAdd_apply {w : Nat} (x : (⟨2, ![R, C]⟩ : Shape).Idx → EReal) (idx : IVec ⟨2, ![N, 2]⟩ w)
    (upd : (⟨1, ![N]⟩ : Shape).Idx → EReal) (r : Fin R) (c : Fin C) :
    Ideal.hostScatterAdd (dimsP wf) x idx upd (ix2 r c)
      = x (ix2 r c) + ∑ n : Fin N,
          if (idx (ix2 n 0)).toInt = (r.val : Int) ∧ (idx (ix2 n 1)).toInt = (c.val : Int) then upd (ix1 n) else 0 := by
  unfold Ideal.hostScatterAdd
  refine congrArg (x (ix2 r c) + ·) ?_
  rw [Finset.sum_filter, ScatterRows.sum_idx1]
  refine Finset.sum_congr rfl fun n _ => ?_
  simp only [resultIdx_iff wf]

theorem host_scatterAdd_apply {w : Nat} (x : (⟨2, ![R, C]⟩ : Shape).Idx → EReal) (idx : IVec ⟨2, ![N, 2]⟩ w)
    (upd : (⟨1, ![N]⟩ : Shape).Idx → EReal) (r : Fin R) (c : Fin C) :
    Host.scatterAdd (F := Ideal) (φ := .f32) (dimsP wf) x idx upd (ix2 r c)
      = x (ix2 r c) + ∑ n : Fin N,
          if (idx (ix2 n 0)).toInt = (r.val : Int) ∧ (idx (ix2 n 1)).toInt = (c.val : Int) then upd (ix1 n) else 0 :=
  scatterAdd_apply wf x idx upd r c

end Idealize.ShloMosaic.ScatterPoints

end
-- ==== Proof.KI.HostVals.lean ====
import proofs.«407852_j22428319219864_3_alg».proof.Proof.Gen.KernelIdeal.Regions
import proofs.«407852_j22428319219864_3_alg».proof.Proof.Spec
import proofs.«407852_j22428319219864_3_alg».proof.Proof.LibScatterPoints
import Idealize.ShloMosaic.Lib.StableHlo.Run
import Idealize.ShloMosaic.Lib.StableHlo.Predicate
import Idealize.ShloMosaic.Lib.Pipeline.Value
import Idealize.ShloMosaic.PureOps.Ideal.Laws
import Idealize.ShloMosaic.Lib.DynamicIndex

noncomputable section

namespace Cert.KernelIdeal.HostVals

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (outs : Outs (F := Ideal)) (c : Dev nD)

abbrev rowW : IVec S131072 32 := m ((c : Thread nD τ).loc main_arg1)
abbrev colW : IVec S131072 32 := m ((c : Thread nD τ).loc main_arg2)
abbrev valA : S131072.Idx → EReal := m ((c : Thread nD τ).loc main_arg3)

/-- The dense matrix whose entry (r, q) sums the weights of the edges with row r and column q. -/
def adjOf (hrow : ∀ e, 0 ≤ (rowW m c e).toInt ∧ (rowW m c e).toInt < 8192)
    (hcol : ∀ e, 0 ≤ (colW m c e).toInt ∧ (colW m c e).toInt < 8192) : GcnSpec.Mat 8192 8192 :=
  GcnSpec.adj (GcnSpec.idxFin 8192 (rowW m c) hrow) (GcnSpec.idxFin 8192 (colW m c) hcol) (GcnSpec.vecFin (valA m c))

section words

variable {N : Nat}

theorem col_apply {α : Type} (h : (⟨1, ![N]⟩ : Shape).BroadcastsInDim ⟨2, ![N, 1]⟩ ![0])
    (v : (⟨1, ![N]⟩ : Shape).Idx → α) (n : Fin N) :
    broadcastInDim ⟨2, ![N, 1]⟩ ![0] h v (ix2 n 0) = v (ix1 n) := by
  have e1 : (ix2 n (0 : Fin 1) : (⟨2, ![N, 1]⟩ : Shape).Idx) = StableHlo.Predicate.ixP n := by
    funext a; match a with | ⟨0, _⟩ => rfl | ⟨1, _⟩ => rfl
  have e2 : (ix1 n : (⟨1, ![N]⟩ : Shape).Idx) = Shape.Idx.ofFin n := by
    funext a; match a with | ⟨0, _⟩ => rfl
  rw [e1, e2]; exact StableHlo.Predicate.bcast_col1 h v n

theorem pair_apply0 {α : Type} (x₁ x₂ : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, x₁⟩, ⟨⟨2, ![N, 1]⟩, x₂⟩] h (ix2 n 0) = x₁ (ix2 n 0) :=
  concatenate_pair_apply_left 1 x₁ x₂ h (ix2 n 0) rfl (ix2 n 0)
    (fun b => by match b with | ⟨0, _⟩ => rfl | ⟨1, _⟩ => rfl)

theorem pair_apply1 {α : Type} (x₁ x₂ : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, x₁⟩, ⟨⟨2, ![N, 1]⟩, x₂⟩] h (ix2 n 1) = x₂ (ix2 n 0) :=
  concatenate_pair_apply_right 1 x₁ x₂ h (ix2 n 1) rfl rfl (ix2 n 0)
    (fun b hb => by match b with | ⟨0, _⟩ => rfl | ⟨1, _⟩ => exact absurd rfl hb) rfl

end words

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

def wrap (w : IVec S131072 32) : IVec S131072 32 :=
  select (cmpi .slt w (broadcastInDim S131072 ![] bcast_S_S131072 (constantI S_ 32 0#32)))
    (addi w (broadcastInDim S131072 ![] bcast_S_S131072 (constantI S_ 32 8192#32))) w

def W : Valuation τ sig (Elt Ideal) := StableHlo.after ((hostOps0 (F := Ideal)).take 18) (V0 m c)

theorem V1_eq : V1 m c = StableHlo.after ((hostOps0 (F := Ideal)).drop 18) (W m c) := by
  show StableHlo.after hostOps0 (V0 m c) = _
  rw [W, ← after_append, List.take_append_drop]

theorem W_v0 : (W m c main_v0 : S8192x8192.Idx → EReal)
    = broadcastInDim S8192x8192 ![] bcast_S_S8192x8192 (constant (F := Ideal) S_ .f32 0x00000000#32) := by
  unfold W
  simp only [hostOps0, List.take_succ_cons, List.take_zero]
  after_results_simp

theorem W_v11 : (W m c main_v11 : S131072x1.Idx → BitVec 32)
    = broadcastInDim S131072x1 ![0] bcast_S131072_S131072x1_0 (wrap (rowW m c)) := by
  unfold W
  simp only [hostOps0, List.take_succ_cons, List.take_zero]
  after_results_simp
  rfl

theorem W_v12 : (W m c main_v12 : S131072x1.Idx → BitVec 32)
    = broadcastInDim S131072x1 ![0] bcast_S131072_S131072x1_0 (wrap (colW m c)) := by
  unfold W
  simp only [hostOps0, List.take_succ_cons, List.take_zero]
  after_results_simp
  rfl

theorem W_arg3 : (W m c main_arg3 : S131072.Idx → EReal) = valA m c := by
  unfold W
  simp only [hostOps0, List.take_succ_cons, List.take_zero]
  after_results_simp

theorem V1_v15 (hrow : ∀ e, 0 ≤ (rowW m c e).toInt ∧ (rowW m c e).toInt < 8192)
    (hcol : ∀ e, 0 ≤ (colW m c e).toInt ∧ (colW m c e).toInt < 8192) :
    (V1 m c main_v15 : GcnSpec.Mat 8192 8192) = adjOf m c hrow hcol := by
  rw [V1_eq]
  simp only [hostOps0, List.drop_succ_cons, List.drop_zero]
  after_results
  rw [W_v0, W_v11, W_v12, W_arg3]
  funext i
  obtain ⟨r, q, rfl⟩ : ∃ r q, i = ix2 r q := ⟨i 0, i 1, eq_ix2 i⟩
  show Host.scatterAdd (F := Ideal) (φ := .f32) (ScatterPoints.dimsP scatter_S8192x8192_S131072x2_S131072_n_01_01_1_wf)
    _ _ _ (ix2 r q) = _
  rw [ScatterPoints.host_scatterAdd_apply]
  have hz : broadcastInDim S8192x8192 ![] bcast_S_S8192x8192 (constant (F := Ideal) S_ .f32 0x00000000#32) (ix2 r q)
      = (0 : EReal) := Ideal.ofBits_zero_f32
  rw [hz, zero_add]
  unfold adjOf GcnSpec.adj
  refine Finset.sum_congr rfl fun n _ => ?_
  have h1 := hrow (ix1 n)
  have h2 := hcol (ix1 n)
  rw [pair_apply0, pair_apply1, col_apply, col_apply,
    show wrap (rowW m c) (ix1 n) = _ from select_slt_zero_of_nonneg _ _ _ _ h1.1,
    show wrap (colW m c) (ix1 n) = _ from select_slt_zero_of_nonneg _ _ _ _ h2.1]
  refine if_congr (and_congr ?_ ?_) rfl rfl
  · show _ ↔ (rowW m c (ix1 n)).toInt.toNat = r.val
    omega
  · show _ ↔ (colW m c (ix1 n)).toInt.toNat = q.val
    omega

theorem V1_v16 : (V1 m c main_v16 : GcnSpec.Mat 8192 512) = m ((c : Thread nD τ).loc main_arg0) := by
  dsimp only [V1, hostOps0]
  after_results
  rfl
theorem V1_v17 : (V1 m c main_v17 : GcnSpec.Mat 512 256) = m ((c : Thread nD τ).loc main_arg4) := by
  dsimp only [V1, hostOps0]
  after_results
  rfl
theorem V3_v15 : V3 m outs c main_v15 = V1 m c main_v15 := by
  rw [V3_of, V2_of] <;> decide
theorem V3_v18 : V3 m outs c main_v18 = outs 2 main_v18 c :=
  (V3_of m outs c main_v18 (by decide)).trans (Function.update_self _ _ _)
theorem V3_v19 : (V3 m outs c main_v19 : GcnSpec.Mat 256 128) = m ((c : Thread nD τ).loc main_arg5) := by
  dsimp only [V3, hostOps1]
  after_results
  rw [V2_of, V1_of]
  · rfl
  all_goals decide
theorem V5_v15 : V5 m outs c main_v15 = V1 m c main_v15 := by
  rw [V5_of, V4_of, V3_v15] <;> decide
theorem V5_v20 : V5 m outs c main_v20 = outs 4 main_v20 c :=
  (V5_of m outs c main_v20 (by decide)).trans (Function.update_self _ _ _)
theorem V5_v21 : (V5 m outs c main_v21 : GcnSpec.Mat 128 64) = m ((c : Thread nD τ).loc main_arg6) := by
  dsimp only [V5, hostOps2]
  after_results
  rw [V4_of, V3_of, V2_of, V1_of]
  · rfl
  all_goals decide
theorem V7_v23 : (V7 m outs c main_v23 : GcnSpec.Mat 8192 64) = outs 6 main_v22 c := by
  have hs : V6 m outs c main_v22 = _ := Function.update_self _ _ _
  dsimp only [V7, hostOps3]
  after_results
  rw [hs]
  rfl
theorem V9_v15 : V9 m outs c main_v15 = V1 m c main_v15 := by
  rw [V9_of, V8_of, V7_of, V6_of, V5_v15] <;> decide
theorem V9_v25 : (V9 m outs c main_v25 : GcnSpec.Mat 8192 64) = outs 6 main_v22 c := by
  have hs : V8 m outs c main_v22 = _ := (V8_of m outs c main_v22 (by decide)).trans <| (V7_of m outs c main_v22 (by decide)).trans <| Function.update_self _ _ _
  dsimp only [V9, hostOps4]
  after_results
  rw [hs]
  rfl
theorem V9_v26 : (V9 m outs c main_v26 : GcnSpec.Mat 64 128) = m ((c : Thread nD τ).loc main_arg7) := by
  dsimp only [V9, hostOps4]
  after_results
  rw [V8_of, V7_of, V6_of, V5_of, V4_of, V3_of, V2_of, V1_of]
  · rfl
  all_goals decide
theorem V11_v15 : V11 m outs c main_v15 = V1 m c main_v15 := by
  rw [V11_of, V10_of, V9_v15] <;> decide
theorem V11_v27 : V11 m outs c main_v27 = outs 10 main_v27 c :=
  (V11_of m outs c main_v27 (by decide)).trans (Function.update_self _ _ _)
theorem V11_v28 : (V11 m outs c main_v28 : GcnSpec.Mat 128 256) = m ((c : Thread nD τ).loc main_arg8) := by
  dsimp only [V11, hostOps5]
  after_results
  rw [V10_of, V9_of, V8_of, V7_of, V6_of, V5_of, V4_of, V3_of, V2_of, V1_of]
  · rfl
  all_goals decide
theorem V13_v15 : V13 m outs c main_v15 = V1 m c main_v15 := by
  rw [V13_of, V12_of, V11_v15] <;> decide
theorem V13_v29 : V13 m outs c main_v29 = outs 12 main_v29 c :=
  (V13_of m outs c main_v29 (by decide)).trans (Function.update_self _ _ _)
theorem V13_v30 : (V13 m outs c main_v30 : GcnSpec.Mat 256 512) = m ((c : Thread nD τ).loc main_arg9) := by
  dsimp only [V13, hostOps6]
  after_results
  rw [V12_of, V11_of, V10_of, V9_of, V8_of, V7_of, V6_of, V5_of, V4_of, V3_of, V2_of, V1_of]
  · rfl
  all_goals decide
theorem V15_v32 : (V15 m outs c main_v32 : GcnSpec.Mat 8192 512) = outs 14 main_v31 c := by
  have hs : V14 m outs c main_v31 = _ := Function.update_self _ _ _
  dsimp only [V15, hostOps7]
  after_results
  rw [hs]
  rfl
theorem V16_v22 : V16 m outs c main_v22 = outs 6 main_v22 c := by
  rw [V16_of, V15_of, V14_of, V13_of, V12_of, V11_of, V10_of, V9_of, V8_of, V7_of]
  · exact Function.update_self _ _ _
  all_goals decide
theorem V16_v24 : V16 m outs c main_v24 = outs 8 main_v24 c := by
  rw [V16_of, V15_of, V14_of, V13_of, V12_of, V11_of, V10_of, V9_of]
  · exact Function.update_self _ _ _
  all_goals decide
theorem V16_v31 : V16 m outs c main_v31 = outs 14 main_v31 c := by
  rw [V16_of, V15_of]
  · exact Function.update_self _ _ _
  all_goals decide
theorem V16_v33 : V16 m outs c main_v33 = outs 16 main_v33 c :=
  Function.update_self _ _ _

end Cert.KernelIdeal.HostVals

end
-- ==== Proof.LibPlainMatmul.lean ====
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibAggMath.lean ====
import proofs.«407852_j22428319219864_3_alg».proof.Proof.Spec
import proofs.«407852_j22428319219864_3_alg».proof.Proof.LibPlainMatmul
import Mathlib.Algebra.BigOperators.Fin

noncomputable section

namespace Cert.Lib

open Idealize.ShloMosaic Idealize.ShloMosaic.ValueIdx
open GcnSpec (Mat support kerLayer)

/-- Consecutive positions grouped into T tiles of B: addition is commutative and associative, nothing else is used. -/
theorem sum_tiles {β : Type*} [AddCommMonoid β] (T B : ℕ) (g : ℕ → β) :
    ∑ c : Fin (T * B), g c.val = ∑ s ∈ Finset.range T, ∑ c' : Fin B, g (B * s + c'.val) := by
  rw [← Equiv.sum_comp finProdFinEquiv, Fintype.sum_prod_type, Finset.sum_range]
  refine Finset.sum_congr rfl fun s _ => Finset.sum_congr rfl fun c' _ => ?_
  congr 1
  show c'.val + B * s.val = _
  omega

/-- A matrix entry at natural-number coordinates, so that tile arithmetic needs no bound proofs; zero outside. -/
def ent {n d : ℕ} (m : Mat n d) (r q : ℕ) : EReal :=
  if h : r < n ∧ q < d then m (ix2 ⟨r, h.1⟩ ⟨q, h.2⟩) else 0

theorem eq_ent {n d : ℕ} (m : Mat n d) (i : (⟨2, ![n, d]⟩ : Shape).Idx) (r q : ℕ)
    (hr : (i 0).val = r) (hq : (i 1).val = q) : m i = ent m r q := by
  subst hr hq
  unfold ent
  rw [dif_pos ⟨idx2_lt0 i, idx2_lt1 i⟩]
  exact congrArg m (eq_ix2 i)

/-- By induction on n: a restart begins a new run of terms, any other step extends the run by one. -/
theorem runSum_apply {ι β : Type*} [AddCommMonoid β] (N : ℕ) (z : ι → β) (hz : ∀ j, z j = 0) (term : ℕ → ι → β)
    (step : ℕ → (ι → β) → ι → β)
    (hstep : ∀ n, n < N → ∀ v j, step n v j = (if n % 8 = 0 then z else v) j + term n j)
    (r : ℕ → ι → β) (h0 : r 0 = step 0 z) (hs : ∀ n, r (n + 1) = step (n + 1) (r n)) (n : ℕ) (hn : n < N) (j : ι) :
    r n j = ∑ s ∈ Finset.range (n % 8 + 1), term (8 * (n / 8) + s) j := by
  induction n with
  | zero =>
    rw [h0, hstep 0 hn, if_pos (Nat.zero_mod 8), hz, zero_add]
    show _ = ∑ s ∈ Finset.range 1, term (8 * (0 / 8) + s) j
    rw [Finset.sum_range_one]
  | succ n ih =>
    rw [hs, hstep _ hn]
    by_cases h : (n + 1) % 8 = 0
    · have e : 8 * ((n + 1) / 8) + 0 = n + 1 := by omega
      rw [if_pos h, hz, zero_add, h, Finset.sum_range_one, e]
    · have e1 : (n + 1) % 8 = n % 8 + 1 := by omega
      have e2 : (n + 1) / 8 = n / 8 := by omega
      have e3 : 8 * (n / 8) + (n % 8 + 1) = n + 1 := by omega
      rw [if_neg h, ih (Nat.lt_of_succ_lt hn), e1, e2, Finset.sum_range_succ _ (n % 8 + 1), e3]

variable (act : EReal → EReal) {K D : ℕ}

/-- One point adds the layer of its three blocks (the adjacency block is square) to the running sum. -/
theorem layer_step_apply {B : ℕ} (f : FVec Ideal ⟨2, ![B, D]⟩ .f32 → FVec Ideal ⟨2, ![B, D]⟩ .f32) (hf : ∀ v i, f v i = act (v i))
    (ab : FVec Ideal ⟨2, ![B, B]⟩ .bf16) (xb : FVec Ideal ⟨2, ![B, K]⟩ .bf16) (wb : FVec Ideal ⟨2, ![K, D]⟩ .bf16)
    (acc : FVec Ideal ⟨2, ![B, D]⟩ .f32) (j : (⟨2, ![B, D]⟩ : Shape).Idx) :
    addf acc (FloatOps.matmul (F := Ideal) (DotDims.plain B B D) none ab
        (truncf .bf16 (f (FloatOps.matmul (F := Ideal) (DotDims.plain B K D) none xb wb (constant _ .f32 0x00000000#32))))
        (constant _ .f32 0x00000000#32)) j
      = acc j + kerLayer act ab xb wb j := by
  rw [addf_apply, matmul_plain_zero_apply]
  refine congrArg (acc j + ·) (Finset.sum_congr rfl fun c' _ => ?_)
  rw [truncf_apply, hf, matmul_plain_zero_apply]
  rfl

/-- What the point numbered p (row tile p / 8, reduction tile p % 8) adds to entry j of its row tile's running sum. -/
def term (a : Mat 8192 8192) (x : Mat 8192 K) (w : Mat K D) (p : ℕ) (j : (⟨2, ![1024, D]⟩ : Shape).Idx) : EReal :=
  ∑ c' : Fin 1024, ent a (1024 * (p / 8) + (j 0).val) (1024 * (p % 8) + c'.val)
    * act (∑ l : Fin K, ent x (1024 * (p % 8) + c'.val) l.val * w (ix2 l (j 1)))

/-- A layer entry with its 8192 columns grouped into the 8 reduction tiles: the 8 points' terms of the row's tile. -/
theorem kerLayer_tiles (a : Mat 8192 8192) (x : Mat 8192 K) (w : Mat K D)
    (i : (⟨2, ![8192, D]⟩ : Shape).Idx) (j : (⟨2, ![1024, D]⟩ : Shape).Idx) (R : ℕ)
    (h0 : (i 0).val = 1024 * R + (j 0).val) (h1 : (i 1).val = (j 1).val) :
    kerLayer act a x w i = ∑ s ∈ Finset.range 8, term act a x w (8 * R + s) j := by
  show ∑ c : Fin (8 * 1024), a (ix2 (i 0) c) * support act x w (ix2 c (i 1)) = _
  refine (Finset.sum_congr rfl fun c _ => ?_).trans ((sum_tiles 8 1024 fun c =>
    ent a (i 0).val c * act (∑ l : Fin K, ent x c l.val * w (ix2 l (i 1)))).trans (Finset.sum_congr rfl fun s hs => ?_))
  · show a (ix2 (i 0) c) * act (∑ l : Fin K, x (ix2 c l) * w (ix2 l (i 1))) = _
    rw [eq_ent a (ix2 (i 0) c) (i 0).val c.val rfl rfl]
    congr 2
    exact Finset.sum_congr rfl fun l _ => by rw [eq_ent x (ix2 c l) c.val l.val rfl rfl]
  · have hs8 := Finset.mem_range.mp hs
    unfold term
    rw [show (8 * R + s) / 8 = R by omega, show (8 * R + s) % 8 = s by omega, h0, show j 1 = i 1 from Fin.ext h1.symm]

/-- The running sum at a row tile's last point is the tile's eight terms (runSum_apply), which make the layer's entry (kerLayer_tiles). -/
theorem agg_tiles {N : ℕ} (a : Mat 8192 8192) (x : Mat 8192 K) (w : Mat K D)
    (A : Fin N → Mat 1024 1024) (X : Fin N → Mat 1024 K) (W : Fin N → Mat K D)
    (hA : ∀ t y, A t y = ent a (1024 * (t.val / 8) + (y 0).val) (1024 * (t.val % 8) + (y 1).val))
    (hX : ∀ t y, X t y = ent x (1024 * (t.val % 8) + (y 0).val) (y 1).val)
    (hW : ∀ t y, W t y = w y)
    (step : ℕ → Mat 1024 D → Mat 1024 D) (z : Mat 1024 D) (r : ℕ → Mat 1024 D) (hz : ∀ j, z j = 0)
    (hstep : ∀ n (h : n < N) v j, step n v j = (if n % 8 = 0 then z else v) j + kerLayer act (A ⟨n, h⟩) (X ⟨n, h⟩) (W ⟨n, h⟩) j)
    (h0 : r 0 = step 0 z) (hs : ∀ n, r (n + 1) = step (n + 1) (r n))
    (t : Fin N) (h7 : t.val % 8 = 7) (y : (⟨2, ![1024, D]⟩ : Shape).Idx) (i : (⟨2, ![8192, D]⟩ : Shape).Idx)
    (hi0 : (i 0).val = 1024 * (t.val / 8) + (y 0).val) (hi1 : (i 1).val = (y 1).val) :
    r t.val y = kerLayer act a x w i := by
  have hterm : ∀ n, n < N → ∀ v j, step n v j = (if n % 8 = 0 then z else v) j + term act a x w n j := by
    intro n h v j
    rw [hstep n h]
    refine congrArg (_ + ·) ?_
    unfold term
    show ∑ c' : Fin 1024, A ⟨n, h⟩ (ix2 (j 0) c') * act (∑ l : Fin K, X ⟨n, h⟩ (ix2 c' l) * W ⟨n, h⟩ (ix2 l (j 1))) = _
    refine Finset.sum_congr rfl fun c' _ => ?_
    rw [hA]
    congr 2
    refine Finset.sum_congr rfl fun l _ => ?_
    rw [hX, hW]
    rfl
  rw [runSum_apply N z hz _ step hterm r h0 hs t.val t.isLt y, h7]
  exact (kerLayer_tiles act a x w i y (t.val / 8) hi0 hi1).symm

end Cert.Lib

end
-- ==== Proof.KI.AggVal0.lean ====
import proofs.«407852_j22428319219864_3_alg».proof.Proof.KI.Agg0
import proofs.«407852_j22428319219864_3_alg».proof.Proof.LibAggMath

noncomputable section

namespace Cert.KernelIdeal.AggVal0

open Cert.KernelIdeal Cert.KernelIdeal.Gen Cert.KernelIdeal.Agg0 Cert.Lib
open GcnSpec (Mat kerLayer)
open Idealize.ShloMosaic Idealize.ShloMosaic.TcCoe Idealize.ShloMosaic.ValueIdx

theorem zero_apply (j : S1024x256.Idx) : k0_pay1 (F := Ideal) j = 0 := by
  unfold k0_pay1
  simp only [shapeCast_self]
  exact Ideal.ofBits_zero_f32

/-- Closed forms of the four blocks' indices at a point, for the coordinate arithmetic below. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

variable (V : (c : Dev nD) → (b : Ref sig .tc) → Buf (Elt Ideal) ((c : Thread nD τ).loc b))

abbrev blkA (c : Dev nD) (t : Fin cfg0.N) : Vec Ideal S1024x1024 .bf16 := iblk0 V c 0 t
abbrev blkX (c : Dev nD) (t : Fin cfg0.N) : Vec Ideal S1024x512 .bf16 := iblk0 V c 1 t
abbrev blkW (c : Dev nD) (t : Fin cfg0.N) : Vec Ideal S512x256 .bf16 := iblk0 V c 2 t

theorem iblkA_ent (c : Dev nD) (t : Fin cfg0.N) (y : S1024x1024.Idx) :
    blkA V c t y = ent (V c main_v15 : Mat 8192 8192) (1024 * (t.val / 8) + (y 0).val) (1024 * (t.val % 8) + (y 1).val) := by
  obtain ⟨e0, e1, -⟩ := idx_facts t
  refine eq_ent (V c main_v15) (((cfg0.win 0).blk t).view.emb y) _ _ ?_ ?_
  · show win0_0.index t (0 : Fin 2) * 1024 + 1 * (y 0).val = _; omega
  · show win0_0.index t (1 : Fin 2) * 1024 + 1 * (y 1).val = _; omega

theorem iblkX_ent (c : Dev nD) (t : Fin cfg0.N) (y : S1024x512.Idx) :
    blkX V c t y = ent (V c main_v16 : Mat 8192 512) (1024 * (t.val % 8) + (y 0).val) (y 1).val := by
  obtain ⟨-, -, e2, e3, -⟩ := idx_facts t
  refine eq_ent (V c main_v16) (((cfg0.win 1).blk t).view.emb y) _ _ ?_ ?_
  · show win0_1.index t (0 : Fin 2) * 1024 + 1 * (y 0).val = _; omega
  · show win0_1.index t (1 : Fin 2) * 512 + 1 * (y 1).val = _; omega

theorem iblkW_eq (c : Dev nD) (t : Fin cfg0.N) (y : S512x256.Idx) : blkW V c t y = (V c main_v17 : Mat 512 256) y := by
  obtain ⟨-, -, -, -, e4, e5, -⟩ := idx_facts t
  refine congrArg (V c main_v17) (funext fun a => Fin.ext ?_)
  match a with
  | ⟨0, _⟩ => show win0_2.index t (0 : Fin 2) * 512 + 1 * (y 0).val = (y 0).val; omega
  | ⟨1, _⟩ => show win0_2.index t (1 : Fin 2) * 256 + 1 * (y 1).val = (y 1).val; omega

theorem step_apply (c : Dev nD) (n : ℕ) (h : n < cfg0.N) (v : Vec Ideal S1024x256 .f32) (j : S1024x256.Idx) :
    step0 V c n v j = (if n % 8 = 0 then k0_pay1 (F := Ideal) else v) j
      + kerLayer Ideal.tanh (blkA V c ⟨n, h⟩) (blkX V c ⟨n, h⟩) (blkW V c ⟨n, h⟩) j := by
  unfold step0 k0_pay2
  rw [dif_pos h]
  simp only [shapeCast_self]
  exact layer_step_apply Ideal.tanh (tanh (F := Ideal)) (fun _ _ => rfl) _ _ _ _ j

/-- Row r of the output lies in the block of point 8 (r / 1024) + 7. -/
theorem cover (i : S8192x256.Idx) : ∃ t : Fin cfg0.N, (cfg0.win 3).flush t = true ∧ i ∈ ((cfg0.win 3).blk t).view.set := by
  have hi0 : (i 0).val < 8192 := idx2_lt0 i
  have hi1 : (i 1).val < 256 := idx2_lt1 i
  have hN : cfg0.N = 64 := N_0
  obtain ⟨t, htv⟩ : ∃ t : Fin cfg0.N, t.val = 8 * ((i 0).val / 1024) + 7 := ⟨⟨8 * ((i 0).val / 1024) + 7, by rw [hN]; omega⟩, rfl⟩
  obtain ⟨-, -, -, -, -, -, e6, e7⟩ := idx_facts t
  refine ⟨t, (flush0_3 t).mpr (by omega), ?_⟩
  show i ∈ ((View.whole main_v18).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- Every output entry lies in the block of its row tile's last point, where the running sum is that tile's block of the layer. -/
theorem final0 (c : Dev nD) :
    (dat0 (F := Ideal) V c).arrAt 3 cfg0.N = kerLayer Ideal.tanh (V c main_v15) (V c main_v16) (V c main_v17) := by
  refine (dat0 (F := Ideal) V c).arrAt_eq_of_cover 3 _ (fun t hf => ?_) cover
  obtain ⟨-, -, -, -, -, -, e6, e7⟩ := idx_facts t
  funext y
  refine agg_tiles Ideal.tanh (V c main_v15) (V c main_v16) (V c main_v17) (blkA V c) (blkX V c) (blkW V c)
    (iblkA_ent V c) (iblkX_ent V c) (iblkW_eq V c) (step0 V c) (k0_pay1 (F := Ideal)) (acc0 V c) zero_apply (step_apply V c) rfl (fun _ => rfl) t ((flush0_3 t).mp hf) y _ ?_ ?_
  · show win0_3.index t (0 : Fin 2) * 1024 + 1 * (y 0).val = _; omega
  · show win0_3.index t (1 : Fin 2) * 256 + 1 * (y 1).val = _; omega

end Cert.KernelIdeal.AggVal0

end
-- ==== Proof.KI.AggVal1.lean ====
import proofs.«407852_j22428319219864_3_alg».proof.Proof.KI.Agg1
import proofs.«407852_j22428319219864_3_alg».proof.Proof.LibAggMath

noncomputable section

namespace Cert.KernelIdeal.AggVal1

open Cert.KernelIdeal Cert.KernelIdeal.Gen Cert.KernelIdeal.Agg1 Cert.Lib
open GcnSpec (Mat kerLayer)
open Idealize.ShloMosaic Idealize.ShloMosaic.TcCoe Idealize.ShloMosaic.ValueIdx

theorem zero_apply (j : S1024x128.Idx) : k1_pay1 (F := Ideal) j = 0 := by
  unfold k1_pay1
  simp only [shapeCast_self]
  exact Ideal.ofBits_zero_f32

/-- Closed forms of the four blocks' indices at a point, for the coordinate arithmetic below. -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

variable (V : (c : Dev nD) → (b : Ref sig .tc) → Buf (Elt Ideal) ((c : Thread nD τ).loc b))

abbrev blkA (c : Dev nD) (t : Fin cfg1.N) : Vec Ideal S1024x1024 .bf16 := iblk1 V c 0 t
abbrev blkX (c : Dev nD) (t : Fin cfg1.N) : Vec Ideal S1024x256 .bf16 := iblk1 V c 1 t
abbrev blkW (c : Dev nD) (t : Fin cfg1.N) : Vec Ideal S256x128 .bf16 := iblk1 V c 2 t

theorem iblkA_ent (c : Dev nD) (t : Fin cfg1.N) (y : S1024x1024.Idx) :
    blkA V c t y = ent (V c main_v15 : Mat 8192 8192) (1024 * (t.val / 8) + (y 0).val) (1024 * (t.val % 8) + (y 1).val) := by
  obtain ⟨e0, e1, -⟩ := idx_facts t
  refine eq_ent (V c main_v15) (((cfg1.win 0).blk t).view.emb y) _ _ ?_ ?_
  · show win1_0.index t (0 : Fin 2) * 1024 + 1 * (y 0).val = _; omega
  · show win1_0.index t (1 : Fin 2) * 1024 + 1 * (y 1).val = _; omega

theorem iblkX_ent (c : Dev nD) (t : Fin cfg1.N) (y : S1024x256.Idx) :
    blkX V c t y = ent (V c main_v18 : Mat 8192 256) (1024 * (t.val % 8) + (y 0).val) (y 1).val := by
  obtain ⟨-, -, e2, e3, -⟩ := idx_facts t
  refine eq_ent (V c main_v18) (((cfg1.win 1).blk t).view.emb y) _ _ ?_ ?_
  · show win1_1.index t (0 : Fin 2) * 1024 + 1 * (y 0).val = _; omega
  · show win1_1.index t (1 : Fin 2) * 256 + 1 * (y 1).val = _; omega

theorem iblkW_eq (c : Dev nD) (t : Fin cfg1.N) (y : S256x128.Idx) : blkW V c t y = (V c main_v19 : Mat 256 128) y := by
  obtain ⟨-, -, -, -, e4, e5, -⟩ := idx_facts t
  refine congrArg (V c main_v19) (funext fun a => Fin.ext ?_)
  match a with
  | ⟨0, _⟩ => show win1_2.index t (0 : Fin 2) * 256 + 1 * (y 0).val = (y 0).val; omega
  | ⟨1, _⟩ => show win1_2.index t (1 : Fin 2) * 128 + 1 * (y 1).val = (y 1).val; omega

theorem step_apply (c : Dev nD) (n : ℕ) (h : n < cfg1.N) (v : Vec Ideal S1024x128 .f32) (j : S1024x128.Idx) :
    step1 V c n v j = (if n % 8 = 0 then k1_pay1 (F := Ideal) else v) j
      + kerLayer Ideal.tanh (blkA V c ⟨n, h⟩) (blkX V c ⟨n, h⟩) (blkW V c ⟨n, h⟩) j := by
  unfold step1 k1_pay2
  rw [dif_pos h]
  simp only [shapeCast_self]
  exact layer_step_apply Ideal.tanh (tanh (F := Ideal)) (fun _ _ => rfl) _ _ _ _ j

/-- Row r of the output lies in the block of point 8 (r / 1024) + 7. -/
theorem cover (i : S8192x128.Idx) : ∃ t : Fin cfg1.N, (cfg1.win 3).flush t = true ∧ i ∈ ((cfg1.win 3).blk t).view.set := by
  have hi0 : (i 0).val < 8192 := idx2_lt0 i
  have hi1 : (i 1).val < 128 := idx2_lt1 i
  have hN : cfg1.N = 64 := N_1
  obtain ⟨t, htv⟩ : ∃ t : Fin cfg1.N, t.val = 8 * ((i 0).val / 1024) + 7 := ⟨⟨8 * ((i 0).val / 1024) + 7, by rw [hN]; omega⟩, rfl⟩
  obtain ⟨-, -, -, -, -, -, e6, e7⟩ := idx_facts t
  refine ⟨t, (flush1_3 t).mpr (by omega), ?_⟩
  show i ∈ ((View.whole main_v20).slice (win1_3.rect t)).set
  rw [View.set_slice_whole, Rect.mem_set_unit]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 128 ≤ (i 1).val ∧ (i 1).val < win1_3.index t (1 : Fin 2) * 128 + 128; omega

/-- Every output entry lies in the block of its row tile's last point, where the running sum is that tile's block of the layer. -/
theorem final1 (c : Dev nD) :
    (dat1 (F := Ideal) V c).arrAt 3 cfg1.N = kerLayer Ideal.tanh (V c main_v15) (V c main_v18) (V c main_v19) := by
  refine (dat1 (F := Ideal) V c).arrAt_eq_of_cover 3 _ (fun t hf => ?_) cover
  obtain ⟨-, -, -, -, -, -, e6, e7⟩ := idx_facts t
  funext y
  refine agg_tiles Ideal.tanh (V c main_v15) (V c main_v18) (V c main_v19) (blkA V c) (blkX V c) (blkW V c)
    (iblkA_ent V c) (iblkX_ent V c) (iblkW_eq V c) (step1 V c) (k1_pay1 (F := Ideal)) (acc1 V c) zero_apply (step_apply V c) rfl (fun _ => rfl) t ((flush1_3 t).mp hf) y _ ?_ ?_
  · show win1_3.index t (0 : Fin 2) * 1024 + 1 * (y 0).val = _; omega
  · show win1_3.index t (1 : Fin 2) * 128 + 1 * (y 1).val = _; omega

end Cert.KernelIdeal.AggVal1

end
-- ==== Proof.KI.AggVal2.lean ====
import proofs.«407852_j22428319219864_3_alg».proof.Proof.KI.Agg2
import proofs.«407852_j22428319219864_3_alg».proof.Proof.LibAggMath

noncomputable section

namespace Cert.KernelIdeal.AggVal2

open Cert.KernelIdeal Cert.KernelIdeal.Gen Cert.KernelIdeal.Agg2 Cert.Lib
open GcnSpec (Mat kerLayer)
open Idealize.ShloMosaic Idealize.ShloMosaic.TcCoe Idealize.ShloMosaic.ValueIdx

theorem zero_apply (j : S1024x64.Idx) : k2_pay1 (F := Ideal) j = 0 := by
  unfold k2_pay1
  simp only [shapeCast_self]
  exact Ideal.ofBits_zero_f32

/-- Closed forms of the four blocks' indices at a point, for the coordinate arithmetic below. -/
theorem idx_facts : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = t.val / 8 ∧ win2_3.index t (1 : Fin 2) = 0 :=
  (by decide +kernel : ∀ t : Fin grid2.N, _)

variable (V : (c : Dev nD) → (b : Ref sig .tc) → Buf (Elt Ideal) ((c : Thread nD τ).loc b))

abbrev blkA (c : Dev nD) (t : Fin cfg2.N) : Vec Ideal S1024x1024 .bf16 := iblk2 V c 0 t
abbrev blkX (c : Dev nD) (t : Fin cfg2.N) : Vec Ideal S1024x128 .bf16 := iblk2 V c 1 t
abbrev blkW (c : Dev nD) (t : Fin cfg2.N) : Vec Ideal S128x64 .bf16 := iblk2 V c 2 t

theorem iblkA_ent (c : Dev nD) (t : Fin cfg2.N) (y : S1024x1024.Idx) :
    blkA V c t y = ent (V c main_v15 : Mat 8192 8192) (1024 * (t.val / 8) + (y 0).val) (1024 * (t.val % 8) + (y 1).val) := by
  obtain ⟨e0, e1, -⟩ := idx_facts t
  refine eq_ent (V c main_v15) (((cfg2.win 0).blk t).view.emb y) _ _ ?_ ?_
  · show win2_0.index t (0 : Fin 2) * 1024 + 1 * (y 0).val = _; omega
  · show win2_0.index t (1 : Fin 2) * 1024 + 1 * (y 1).val = _; omega

theorem iblkX_ent (c : Dev nD) (t : Fin cfg2.N) (y : S1024x128.Idx) :
    blkX V c t y = ent (V c main_v20 : Mat 8192 128) (1024 * (t.val % 8) + (y 0).val) (y 1).val := by
  obtain ⟨-, -, e2, e3, -⟩ := idx_facts t
  refine eq_ent (V c main_v20) (((cfg2.win 1).blk t).view.emb y) _ _ ?_ ?_
  · show win2_1.index t (0 : Fin 2) * 1024 + 1 * (y 0).val = _; omega
  · show win2_1.index t (1 : Fin 2) * 128 + 1 * (y 1).val = _; omega

theorem iblkW_eq (c : Dev nD) (t : Fin cfg2.N) (y : S128x64.Idx) : blkW V c t y = (V c main_v21 : Mat 128 64) y := by
  obtain ⟨-, -, -, -, e4, e5, -⟩ := idx_facts t
  refine congrArg (V c main_v21) (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

theorem step_apply (c : Dev nD) (n : ℕ) (h : n < cfg2.N) (v : Vec Ideal S1024x64 .f32) (j : S1024x64.Idx) :
    step2 V c n v j = (if n % 8 = 0 then k2_pay1 (F := Ideal) else v) j
      + kerLayer id (blkA V c ⟨n, h⟩) (blkX V c ⟨n, h⟩) (blkW V c ⟨n, h⟩) j := by
  unfold step2 k2_pay2
  rw [dif_pos h]
  simp only [shapeCast_self]
  exact layer_step_apply id id (fun _ _ => rfl) _ _ _ _ j

/-- Row r of the output lies in the block of point 8 (r / 1024) + 7. -/
theorem cover (i : S8192x64.Idx) : ∃ t : Fin cfg2.N, (cfg2.win 3).flush t = true ∧ i ∈ ((cfg2.win 3).blk t).view.set := by
  have hi0 : (i 0).val < 8192 := idx2_lt0 i
  have hi1 : (i 1).val < 64 := idx2_lt1 i
  have hN : cfg2.N = 64 := N_2
  obtain ⟨t, htv⟩ : ∃ t : Fin cfg2.N, t.val = 8 * ((i 0).val / 1024) + 7 := ⟨⟨8 * ((i 0).val / 1024) + 7, by rw [hN]; omega⟩, rfl⟩
  obtain ⟨-, -, -, -, -, -, e6, e7⟩ := idx_facts t
  refine ⟨t, (flush2_3 t).mpr (by omega), ?_⟩
  show i ∈ ((View.whole main_v22).slice (win2_3.rect t)).set
  rw [View.set_slice_whole, Rect.mem_set_unit]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 64 ≤ (i 1).val ∧ (i 1).val < win2_3.index t (1 : Fin 2) * 64 + 64; omega

/-- Every output entry lies in the block of its row tile's last point, where the running sum is that tile's block of the layer. -/
theorem final2 (c : Dev nD) :
    (dat2 (F := Ideal) V c).arrAt 3 cfg2.N = kerLayer id (V c main_v15) (V c main_v20) (V c main_v21) := by
  refine (dat2 (F := Ideal) V c).arrAt_eq_of_cover 3 _ (fun t hf => ?_) cover
  obtain ⟨-, -, -, -, -, -, e6, e7⟩ := idx_facts t
  funext y
  refine agg_tiles id (V c main_v15) (V c main_v20) (V c main_v21) (blkA V c) (blkX V c) (blkW V c)
    (iblkA_ent V c) (iblkX_ent V c) (iblkW_eq V c) (step2 V c) (k2_pay1 (F := Ideal)) (acc2 V c) zero_apply (step_apply V c) rfl (fun _ => rfl) t ((flush2_3 t).mp hf) y _ ?_ ?_
  · show win2_3.index t (0 : Fin 2) * 1024 + 1 * (y 0).val = _; omega
  · show win2_3.index t (1 : Fin 2) * 64 + 1 * (y 1).val = _; omega

end Cert.KernelIdeal.AggVal2

end
-- ==== Proof.KI.AggVal4.lean ====
import proofs.«407852_j22428319219864_3_alg».proof.Proof.KI.Agg4
import proofs.«407852_j22428319219864_3_alg».proof.Proof.LibAggMath

noncomputable section

namespace Cert.KernelIdeal.AggVal4

open Cert.KernelIdeal Cert.KernelIdeal.Gen Cert.KernelIdeal.Agg4 Cert.Lib
open GcnSpec (Mat kerLayer)
open Idealize.ShloMosaic Idealize.ShloMosaic.TcCoe Idealize.ShloMosaic.ValueIdx

theorem zero_apply (j : S1024x128.Idx) : k4_pay1 (F := Ideal) j = 0 := by
  unfold k4_pay1
  simp only [shapeCast_self]
  exact Ideal.ofBits_zero_f32

/-- Closed forms of the four blocks' indices at a point, for the coordinate arithmetic below. -/
theorem idx_facts : ∀ t : Fin cfg4.N,
    win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = 0 ∧ win4_2.index t (1 : Fin 2) = 0
    ∧ win4_3.index t (0 : Fin 2) = t.val / 8 ∧ win4_3.index t (1 : Fin 2) = 0 :=
  (by decide +kernel : ∀ t : Fin grid4.N, _)

variable (V : (c : Dev nD) → (b : Ref sig .tc) → Buf (Elt Ideal) ((c : Thread nD τ).loc b))

abbrev blkA (c : Dev nD) (t : Fin cfg4.N) : Vec Ideal S1024x1024 .bf16 := iblk4 V c 0 t
abbrev blkX (c : Dev nD) (t : Fin cfg4.N) : Vec Ideal S1024x64 .bf16 := iblk4 V c 1 t
abbrev blkW (c : Dev nD) (t : Fin cfg4.N) : Vec Ideal S64x128 .bf16 := iblk4 V c 2 t

theorem iblkA_ent (c : Dev nD) (t : Fin cfg4.N) (y : S1024x1024.Idx) :
    blkA V c t y = ent (V c main_v15 : Mat 8192 8192) (1024 * (t.val / 8) + (y 0).val) (1024 * (t.val % 8) + (y 1).val) := by
  obtain ⟨e0, e1, -⟩ := idx_facts t
  refine eq_ent (V c main_v15) (((cfg4.win 0).blk t).view.emb y) _ _ ?_ ?_
  · show win4_0.index t (0 : Fin 2) * 1024 + 1 * (y 0).val = _; omega
  · show win4_0.index t (1 : Fin 2) * 1024 + 1 * (y 1).val = _; omega

theorem iblkX_ent (c : Dev nD) (t : Fin cfg4.N) (y : S1024x64.Idx) :
    blkX V c t y = ent (V c main_v25 : Mat 8192 64) (1024 * (t.val % 8) + (y 0).val) (y 1).val := by
  obtain ⟨-, -, e2, e3, -⟩ := idx_facts t
  refine eq_ent (V c main_v25) (((cfg4.win 1).blk t).view.emb y) _ _ ?_ ?_
  · show win4_1.index t (0 : Fin 2) * 1024 + 1 * (y 0).val = _; omega
  · show win4_1.index t (1 : Fin 2) * 64 + 1 * (y 1).val = _; omega

theorem iblkW_eq (c : Dev nD) (t : Fin cfg4.N) (y : S64x128.Idx) : blkW V c t y = (V c main_v26 : Mat 64 128) y := by
  obtain ⟨-, -, -, -, e4, e5, -⟩ := idx_facts t
  refine congrArg (V c main_v26) (funext fun a => Fin.ext ?_)
  match a with
  | ⟨0, _⟩ => show win4_2.index t (0 : Fin 2) * 64 + 1 * (y 0).val = (y 0).val; omega
  | ⟨1, _⟩ => show win4_2.index t (1 : Fin 2) * 128 + 1 * (y 1).val = (y 1).val; omega

theorem step_apply (c : Dev nD) (n : ℕ) (h : n < cfg4.N) (v : Vec Ideal S1024x128 .f32) (j : S1024x128.Idx) :
    step4 V c n v j = (if n % 8 = 0 then k4_pay1 (F := Ideal) else v) j
      + kerLayer Ideal.tanh (blkA V c ⟨n, h⟩) (blkX V c ⟨n, h⟩) (blkW V c ⟨n, h⟩) j := by
  unfold step4 k4_pay2
  rw [dif_pos h]
  simp only [shapeCast_self]
  exact layer_step_apply Ideal.tanh (tanh (F := Ideal)) (fun _ _ => rfl) _ _ _ _ j

/-- Row r of the output lies in the block of point 8 (r / 1024) + 7. -/
theorem cover (i : S8192x128.Idx) : ∃ t : Fin cfg4.N, (cfg4.win 3).flush t = true ∧ i ∈ ((cfg4.win 3).blk t).view.set := by
  have hi0 : (i 0).val < 8192 := idx2_lt0 i
  have hi1 : (i 1).val < 128 := idx2_lt1 i
  have hN : cfg4.N = 64 := N_4
  obtain ⟨t, htv⟩ : ∃ t : Fin cfg4.N, t.val = 8 * ((i 0).val / 1024) + 7 := ⟨⟨8 * ((i 0).val / 1024) + 7, by rw [hN]; omega⟩, rfl⟩
  obtain ⟨-, -, -, -, -, -, e6, e7⟩ := idx_facts t
  refine ⟨t, (flush4_3 t).mpr (by omega), ?_⟩
  show i ∈ ((View.whole main_v27).slice (win4_3.rect t)).set
  rw [View.set_slice_whole, Rect.mem_set_unit]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 128 ≤ (i 1).val ∧ (i 1).val < win4_3.index t (1 : Fin 2) * 128 + 128; omega

/-- Every output entry lies in the block of its row tile's last point, where the running sum is that tile's block of the layer. -/
theorem final4 (c : Dev nD) :
    (dat4 (F := Ideal) V c).arrAt 3 cfg4.N = kerLayer Ideal.tanh (V c main_v15) (V c main_v25) (V c main_v26) := by
  refine (dat4 (F := Ideal) V c).arrAt_eq_of_cover 3 _ (fun t hf => ?_) cover
  obtain ⟨-, -, -, -, -, -, e6, e7⟩ := idx_facts t
  funext y
  refine agg_tiles Ideal.tanh (V c main_v15) (V c main_v25) (V c main_v26) (blkA V c) (blkX V c) (blkW V c)
    (iblkA_ent V c) (iblkX_ent V c) (iblkW_eq V c) (step4 V c) (k4_pay1 (F := Ideal)) (acc4 V c) zero_apply (step_apply V c) rfl (fun _ => rfl) t ((flush4_3 t).mp hf) y _ ?_ ?_
  · show win4_3.index t (0 : Fin 2) * 1024 + 1 * (y 0).val = _; omega
  · show win4_3.index t (1 : Fin 2) * 128 + 1 * (y 1).val = _; omega

end Cert.KernelIdeal.AggVal4

end
-- ==== Proof.KI.AggVal5.lean ====
import proofs.«407852_j22428319219864_3_alg».proof.Proof.KI.Agg5
import proofs.«407852_j22428319219864_3_alg».proof.Proof.LibAggMath

noncomputable section

namespace Cert.KernelIdeal.AggVal5

open Cert.KernelIdeal Cert.KernelIdeal.Gen Cert.KernelIdeal.Agg5 Cert.Lib
open GcnSpec (Mat kerLayer)
open Idealize.ShloMosaic Idealize.ShloMosaic.TcCoe Idealize.ShloMosaic.ValueIdx

theorem zero_apply (j : S1024x256.Idx) : k5_pay1 (F := Ideal) j = 0 := by
  unfold k5_pay1
  simp only [shapeCast_self]
  exact Ideal.ofBits_zero_f32

/-- Closed forms of the four blocks' indices at a point, for the coordinate arithmetic below. -/
theorem idx_facts : ∀ t : Fin cfg5.N,
    win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = 0 ∧ win5_2.index t (1 : Fin 2) = 0
    ∧ win5_3.index t (0 : Fin 2) = t.val / 8 ∧ win5_3.index t (1 : Fin 2) = 0 :=
  (by decide +kernel : ∀ t : Fin grid5.N, _)

variable (V : (c : Dev nD) → (b : Ref sig .tc) → Buf (Elt Ideal) ((c : Thread nD τ).loc b))

abbrev blkA (c : Dev nD) (t : Fin cfg5.N) : Vec Ideal S1024x1024 .bf16 := iblk5 V c 0 t
abbrev blkX (c : Dev nD) (t : Fin cfg5.N) : Vec Ideal S1024x128 .bf16 := iblk5 V c 1 t
abbrev blkW (c : Dev nD) (t : Fin cfg5.N) : Vec Ideal S128x256 .bf16 := iblk5 V c 2 t

theorem iblkA_ent (c : Dev nD) (t : Fin cfg5.N) (y : S1024x1024.Idx) :
    blkA V c t y = ent (V c main_v15 : Mat 8192 8192) (1024 * (t.val / 8) + (y 0).val) (1024 * (t.val % 8) + (y 1).val) := by
  obtain ⟨e0, e1, -⟩ := idx_facts t
  refine eq_ent (V c main_v15) (((cfg5.win 0).blk t).view.emb y) _ _ ?_ ?_
  · show win5_0.index t (0 : Fin 2) * 1024 + 1 * (y 0).val = _; omega
  · show win5_0.index t (1 : Fin 2) * 1024 + 1 * (y 1).val = _; omega

theorem iblkX_ent (c : Dev nD) (t : Fin cfg5.N) (y : S1024x128.Idx) :
    blkX V c t y = ent (V c main_v27 : Mat 8192 128) (1024 * (t.val % 8) + (y 0).val) (y 1).val := by
  obtain ⟨-, -, e2, e3, -⟩ := idx_facts t
  refine eq_ent (V c main_v27) (((cfg5.win 1).blk t).view.emb y) _ _ ?_ ?_
  · show win5_1.index t (0 : Fin 2) * 1024 + 1 * (y 0).val = _; omega
  · show win5_1.index t (1 : Fin 2) * 128 + 1 * (y 1).val = _; omega

theorem iblkW_eq (c : Dev nD) (t : Fin cfg5.N) (y : S128x256.Idx) : blkW V c t y = (V c main_v28 : Mat 128 256) y := by
  obtain ⟨-, -, -, -, e4, e5, -⟩ := idx_facts t
  refine congrArg (V c main_v28) (funext fun a => Fin.ext ?_)
  match a with
  | ⟨0, _⟩ => show win5_2.index t (0 : Fin 2) * 128 + 1 * (y 0).val = (y 0).val; omega
  | ⟨1, _⟩ => show win5_2.index t (1 : Fin 2) * 256 + 1 * (y 1).val = (y 1).val; omega

theorem step_apply (c : Dev nD) (n : ℕ) (h : n < cfg5.N) (v : Vec Ideal S1024x256 .f32) (j : S1024x256.Idx) :
    step5 V c n v j = (if n % 8 = 0 then k5_pay1 (F := Ideal) else v) j
      + kerLayer Ideal.tanh (blkA V c ⟨n, h⟩) (blkX V c ⟨n, h⟩) (blkW V c ⟨n, h⟩) j := by
  unfold step5 k5_pay2
  rw [dif_pos h]
  simp only [shapeCast_self]
  exact layer_step_apply Ideal.tanh (tanh (F := Ideal)) (fun _ _ => rfl) _ _ _ _ j

/-- Row r of the output lies in the block of point 8 (r / 1024) + 7. -/
theorem cover (i : S8192x256.Idx) : ∃ t : Fin cfg5.N, (cfg5.win 3).flush t = true ∧ i ∈ ((cfg5.win 3).blk t).view.set := by
  have hi0 : (i 0).val < 8192 := idx2_lt0 i
  have hi1 : (i 1).val < 256 := idx2_lt1 i
  have hN : cfg5.N = 64 := N_5
  obtain ⟨t, htv⟩ : ∃ t : Fin cfg5.N, t.val = 8 * ((i 0).val / 1024) + 7 := ⟨⟨8 * ((i 0).val / 1024) + 7, by rw [hN]; omega⟩, rfl⟩
  obtain ⟨-, -, -, -, -, -, e6, e7⟩ := idx_facts t
  refine ⟨t, (flush5_3 t).mpr (by omega), ?_⟩
  show i ∈ ((View.whole main_v29).slice (win5_3.rect t)).set
  rw [View.set_slice_whole, Rect.mem_set_unit]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 256 ≤ (i 1).val ∧ (i 1).val < win5_3.index t (1 : Fin 2) * 256 + 256; omega

/-- Every output entry lies in the block of its row tile's last point, where the running sum is that tile's block of the layer. -/
theorem final5 (c : Dev nD) :
    (dat5 (F := Ideal) V c).arrAt 3 cfg5.N = kerLayer Ideal.tanh (V c main_v15) (V c main_v27) (V c main_v28) := by
  refine (dat5 (F := Ideal) V c).arrAt_eq_of_cover 3 _ (fun t hf => ?_) cover
  obtain ⟨-, -, -, -, -, -, e6, e7⟩ := idx_facts t
  funext y
  refine agg_tiles Ideal.tanh (V c main_v15) (V c main_v27) (V c main_v28) (blkA V c) (blkX V c) (blkW V c)
    (iblkA_ent V c) (iblkX_ent V c) (iblkW_eq V c) (step5 V c) (k5_pay1 (F := Ideal)) (acc5 V c) zero_apply (step_apply V c) rfl (fun _ => rfl) t ((flush5_3 t).mp hf) y _ ?_ ?_
  · show win5_3.index t (0 : Fin 2) * 1024 + 1 * (y 0).val = _; omega
  · show win5_3.index t (1 : Fin 2) * 256 + 1 * (y 1).val = _; omega

end Cert.KernelIdeal.AggVal5

end
-- ==== Proof.KI.AggVal6.lean ====
import proofs.«407852_j22428319219864_3_alg».proof.Proof.KI.Agg6
import proofs.«407852_j22428319219864_3_alg».proof.Proof.LibAggMath

noncomputable section

namespace Cert.KernelIdeal.AggVal6

open Cert.KernelIdeal Cert.KernelIdeal.Gen Cert.KernelIdeal.Agg6 Cert.Lib
open GcnSpec (Mat kerLayer)
open Idealize.ShloMosaic Idealize.ShloMosaic.TcCoe Idealize.ShloMosaic.ValueIdx

theorem zero_apply (j : S1024x512.Idx) : k6_pay1 (F := Ideal) j = 0 := by
  unfold k6_pay1
  simp only [shapeCast_self]
  exact Ideal.ofBits_zero_f32

/-- Closed forms of the four blocks' indices at a point, for the coordinate arithmetic below. -/
theorem idx_facts : ∀ t : Fin cfg6.N,
    win6_0.index t (0 : Fin 2) = t.val / 8 ∧ win6_0.index t (1 : Fin 2) = t.val % 8
    ∧ win6_1.index t (0 : Fin 2) = t.val % 8 ∧ win6_1.index t (1 : Fin 2) = 0
    ∧ win6_2.index t (0 : Fin 2) = 0 ∧ win6_2.index t (1 : Fin 2) = 0
    ∧ win6_3.index t (0 : Fin 2) = t.val / 8 ∧ win6_3.index t (1 : Fin 2) = 0 :=
  (by decide +kernel : ∀ t : Fin grid6.N, _)

variable (V : (c : Dev nD) → (b : Ref sig .tc) → Buf (Elt Ideal) ((c : Thread nD τ).loc b))

abbrev blkA (c : Dev nD) (t : Fin cfg6.N) : Vec Ideal S1024x1024 .bf16 := iblk6 V c 0 t
abbrev blkX (c : Dev nD) (t : Fin cfg6.N) : Vec Ideal S1024x256 .bf16 := iblk6 V c 1 t
abbrev blkW (c : Dev nD) (t : Fin cfg6.N) : Vec Ideal S256x512 .bf16 := iblk6 V c 2 t

theorem iblkA_ent (c : Dev nD) (t : Fin cfg6.N) (y : S1024x1024.Idx) :
    blkA V c t y = ent (V c main_v15 : Mat 8192 8192) (1024 * (t.val / 8) + (y 0).val) (1024 * (t.val % 8) + (y 1).val) := by
  obtain ⟨e0, e1, -⟩ := idx_facts t
  refine eq_ent (V c main_v15) (((cfg6.win 0).blk t).view.emb y) _ _ ?_ ?_
  · show win6_0.index t (0 : Fin 2) * 1024 + 1 * (y 0).val = _; omega
  · show win6_0.index t (1 : Fin 2) * 1024 + 1 * (y 1).val = _; omega

theorem iblkX_ent (c : Dev nD) (t : Fin cfg6.N) (y : S1024x256.Idx) :
    blkX V c t y = ent (V c main_v29 : Mat 8192 256) (1024 * (t.val % 8) + (y 0).val) (y 1).val := by
  obtain ⟨-, -, e2, e3, -⟩ := idx_facts t
  refine eq_ent (V c main_v29) (((cfg6.win 1).blk t).view.emb y) _ _ ?_ ?_
  · show win6_1.index t (0 : Fin 2) * 1024 + 1 * (y 0).val = _; omega
  · show win6_1.index t (1 : Fin 2) * 256 + 1 * (y 1).val = _; omega

theorem iblkW_eq (c : Dev nD) (t : Fin cfg6.N) (y : S256x512.Idx) : blkW V c t y = (V c main_v30 : Mat 256 512) y := by
  obtain ⟨-, -, -, -, e4, e5, -⟩ := idx_facts t
  refine congrArg (V c main_v30) (funext fun a => Fin.ext ?_)
  match a with
  | ⟨0, _⟩ => show win6_2.index t (0 : Fin 2) * 256 + 1 * (y 0).val = (y 0).val; omega
  | ⟨1, _⟩ => show win6_2.index t (1 : Fin 2) * 512 + 1 * (y 1).val = (y 1).val; omega

theorem step_apply (c : Dev nD) (n : ℕ) (h : n < cfg6.N) (v : Vec Ideal S1024x512 .f32) (j : S1024x512.Idx) :
    step6 V c n v j = (if n % 8 = 0 then k6_pay1 (F := Ideal) else v) j
      + kerLayer Ideal.tanh (blkA V c ⟨n, h⟩) (blkX V c ⟨n, h⟩) (blkW V c ⟨n, h⟩) j := by
  unfold step6 k6_pay2
  rw [dif_pos h]
  simp only [shapeCast_self]
  exact layer_step_apply Ideal.tanh (tanh (F := Ideal)) (fun _ _ => rfl) _ _ _ _ j

/-- Row r of the output lies in the block of point 8 (r / 1024) + 7. -/
theorem cover (i : S8192x512.Idx) : ∃ t : Fin cfg6.N, (cfg6.win 3).flush t = true ∧ i ∈ ((cfg6.win 3).blk t).view.set := by
  have hi0 : (i 0).val < 8192 := idx2_lt0 i
  have hi1 : (i 1).val < 512 := idx2_lt1 i
  have hN : cfg6.N = 64 := N_6
  obtain ⟨t, htv⟩ : ∃ t : Fin cfg6.N, t.val = 8 * ((i 0).val / 1024) + 7 := ⟨⟨8 * ((i 0).val / 1024) + 7, by rw [hN]; omega⟩, rfl⟩
  obtain ⟨-, -, -, -, -, -, e6, e7⟩ := idx_facts t
  refine ⟨t, (flush6_3 t).mpr (by omega), ?_⟩
  show i ∈ ((View.whole main_v31).slice (win6_3.rect t)).set
  rw [View.set_slice_whole, Rect.mem_set_unit]
  intro a
  match a with
  | ⟨0, _⟩ => show win6_3.index t (0 : Fin 2) * 1024 ≤ (i 0).val ∧ (i 0).val < win6_3.index t (0 : Fin 2) * 1024 + 1024; omega
  | ⟨1, _⟩ => show win6_3.index t (1 : Fin 2) * 512 ≤ (i 1).val ∧ (i 1).val < win6_3.index t (1 : Fin 2) * 512 + 512; omega

/-- Every output entry lies in the block of its row tile's last point, where the running sum is that tile's block of the layer. -/
theorem final6 (c : Dev nD) :
    (dat6 (F := Ideal) V c).arrAt 3 cfg6.N = kerLayer Ideal.tanh (V c main_v15) (V c main_v29) (V c main_v30) := by
  refine (dat6 (F := Ideal) V c).arrAt_eq_of_cover 3 _ (fun t hf => ?_) cover
  obtain ⟨-, -, -, -, -, -, e6, e7⟩ := idx_facts t
  funext y
  refine agg_tiles Ideal.tanh (V c main_v15) (V c main_v29) (V c main_v30) (blkA V c) (blkX V c) (blkW V c)
    (iblkA_ent V c) (iblkX_ent V c) (iblkW_eq V c) (step6 V c) (k6_pay1 (F := Ideal)) (acc6 V c) zero_apply (step_apply V c) rfl (fun _ => rfl) t ((flush6_3 t).mp hf) y _ ?_ ?_
  · show win6_3.index t (0 : Fin 2) * 1024 + 1 * (y 0).val = _; omega
  · show win6_3.index t (1 : Fin 2) * 512 + 1 * (y 1).val = _; omega

end Cert.KernelIdeal.AggVal6

end
-- ==== Proof.KI.ZztVal3.lean ====
import proofs.«407852_j22428319219864_3_alg».proof.Proof.KI.Zzt3
import proofs.«407852_j22428319219864_3_alg».proof.Proof.Spec
import Idealize.ShloMosaic.PureOps.Ideal.Laws
import Idealize.ShloMosaic.Lib.ValueIdx
import Idealize.ShloMosaic.Lib.Pipeline.Value

noncomputable section

namespace Cert.KernelIdeal.ZztVal3

open Cert.KernelIdeal Cert.KernelIdeal.Gen Cert.KernelIdeal.Zzt3
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem lhs_gram_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_gram_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_gram_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_gram_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

theorem pay_apply (x0 : Vec Ideal S512x64 .bf16) (x1 : Vec Ideal S2048x64 .bf16) (j : S512x2048.Idx) :
    k3_pay1 (F := Ideal) x0 x1 j = Ideal.logistic (∑ k : Fin 64, x0 (ix2 (j 0) k) * x1 (ix2 (j 1) k)) := by
  unfold k3_pay1
  show Ideal.logistic (FloatOps.matmul (F := Ideal) dot_S512x64_S2048x64_S512x2048_1_1_0_0_n_n none
      (shapeCast S512x64 x0 shapeCasts_S512x64_S512x64) (shapeCast S2048x64 x1 shapeCasts_S2048x64_S2048x64)
      (constant (F := Ideal) S512x2048 .f32 0x00000000#32) j) = _
  rw [shapeCast_self, shapeCast_self]
  rw [Ideal.matmul_constant_zero_apply, ← Equiv.sum_comp (contrEquiv1 dot_S512x64_S2048x64_S512x2048_1_1_0_0_n_n 64 rfl rfl).symm]
  refine congrArg Ideal.logistic (Finset.sum_congr rfl fun k _ => ?_)
  have hk := contrEquiv1_symm_val dot_S512x64_S2048x64_S512x2048_1_1_0_0_n_n 64 rfl rfl k
  have el : dot_S512x64_S2048x64_S512x2048_1_1_0_0_n_n.lhsIdx j ((contrEquiv1 dot_S512x64_S2048x64_S512x2048_1_1_0_0_n_n 64 rfl rfl).symm k) = ix2 (j 0) k := funext fun a => Fin.ext (by
    match a with
    | ⟨0, _⟩ => exact lhs_gram_0 _ _
    | ⟨1, _⟩ => exact (lhs_gram_1 _ _).trans hk)
  have er : dot_S512x64_S2048x64_S512x2048_1_1_0_0_n_n.rhsIdx j ((contrEquiv1 dot_S512x64_S2048x64_S512x2048_1_1_0_0_n_n 64 rfl rfl).symm k) = ix2 (j 1) k := funext fun a => Fin.ext (by
    match a with
    | ⟨0, _⟩ => exact rhs_gram_0 _ _
    | ⟨1, _⟩ => exact (rhs_gram_1 _ _).trans hk)
  rw [el, er]
  rfl

abbrev sigGram (z : GcnSpec.Mat 8192 64) : S8192x8192.Idx → EReal := fun i => Ideal.logistic (GcnSpec.gram z i)

theorem zeros2 : (![0, 0] : Fin 2 → Nat) = fun _ => 0 := funext fun a => by fin_cases a <;> rfl

theorem block_indices : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 15
    ∧ win3_2.index t (1 : Fin 2) ≤ 3 :=
  (by decide +kernel : ∀ t : Fin grid3.N, _)

theorem block_onto : ∀ (a : Fin 16) (b : Fin 4), ∃ t : Fin cfg3.N, win3_2.index t = ![a.val, b.val] :=
  (by decide +kernel : ∀ (a : Fin 16) (b : Fin 4), ∃ t : Fin grid3.N, win3_2.index t = ![a.val, b.val])

theorem flushed_eq (c : Dev nD) (t : Fin cfg3.N) :
    (dat3 (F := Ideal) V c).flushed 2 t = ((cfg3.win 2).blk t).view.read (Elt Ideal) (sigGram (V c main_v23)) := by
  show (cfg3.win 2).cut (grid3.coords t) ((dat3 (F := Ideal) V c).after 2 t) = _
  rw [after3_2]
  unfold out3_2
  rw [View.canon_unit_zero zeros2]
  simp only [View.ld_unit_zero (S := S512x64) zeros2, View.ld_unit_zero (S := S2048x64) zeros2]
  obtain ⟨e0, e1, e2, e3, e4, e5⟩ := block_indices t
  funext j
  show k3_pay1 (F := Ideal) (iblk3 V c 0 t) (iblk3 V c 1 t) (win3_2.xinj (grid3.coords t) j)
    = Ideal.logistic (GcnSpec.gram (V c main_v23) (((cfg3.win 2).blk t).view.emb j))
  rw [pay_apply]
  unfold GcnSpec.gram
  refine congrArg Ideal.logistic (Finset.sum_congr rfl fun k _ => ?_)
  have hj0 : (j 0).val < 512 := (j 0).isLt
  have hj1 : (j 1).val < 2048 := (j 1).isLt
  refine congrArg₂ (fun x y : EReal => x * y) ?_ ?_
  ·
    show V c main_v23 (((cfg3.win 0).blk t).view.emb (ix2 ((win3_2.xinj (grid3.coords t) j) 0) k))
      = V c main_v23 (ix2 ((((cfg3.win 2).blk t).view.emb j) 0) k)
    refine congrArg (V c main_v23) (funext fun a => Fin.ext ?_)
    match a with
    | ⟨0, _⟩ => show win3_0.index t (0 : Fin 2) * 512 + 1 * (j 0).val = win3_2.index t (0 : Fin 2) * 512 + 1 * (j 0).val; omega
    | ⟨1, _⟩ => show win3_0.index t (1 : Fin 2) * 64 + 1 * k.val = k.val; omega
  ·
    show V c main_v23 (((cfg3.win 1).blk t).view.emb (ix2 ((win3_2.xinj (grid3.coords t) j) 1) k))
      = V c main_v23 (ix2 ((((cfg3.win 2).blk t).view.emb j) 1) k)
    refine congrArg (V c main_v23) (funext fun a => Fin.ext ?_)
    match a with
    | ⟨0, _⟩ => show win3_1.index t (0 : Fin 2) * 2048 + 1 * (j 1).val = win3_2.index t (1 : Fin 2) * 2048 + 1 * (j 1).val; omega
    | ⟨1, _⟩ => show win3_1.index t (1 : Fin 2) * 64 + 1 * k.val = k.val; omega

theorem mem_blk (t : Fin cfg3.N) (i : S8192x8192.Idx) :
    i ∈ ((cfg3.win 2).blk t).view.set ↔ ∀ a : Fin 2, win3_2.index t a * S512x2048.size a ≤ (i a).val ∧ (i a).val < win3_2.index t a * S512x2048.size a + S512x2048.size a := by
  show i ∈ ((View.whole main_v24).slice (win3_2.rect t)).set ↔ _
  rw [View.set_slice_whole, Rect.mem_set_unit]
  exact Iff.rfl

theorem covered (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  obtain ⟨t, ht⟩ := block_onto ⟨(i 0).val / 512, by omega⟩ ⟨(i 1).val / 2048, by omega⟩
  have q0 : win3_2.index t (0 : Fin 2) = (i 0).val / 512 := congrFun ht 0
  have q1 : win3_2.index t (1 : Fin 2) = (i 1).val / 2048 := congrFun ht 1
  refine ⟨t, flush3_2 t, ?_⟩
  rw [mem_blk]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 2048 ≤ (i 1).val ∧ (i 1).val < win3_2.index t (1 : Fin 2) * 2048 + 2048; omega

theorem final3 (c : Dev nD) :
    (dat3 (F := Ideal) V c).arrAt 2 cfg3.N = fun i => Ideal.logistic (GcnSpec.gram (V c main_v23) i) :=
  (dat3 (F := Ideal) V c).arrAt_eq_of_cover 2 (sigGram (V c main_v23)) (fun t _ => flushed_eq V c t) covered

end Cert.KernelIdeal.ZztVal3

end
-- ==== Proof.KI.ZztVal7.lean ====
import proofs.«407852_j22428319219864_3_alg».proof.Proof.KI.Zzt7
import proofs.«407852_j22428319219864_3_alg».proof.Proof.Spec
import Idealize.ShloMosaic.PureOps.Ideal.Laws
import Idealize.ShloMosaic.Lib.ValueIdx
import Idealize.ShloMosaic.Lib.Pipeline.Value

noncomputable section

namespace Cert.KernelIdeal.ZztVal7

open Cert.KernelIdeal Cert.KernelIdeal.Gen Cert.KernelIdeal.Zzt7
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem lhs_gram_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_gram_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_gram_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_gram_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

theorem pay_apply (x0 : Vec Ideal S512x512 .bf16) (x1 : Vec Ideal S2048x512 .bf16) (j : S512x2048.Idx) :
    k7_pay1 (F := Ideal) x0 x1 j = Ideal.logistic (∑ k : Fin 512, x0 (ix2 (j 0) k) * x1 (ix2 (j 1) k)) := by
  unfold k7_pay1
  show Ideal.logistic (FloatOps.matmul (F := Ideal) dot_S512x512_S2048x512_S512x2048_1_1_0_0_n_n none
      (shapeCast S512x512 x0 shapeCasts_S512x512_S512x512) (shapeCast S2048x512 x1 shapeCasts_S2048x512_S2048x512)
      (constant (F := Ideal) S512x2048 .f32 0x00000000#32) j) = _
  rw [shapeCast_self, shapeCast_self]
  rw [Ideal.matmul_constant_zero_apply, ← Equiv.sum_comp (contrEquiv1 dot_S512x512_S2048x512_S512x2048_1_1_0_0_n_n 512 rfl rfl).symm]
  refine congrArg Ideal.logistic (Finset.sum_congr rfl fun k _ => ?_)
  have hk := contrEquiv1_symm_val dot_S512x512_S2048x512_S512x2048_1_1_0_0_n_n 512 rfl rfl k
  have el : dot_S512x512_S2048x512_S512x2048_1_1_0_0_n_n.lhsIdx j ((contrEquiv1 dot_S512x512_S2048x512_S512x2048_1_1_0_0_n_n 512 rfl rfl).symm k) = ix2 (j 0) k := funext fun a => Fin.ext (by
    match a with
    | ⟨0, _⟩ => exact lhs_gram_0 _ _
    | ⟨1, _⟩ => exact (lhs_gram_1 _ _).trans hk)
  have er : dot_S512x512_S2048x512_S512x2048_1_1_0_0_n_n.rhsIdx j ((contrEquiv1 dot_S512x512_S2048x512_S512x2048_1_1_0_0_n_n 512 rfl rfl).symm k) = ix2 (j 1) k := funext fun a => Fin.ext (by
    match a with
    | ⟨0, _⟩ => exact rhs_gram_0 _ _
    | ⟨1, _⟩ => exact (rhs_gram_1 _ _).trans hk)
  rw [el, er]
  rfl

abbrev sigGram (z : GcnSpec.Mat 8192 512) : S8192x8192.Idx → EReal := fun i => Ideal.logistic (GcnSpec.gram z i)

theorem zeros2 : (![0, 0] : Fin 2 → Nat) = fun _ => 0 := funext fun a => by fin_cases a <;> rfl

theorem block_indices : ∀ t : Fin cfg7.N, win7_0.index t (0 : Fin 2) = win7_2.index t (0 : Fin 2)
    ∧ win7_0.index t (1 : Fin 2) = 0
    ∧ win7_1.index t (0 : Fin 2) = win7_2.index t (1 : Fin 2)
    ∧ win7_1.index t (1 : Fin 2) = 0
    ∧ win7_2.index t (0 : Fin 2) ≤ 15
    ∧ win7_2.index t (1 : Fin 2) ≤ 3 :=
  (by decide +kernel : ∀ t : Fin grid7.N, _)

theorem block_onto : ∀ (a : Fin 16) (b : Fin 4), ∃ t : Fin cfg7.N, win7_2.index t = ![a.val, b.val] :=
  (by decide +kernel : ∀ (a : Fin 16) (b : Fin 4), ∃ t : Fin grid7.N, win7_2.index t = ![a.val, b.val])

theorem flushed_eq (c : Dev nD) (t : Fin cfg7.N) :
    (dat7 (F := Ideal) V c).flushed 2 t = ((cfg7.win 2).blk t).view.read (Elt Ideal) (sigGram (V c main_v32)) := by
  show (cfg7.win 2).cut (grid7.coords t) ((dat7 (F := Ideal) V c).after 2 t) = _
  rw [after7_2]
  unfold out7_2
  rw [View.canon_unit_zero zeros2]
  simp only [View.ld_unit_zero (S := S512x512) zeros2, View.ld_unit_zero (S := S2048x512) zeros2]
  obtain ⟨e0, e1, e2, e3, e4, e5⟩ := block_indices t
  funext j
  show k7_pay1 (F := Ideal) (iblk7 V c 0 t) (iblk7 V c 1 t) (win7_2.xinj (grid7.coords t) j)
    = Ideal.logistic (GcnSpec.gram (V c main_v32) (((cfg7.win 2).blk t).view.emb j))
  rw [pay_apply]
  unfold GcnSpec.gram
  refine congrArg Ideal.logistic (Finset.sum_congr rfl fun k _ => ?_)
  have hj0 : (j 0).val < 512 := (j 0).isLt
  have hj1 : (j 1).val < 2048 := (j 1).isLt
  refine congrArg₂ (fun x y : EReal => x * y) ?_ ?_
  ·
    show V c main_v32 (((cfg7.win 0).blk t).view.emb (ix2 ((win7_2.xinj (grid7.coords t) j) 0) k))
      = V c main_v32 (ix2 ((((cfg7.win 2).blk t).view.emb j) 0) k)
    refine congrArg (V c main_v32) (funext fun a => Fin.ext ?_)
    match a with
    | ⟨0, _⟩ => show win7_0.index t (0 : Fin 2) * 512 + 1 * (j 0).val = win7_2.index t (0 : Fin 2) * 512 + 1 * (j 0).val; omega
    | ⟨1, _⟩ => show win7_0.index t (1 : Fin 2) * 512 + 1 * k.val = k.val; omega
  ·
    show V c main_v32 (((cfg7.win 1).blk t).view.emb (ix2 ((win7_2.xinj (grid7.coords t) j) 1) k))
      = V c main_v32 (ix2 ((((cfg7.win 2).blk t).view.emb j) 1) k)
    refine congrArg (V c main_v32) (funext fun a => Fin.ext ?_)
    match a with
    | ⟨0, _⟩ => show win7_1.index t (0 : Fin 2) * 2048 + 1 * (j 1).val = win7_2.index t (1 : Fin 2) * 2048 + 1 * (j 1).val; omega
    | ⟨1, _⟩ => show win7_1.index t (1 : Fin 2) * 512 + 1 * k.val = k.val; omega

theorem mem_blk (t : Fin cfg7.N) (i : S8192x8192.Idx) :
    i ∈ ((cfg7.win 2).blk t).view.set ↔ ∀ a : Fin 2, win7_2.index t a * S512x2048.size a ≤ (i a).val ∧ (i a).val < win7_2.index t a * S512x2048.size a + S512x2048.size a := by
  show i ∈ ((View.whole main_v33).slice (win7_2.rect t)).set ↔ _
  rw [View.set_slice_whole, Rect.mem_set_unit]
  exact Iff.rfl

theorem covered (i : S8192x8192.Idx) :
    ∃ t : Fin cfg7.N, (cfg7.win 2).flush t = true ∧ i ∈ ((cfg7.win 2).blk t).view.set := by
  have hi0 : (i 0).val < 8192 := (i 0).isLt
  have hi1 : (i 1).val < 8192 := (i 1).isLt
  obtain ⟨t, ht⟩ := block_onto ⟨(i 0).val / 512, by omega⟩ ⟨(i 1).val / 2048, by omega⟩
  have q0 : win7_2.index t (0 : Fin 2) = (i 0).val / 512 := congrFun ht 0
  have q1 : win7_2.index t (1 : Fin 2) = (i 1).val / 2048 := congrFun ht 1
  refine ⟨t, flush7_2 t, ?_⟩
  rw [mem_blk]
  intro a
  match a with
  | ⟨0, _⟩ => show win7_2.index t (0 : Fin 2) * 512 ≤ (i 0).val ∧ (i 0).val < win7_2.index t (0 : Fin 2) * 512 + 512; omega
  | ⟨1, _⟩ => show win7_2.index t (1 : Fin 2) * 2048 ≤ (i 1).val ∧ (i 1).val < win7_2.index t (1 : Fin 2) * 2048 + 2048; omega

theorem final7 (c : Dev nD) :
    (dat7 (F := Ideal) V c).arrAt 2 cfg7.N = fun i => Ideal.logistic (GcnSpec.gram (V c main_v32) i) :=
  (dat7 (F := Ideal) V c).arrAt_eq_of_cover 2 (sigGram (V c main_v32)) (fun t _ => flushed_eq V c t) covered

end Cert.KernelIdeal.ZztVal7

end
-- ==== Proof.KI.KerVal.lean ====
import proofs.«407852_j22428319219864_3_alg».proof.Proof.KI.Run
import proofs.«407852_j22428319219864_3_alg».proof.Proof.KI.HostVals
import proofs.«407852_j22428319219864_3_alg».proof.Proof.KI.AggVal0
import proofs.«407852_j22428319219864_3_alg».proof.Proof.KI.AggVal1
import proofs.«407852_j22428319219864_3_alg».proof.Proof.KI.AggVal2
import proofs.«407852_j22428319219864_3_alg».proof.Proof.KI.AggVal4
import proofs.«407852_j22428319219864_3_alg».proof.Proof.KI.AggVal5
import proofs.«407852_j22428319219864_3_alg».proof.Proof.KI.AggVal6
import proofs.«407852_j22428319219864_3_alg».proof.Proof.KI.ZztVal3
import proofs.«407852_j22428319219864_3_alg».proof.Proof.KI.ZztVal7
import proofs.«407852_j22428319219864_3_alg».proof.Proof.Spec

noncomputable section

namespace Cert.KernelIdeal.KerVal

open Cert.KernelIdeal Cert.KernelIdeal.Gen
open Idealize.ShloMosaic Idealize.ShloMosaic.TcCoe Idealize.ShloMosaic.ValueIdx
open Idealize.SL.Sem
open GcnSpec (Mat kerLayer gram)

variable (m : (ℓ : Loc nD τ sig) → Buf (Elt Ideal) ℓ) (c : Dev nD)

abbrev a0 : Mat 8192 512 := m ((c : Thread nD τ).loc main_arg0)
abbrev a4 : Mat 512 256 := m ((c : Thread nD τ).loc main_arg4)
abbrev a5 : Mat 256 128 := m ((c : Thread nD τ).loc main_arg5)
abbrev a6 : Mat 128 64 := m ((c : Thread nD τ).loc main_arg6)
abbrev a7 : Mat 64 128 := m ((c : Thread nD τ).loc main_arg7)
abbrev a8 : Mat 128 256 := m ((c : Thread nD τ).loc main_arg8)
abbrev a9 : Mat 256 512 := m ((c : Thread nD τ).loc main_arg9)

theorem layer_congr {n k d : ℕ} (act : EReal → EReal) {a a' : Mat n n} {x x' : Mat n k} {w w' : Mat k d}
    (ha : a = a') (hx : x = x') (hw : w = w') : kerLayer act a x w = kerLayer act a' x' w' := by
  rw [ha, hx, hw]

theorem sig_congr {n k : ℕ} {z z' : Mat n k} (hz : z = z') :
    (fun i => Ideal.logistic (gram z i)) = fun i => Ideal.logistic (gram z' i) := by
  rw [hz]

theorem res22_o6 : Run.res22 (F := Ideal) m c = Run.o6 m c :=
  (HostVals.V16_v22 m (Run.outsOf m) c).trans (Run.outsOf_6 m 6 c)
theorem res24_o8 : Run.res24 (F := Ideal) m c = Run.o8 m c :=
  (HostVals.V16_v24 m (Run.outsOf m) c).trans (Run.outsOf_8 m 8 c)
theorem res31_o14 : Run.res31 (F := Ideal) m c = Run.o14 m c :=
  (HostVals.V16_v31 m (Run.outsOf m) c).trans (Run.outsOf_14 m 14 c)
theorem res33_o16 : Run.res33 (F := Ideal) m c = Run.o16 m c :=
  (HostVals.V16_v33 m (Run.outsOf m) c).trans (Run.outsOf_16 m 16 c)

section layers

variable (hrow : ∀ e, 0 ≤ (HostVals.rowW m c e).toInt ∧ (HostVals.rowW m c e).toInt < 8192)
  (hcol : ∀ e, 0 ≤ (HostVals.colW m c e).toInt ∧ (HostVals.colW m c e).toInt < 8192)

theorem o2_eq : (Run.o2 (F := Ideal) m c : Mat 8192 256)
    = kerLayer Ideal.tanh (HostVals.adjOf m c hrow hcol) (a0 m c) (a4 m c) := by
  have e : Run.o2 (F := Ideal) m c = (Agg0.dat0 (Run.En1 m) c).arrAt 3 cfg0.N := by
    unfold Run.o2; rw [Run.EnX1]
  exact e.trans <| (AggVal0.final0 (Run.En1 m) c).trans <|
    layer_congr Ideal.tanh (HostVals.V1_v15 m c hrow hcol) (HostVals.V1_v16 m c) (HostVals.V1_v17 m c)

theorem o4_eq : (Run.o4 (F := Ideal) m c : Mat 8192 128)
    = kerLayer Ideal.tanh (HostVals.adjOf m c hrow hcol) (Run.o2 (F := Ideal) m c) (a5 m c) := by
  have e : Run.o4 (F := Ideal) m c = (Agg1.dat1 (Run.En3 m) c).arrAt 3 cfg1.N := by
    unfold Run.o4; rw [Run.EnX3]
  exact e.trans <| (AggVal1.final1 (Run.En3 m) c).trans <|
    layer_congr Ideal.tanh
      ((HostVals.V3_v15 m (Run.outsOf m) c).trans (HostVals.V1_v15 m c hrow hcol))
      ((HostVals.V3_v18 m (Run.outsOf m) c).trans (Run.outsOf_2 m 2 c))
      (HostVals.V3_v19 m (Run.outsOf m) c)

theorem o6_eq : (Run.o6 (F := Ideal) m c : Mat 8192 64)
    = kerLayer id (HostVals.adjOf m c hrow hcol) (Run.o4 (F := Ideal) m c) (a6 m c) := by
  have e : Run.o6 (F := Ideal) m c = (Agg2.dat2 (Run.En5 m) c).arrAt 3 cfg2.N := by
    unfold Run.o6; rw [Run.EnX5]
  exact e.trans <| (AggVal2.final2 (Run.En5 m) c).trans <|
    layer_congr id
      ((HostVals.V5_v15 m (Run.outsOf m) c).trans (HostVals.V1_v15 m c hrow hcol))
      ((HostVals.V5_v20 m (Run.outsOf m) c).trans (Run.outsOf_4 m 4 c))
      (HostVals.V5_v21 m (Run.outsOf m) c)

theorem o10_eq : (Run.o10 (F := Ideal) m c : Mat 8192 128)
    = kerLayer Ideal.tanh (HostVals.adjOf m c hrow hcol) (Run.o6 (F := Ideal) m c) (a7 m c) := by
  have e : Run.o10 (F := Ideal) m c = (Agg4.dat4 (Run.En9 m) c).arrAt 3 cfg4.N := by
    unfold Run.o10; rw [Run.EnX9]
  exact e.trans <| (AggVal4.final4 (Run.En9 m) c).trans <|
    layer_congr Ideal.tanh
      ((HostVals.V9_v15 m (Run.outsOf m) c).trans (HostVals.V1_v15 m c hrow hcol))
      ((HostVals.V9_v25 m (Run.outsOf m) c).trans (Run.outsOf_6 m 6 c))
      (HostVals.V9_v26 m (Run.outsOf m) c)

theorem o12_eq : (Run.o12 (F := Ideal) m c : Mat 8192 256)
    = kerLayer Ideal.tanh (HostVals.adjOf m c hrow hcol) (Run.o10 (F := Ideal) m c) (a8 m c) := by
  have e : Run.o12 (F := Ideal) m c = (Agg5.dat5 (Run.En11 m) c).arrAt 3 cfg5.N := by
    unfold Run.o12; rw [Run.EnX11]
  exact e.trans <| (AggVal5.final5 (Run.En11 m) c).trans <|
    layer_congr Ideal.tanh
      ((HostVals.V11_v15 m (Run.outsOf m) c).trans (HostVals.V1_v15 m c hrow hcol))
      ((HostVals.V11_v27 m (Run.outsOf m) c).trans (Run.outsOf_10 m 10 c))
      (HostVals.V11_v28 m (Run.outsOf m) c)

theorem o14_eq : (Run.o14 (F := Ideal) m c : Mat 8192 512)
    = kerLayer Ideal.tanh (HostVals.adjOf m c hrow hcol) (Run.o12 (F := Ideal) m c) (a9 m c) := by
  have e : Run.o14 (F := Ideal) m c = (Agg6.dat6 (Run.En13 m) c).arrAt 3 cfg6.N := by
    unfold Run.o14; rw [Run.EnX13]
  exact e.trans <| (AggVal6.final6 (Run.En13 m) c).trans <|
    layer_congr Ideal.tanh
      ((HostVals.V13_v15 m (Run.outsOf m) c).trans (HostVals.V1_v15 m c hrow hcol))
      ((HostVals.V13_v29 m (Run.outsOf m) c).trans (Run.outsOf_12 m 12 c))
      (HostVals.V13_v30 m (Run.outsOf m) c)

end layers

theorem o8_eq : (Run.o8 (F := Ideal) m c : Mat 8192 8192)
    = fun i => Ideal.logistic (gram (Run.o6 (F := Ideal) m c : Mat 8192 64) i) := by
  have e : Run.o8 (F := Ideal) m c = (Zzt3.dat3 (Run.En7 m) c).arrAt 2 cfg3.N := by
    unfold Run.o8; rw [Run.EnX7]
  exact e.trans <| (ZztVal3.final3 (Run.En7 m) c).trans <|
    sig_congr ((HostVals.V7_v23 m (Run.outsOf m) c).trans (Run.outsOf_6 m 6 c))

theorem o16_eq : (Run.o16 (F := Ideal) m c : Mat 8192 8192)
    = fun i => Ideal.logistic (gram (Run.o14 (F := Ideal) m c : Mat 8192 512) i) := by
  have e : Run.o16 (F := Ideal) m c = (Zzt7.dat7 (Run.En15 m) c).arrAt 2 cfg7.N := by
    unfold Run.o16; rw [Run.EnX15]
  exact e.trans <| (ZztVal7.final7 (Run.En15 m) c).trans <|
    sig_congr ((HostVals.V15_v32 m (Run.outsOf m) c).trans (Run.outsOf_14 m 14 c))

section results

variable (hrow : ∀ e, 0 ≤ (HostVals.rowW m c e).toInt ∧ (HostVals.rowW m c e).toInt < 8192)
  (hcol : ∀ e, 0 ≤ (HostVals.colW m c e).toInt ∧ (HostVals.colW m c e).toInt < 8192)

theorem ker_z : (Run.res22 (F := Ideal) m c : Mat 8192 64)
    = kerLayer id (HostVals.adjOf m c hrow hcol)
        (kerLayer Ideal.tanh (HostVals.adjOf m c hrow hcol)
          (kerLayer Ideal.tanh (HostVals.adjOf m c hrow hcol) (a0 m c) (a4 m c)) (a5 m c)) (a6 m c) :=
  (res22_o6 m c).trans <| (o6_eq m c hrow hcol).trans <|
    layer_congr id rfl
      ((o4_eq m c hrow hcol).trans (layer_congr Ideal.tanh rfl (o2_eq m c hrow hcol) rfl)) rfl

theorem ker_zadj : (Run.res24 (F := Ideal) m c : Mat 8192 8192)
    = fun i => Ideal.logistic (gram (Run.res22 (F := Ideal) m c : Mat 8192 64) i) :=
  (res24_o8 m c).trans <| (o8_eq m c).trans <| sig_congr (res22_o6 m c).symm

theorem ker_xhat : (Run.res31 (F := Ideal) m c : Mat 8192 512)
    = kerLayer Ideal.tanh (HostVals.adjOf m c hrow hcol)
        (kerLayer Ideal.tanh (HostVals.adjOf m c hrow hcol)
          (kerLayer Ideal.tanh (HostVals.adjOf m c hrow hcol) (Run.res22 (F := Ideal) m c) (a7 m c)) (a8 m c)) (a9 m c) :=
  (res31_o14 m c).trans <| (o14_eq m c hrow hcol).trans <|
    layer_congr Ideal.tanh rfl
      ((o12_eq m c hrow hcol).trans (layer_congr Ideal.tanh rfl
        ((o10_eq m c hrow hcol).trans (layer_congr Ideal.tanh rfl (res22_o6 m c).symm rfl)) rfl)) rfl

theorem ker_adjhat : (Run.res33 (F := Ideal) m c : Mat 8192 8192)
    = fun i => Ideal.logistic (gram (Run.res31 (F := Ideal) m c : Mat 8192 512) i) :=
  (res33_o16 m c).trans <| (o16_eq m c).trans <| sig_congr (res31_o14 m c).symm

end results

end Cert.KernelIdeal.KerVal

end
-- ==== Proof.LibGather2.lean ====
import Idealize.ShloMosaic.PureOps
import Idealize.ShloMosaic.Lib.ValueIdx

noncomputable section

namespace Cert.LibGather2

open Idealize.ShloMosaic Idealize.ShloMosaic.ValueIdx

variable {α : Type}

theorem gather_rows_apply {N C P w : Nat} (hN : 0 < N)
    (d : GatherDims ⟨2, ![N, C]⟩ ⟨2, ![P, 1]⟩ ⟨2, ![P, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![P, 1]⟩ w) (p : Fin P) (c : Fin C) :
    Host.gather d x idx (ix2 p c)
      = x (ix2 (⟨min (idx (ix2 p (0 : Fin 1))).toInt.toNat (N - 1), by omega⟩ : Fin N) c) := by
  unfold Host.gather
  congr 1
  funext a
  apply Fin.ext

  have hb : ∀ a : Fin 2, a ∉ d.operandBatchingDims := fun a => by rw [hob]; exact List.not_mem_nil
  match a with
  | ⟨0, _⟩ =>

    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 p (0 : Fin 1))).toInt.toNat (N - 1)
    rw [hsl]

    congr 3
    congr 1
    funext b
    match b with
    | ⟨0, _⟩ =>

      unfold GatherDims.siIdx
      rw [dif_neg (by rw [hivd]; simp)]
      unfold GatherDims.siCoord
      apply Fin.ext
      simp only [Fin.val_cast]
      have e : ∀ X : Fin 2, X ∈ d.batchDims → ((ix2 p c : (⟨2, ![P, C]⟩ : Shape).Idx) X).val = p.val := fun X hX => by
        have hX1 : X ∉ d.offsetDims := by
          have := (List.mem_filter.1 hX).2
          simpa using this
        rw [hoff] at hX1
        match X with
        | ⟨0, _⟩ => rfl
        | ⟨1, _⟩ => exact absurd (List.mem_singleton.mpr rfl) hX1
      exact e _ (List.getElem_mem _)
    | ⟨1, _⟩ =>

      unfold GatherDims.siIdx
      rw [dif_pos (by rw [hivd])]
      apply Fin.ext
      show List.idxOf (0 : Fin 2) d.startIndexMap = 0
      rw [hsim]; simp
  | ⟨1, _⟩ =>

    have hk : (1 : Fin 2) ∈ d.sKept := by rw [GatherDims.mem_sKept, hcoll, hob]; simp
    have hm : (1 : Fin 2) ∉ d.startIndexMap := by rw [hsim]; simp
    show d.start (ix2 p c) idx 1 + d.batchCoord (ix2 p c) 1 + d.offCoord (ix2 p c) 1 = c.val
    rw [GatherDims.batchCoord_eq_zero _ _ _ (hb 1), Nat.add_zero]
    unfold GatherDims.start GatherDims.offCoord
    rw [dif_neg hm, dif_pos hk, Nat.zero_add]
    have e : ∀ X : Fin 2, X ∈ d.offsetDims → ((ix2 p c : (⟨2, ![P, C]⟩ : Shape).Idx) X).val = c.val := fun X hX => by
      rw [hoff] at hX
      obtain rfl := List.mem_singleton.1 hX
      rfl
    exact e _ (List.getElem_mem _)

end Cert.LibGather2

end
-- ==== Proof.LibScatterHost.lean ====
import Idealize.ShloMosaic.PureOps.Ideal
import Idealize.ShloMosaic.PureOps.Contract
import Idealize.ShloMosaic.Lib.ValueIdx
import proofs.«407852_j22428319219864_3_alg».proof.Proof.LibScatterRows

noncomputable section

namespace Idealize.ShloMosaic.ScatterRows

open Idealize.ShloMosaic Idealize.ShloMosaic.ValueIdx

variable {R C N : Nat}

theorem host_scatterAdd_apply (wf : ScatterDims.WF (⟨2, ![R, C]⟩ : Shape) ⟨2, ![N, 1]⟩ ⟨2, ![N, C]⟩ [1] [0] [0] 1) {w : Nat}
    (z : (⟨2, ![R, C]⟩ : Shape).Idx → EReal) (idx : IVec ⟨2, ![N, 1]⟩ w) (upd : (⟨2, ![N, C]⟩ : Shape).Idx → EReal)
    (r : Fin R) (c : Fin C) :
    Host.scatterAdd (F := Ideal) (φ := .f32) (dims2 wf) z idx upd (ix2 r c)
      = z (ix2 r c) + ∑ n : Fin N, if (idx (ix2 n (0 : Fin 1))).toInt = (r.val : Int) then upd (ix2 n c) else 0 :=
  scatterAdd_apply wf z idx upd r c

end Idealize.ShloMosaic.ScatterRows

end
-- ==== Proof.RefVal.lean ====
import proofs.«407852_j22428319219864_3_alg».proof.Proof.Gen.ReferenceIdeal.Run
import proofs.«407852_j22428319219864_3_alg».proof.Proof.Gen.ReferenceIdeal.Read
import proofs.«407852_j22428319219864_3_alg».proof.Proof.Spec
import proofs.«407852_j22428319219864_3_alg».proof.Proof.LibGather2
import proofs.«407852_j22428319219864_3_alg».proof.Proof.LibScatterHost
import Idealize.ShloMosaic.Lib.DynamicIndex
import Idealize.ShloMosaic.Lib.IdealHost
import Idealize.ShloMosaic.Lib.StackMember

noncomputable section

namespace Cert.RefVal

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx GcnSpec

variable (x0 : (⟨S8192x512, .f32⟩ : BufTy).Contents (Elt Ideal)) (x1 x2 : (⟨S131072, .i32⟩ : BufTy).Contents (Elt Ideal)) (x3 : (⟨S131072, .f32⟩ : BufTy).Contents (Elt Ideal)) (x4 : (⟨S512x256, .f32⟩ : BufTy).Contents (Elt Ideal)) (x5 : (⟨S256x128, .f32⟩ : BufTy).Contents (Elt Ideal)) (x6 : (⟨S128x64, .f32⟩ : BufTy).Contents (Elt Ideal)) (x7 : (⟨S64x128, .f32⟩ : BufTy).Contents (Elt Ideal)) (x8 : (⟨S128x256, .f32⟩ : BufTy).Contents (Elt Ideal)) (x9 : (⟨S256x512, .f32⟩ : BufTy).Contents (Elt Ideal))
  (hrow : ∀ e, 0 ≤ (x1 e).toInt ∧ (x1 e).toInt < (8192 : Int)) (hcol : ∀ e, 0 ≤ (x2 e).toInt ∧ (x2 e).toInt < (8192 : Int))

/-- Every rank-2 index is a pair of coordinates. -/
theorem ix2_surj {n m : Nat} (i : (⟨2, ![n, m]⟩ : Shape).Idx) : ∃ (r : Fin n) (q : Fin m), i = ix2 r q := ⟨i 0, i 1, eq_ix2 i⟩

/-- A vector laid out as one column reads, at row `e`, the vector's entry `e`. -/
theorem bcol {α : Type} {h : S131072.BroadcastsInDim S131072x1 ![0]} (y : S131072.Idx → α) (e : Fin 131072) :
    broadcastInDim S131072x1 ![0] h y (ix2 e (0 : Fin 1)) = y (ix1 e) :=
  broadcastInDim_apply _ h y _ _ fun a => match a with | ⟨0, _⟩ => (if_neg (by decide : ¬(131072 : Nat) = 1)).symm

/-- A column repeated along `D` columns reads, at `(e, c)`, the column's entry `e`. -/
theorem bwgt {α : Type} {D : Nat} {h : S131072x1.BroadcastsInDim ⟨2, ![131072, D]⟩ ![0, 1]} (y : S131072x1.Idx → α) (e : Fin 131072) (c : Fin D) :
    broadcastInDim ⟨2, ![131072, D]⟩ ![0, 1] h y (ix2 e c) = y (ix2 e (0 : Fin 1)) :=
  broadcastInDim_apply _ h y _ _ fun a => match a with | ⟨0, _⟩ => (if_neg (by decide : ¬(131072 : Nat) = 1)).symm | ⟨1, _⟩ => (if_pos rfl).symm

/-- The activated plain matrix product is the activated sum over the contracted coordinate. -/
theorem sup_eq {K D : Nat} (act : EReal → EReal) (x : Mat 8192 K) (w : Mat K D) :
    (fun i => act (Host.dotGeneral (F := Ideal) (φ₁ := .f32) (φ₂ := .f32) (DotDims.plain 8192 K D) none x w i)) = support act x w := by
  funext i
  obtain ⟨r, q, rfl⟩ := ix2_surj i
  rw [StackMember.dotGeneral_plain_apply]
  rfl

/-- One layer at any widths: an index in [0, 8192) is neither wrapped nor clamped, so it is the edge-list aggregation. -/
theorem layer_eq {K D : Nat} (act : EReal → EReal)
    {wf : ScatterDims.WF (⟨2, ![8192, D]⟩ : Shape) ⟨2, ![131072, 1]⟩ ⟨2, ![131072, D]⟩ [1] [0] [0] 1}
    {gwf : GatherDims.WF (⟨2, ![8192, D]⟩ : Shape) ⟨2, ![131072, 1]⟩ ⟨2, ![131072, D]⟩ [1] [0] [] [0] [] 1 ![1, D]}
    {h0 : S_.BroadcastsInDim ⟨2, ![8192, D]⟩ ![]} {h1 : S131072.BroadcastsInDim S131072x1 ![0]}
    {h2 : S131072x1.BroadcastsInDim ⟨2, ![131072, D]⟩ ![0, 1]} (a : IVec S131072 32) (x : Mat 8192 K) (w : Mat K D) :
    Host.scatterAdd (F := Ideal) (φ := .f32) (ScatterRows.dims2 wf) (broadcastInDim _ ![] h0 (constant S_ .f32 0x00000000#32))
        (broadcastInDim S131072x1 ![0] h1 x1)
        (mulf (broadcastInDim _ ![0, 1] h2 (broadcastInDim S131072x1 ![0] h1 x3))
          (Host.gather ⟨[1], [0], [], [], [0], 1, ![1, D], gwf⟩
            (fun i => act (Host.dotGeneral (F := Ideal) (φ₁ := .f32) (φ₂ := .f32) (DotDims.plain 8192 K D) none x w i))
            (broadcastInDim S131072x1 ![0] h1 (select (cmpi .slt x2 (constantI S131072 32 0#32)) a x2))))
      = refLayer act (idxFin 8192 x1 hrow) (idxFin 8192 x2 hcol) (vecFin x3) x w := by
  rw [sup_eq]
  funext i
  obtain ⟨r, q, rfl⟩ := ix2_surj i
  rw [ScatterRows.host_scatterAdd_apply wf, broadcastInDim_scalar_apply, constant_apply, Ideal.ofBits_zero_f32, zero_add]
  unfold refLayer edgeAgg
  refine Finset.sum_congr rfl fun e _ => ?_
  have hr := hrow (ix1 e)
  have hc := hcol (ix1 e)
  rw [bcol, mulf_apply, bwgt, bcol,
    LibGather2.gather_rows_apply (by decide) ⟨[1], [0], [], [], [0], 1, ![1, D], gwf⟩ rfl rfl rfl rfl rfl rfl rfl]
  refine if_congr ?_ (congrArg (fun k => x3 (ix1 e) * support act x w (ix2 k q)) (Fin.ext ?_)) rfl
  · show _ ↔ (x1 (ix1 e)).toInt.toNat = r.val
    omega
  · show min (BitVec.toInt _).toNat (8192 - 1) = (x2 (ix1 e)).toInt.toNat
    rw [bcol, select_slt_zero_of_nonneg x2 _ _ _ hc.1]
    exact min_eq_left (by omega)

theorem layer1 : val_main_v14 (F := Ideal) x0 x1 x2 x3 x4 = refLayer Ideal.tanh (idxFin 8192 x1 hrow) (idxFin 8192 x2 hcol) (vecFin x3) x0 x4 :=
  layer_eq x1 x2 x3 hrow hcol _ _ _ _

theorem layer2 : val_main_v29 (F := Ideal) x0 x1 x2 x3 x4 x5 = refLayer Ideal.tanh (idxFin 8192 x1 hrow) (idxFin 8192 x2 hcol) (vecFin x3) (val_main_v14 (F := Ideal) x0 x1 x2 x3 x4) x5 :=
  layer_eq x1 x2 x3 hrow hcol _ _ _ _

theorem layer3 : val_main_v43 (F := Ideal) x0 x1 x2 x3 x4 x5 x6 = refLayer id (idxFin 8192 x1 hrow) (idxFin 8192 x2 hcol) (vecFin x3) (val_main_v29 (F := Ideal) x0 x1 x2 x3 x4 x5) x6 :=
  layer_eq x1 x2 x3 hrow hcol id _ _ _

theorem layer4 : val_main_v66 (F := Ideal) x0 x1 x2 x3 x4 x5 x6 x7 = refLayer Ideal.tanh (idxFin 8192 x1 hrow) (idxFin 8192 x2 hcol) (vecFin x3) (val_main_v43 (F := Ideal) x0 x1 x2 x3 x4 x5 x6) x7 :=
  layer_eq x1 x2 x3 hrow hcol _ _ _ _

theorem layer5 : val_main_v81 (F := Ideal) x0 x1 x2 x3 x4 x5 x6 x7 x8 = refLayer Ideal.tanh (idxFin 8192 x1 hrow) (idxFin 8192 x2 hcol) (vecFin x3) (val_main_v66 (F := Ideal) x0 x1 x2 x3 x4 x5 x6 x7) x8 :=
  layer_eq x1 x2 x3 hrow hcol _ _ _ _

theorem layer6 : val_main_v96 (F := Ideal) x0 x1 x2 x3 x4 x5 x6 x7 x8 x9 = refLayer Ideal.tanh (idxFin 8192 x1 hrow) (idxFin 8192 x2 hcol) (vecFin x3) (val_main_v81 (F := Ideal) x0 x1 x2 x3 x4 x5 x6 x7 x8) x9 :=
  layer_eq x1 x2 x3 hrow hcol _ _ _ _

/-- The code: three layers, the last without activation. -/
theorem ref_z : val_main_v43 (F := Ideal) x0 x1 x2 x3 x4 x5 x6 = (refLayer id (idxFin 8192 x1 hrow) (idxFin 8192 x2 hcol) (vecFin x3) (refLayer Ideal.tanh (idxFin 8192 x1 hrow) (idxFin 8192 x2 hcol) (vecFin x3) (refLayer Ideal.tanh (idxFin 8192 x1 hrow) (idxFin 8192 x2 hcol) (vecFin x3) x0 x4) x5) x6) := by
  rw [layer3 x0 x1 x2 x3 x4 x5 x6 hrow hcol, layer2 x0 x1 x2 x3 x4 x5 hrow hcol, layer1 x0 x1 x2 x3 x4 hrow hcol]

/-- The product of a matrix with its transpose is its Gram matrix. -/
theorem gram_eq {k : Nat} {ht : (⟨2, ![8192, k]⟩ : Shape).Transposes [1, 0] ⟨2, ![k, 8192]⟩} (y : Mat 8192 k) :
    Host.dotGeneral (F := Ideal) (φ₁ := .f32) (φ₂ := .f32) (DotDims.plain 8192 k 8192) none y (transpose ⟨2, ![k, 8192]⟩ [1, 0] y ht) = gram y := by
  funext i
  obtain ⟨r, q, rfl⟩ := ix2_surj i
  rw [StackMember.dotGeneral_plain_apply]
  exact Finset.sum_congr rfl fun c _ => congrArg (y _ * ·) (transpose_apply [1, 0] y ht _ (ix2 q c) fun b => match b with | ⟨0, _⟩ => rfl | ⟨1, _⟩ => rfl)

/-- The quotient 1 / (1 + exp (−t)) entry by entry, at the Gram matrix of `y`. -/
theorem sigGram_eq {k : Nat} {hb : S_.BroadcastsInDim S8192x8192 ![]} {ht : (⟨2, ![8192, k]⟩ : Shape).Transposes [1, 0] ⟨2, ![k, 8192]⟩} (y : Mat 8192 k) :
    Host.divf (F := Ideal) (φ := .f32) (broadcastInDim S8192x8192 ![] hb (constant S_ .f32 0x3F800000#32))
        (addf (broadcastInDim S8192x8192 ![] hb (constant S_ .f32 0x3F800000#32))
          (Host.exp (Host.negf (Host.dotGeneral (φ₁ := .f32) (φ₂ := .f32) (DotDims.plain 8192 k 8192) none y (transpose ⟨2, ![k, 8192]⟩ [1, 0] y ht)))))
      = fun i => sigRef (gram y i) := by
  rw [gram_eq]
  funext i
  show Ideal.div (Ideal.ofBits .f32 0x3F800000#32) (Ideal.ofBits .f32 0x3F800000#32 + Ideal.exp (-gram y i)) = _
  rw [Ideal.ofBits_one_f32]
  rfl

/-- The first reported matrix: the logistic function of the code's Gram matrix. -/
theorem ref_zadj : val_main_v51 (F := Ideal) x0 x1 x2 x3 x4 x5 x6 = fun i => sigRef (gram (refLayer id (idxFin 8192 x1 hrow) (idxFin 8192 x2 hcol) (vecFin x3) (refLayer Ideal.tanh (idxFin 8192 x1 hrow) (idxFin 8192 x2 hcol) (vecFin x3) (refLayer Ideal.tanh (idxFin 8192 x1 hrow) (idxFin 8192 x2 hcol) (vecFin x3) x0 x4) x5) x6) i) := by
  rw [← ref_z x0 x1 x2 x3 x4 x5 x6 hrow hcol]
  exact sigGram_eq _

/-- The reconstruction: three more layers on the code. -/
theorem ref_xhat : val_main_v96 (F := Ideal) x0 x1 x2 x3 x4 x5 x6 x7 x8 x9 = (refLayer Ideal.tanh (idxFin 8192 x1 hrow) (idxFin 8192 x2 hcol) (vecFin x3) (refLayer Ideal.tanh (idxFin 8192 x1 hrow) (idxFin 8192 x2 hcol) (vecFin x3) (refLayer Ideal.tanh (idxFin 8192 x1 hrow) (idxFin 8192 x2 hcol) (vecFin x3) (refLayer id (idxFin 8192 x1 hrow) (idxFin 8192 x2 hcol) (vecFin x3) (refLayer Ideal.tanh (idxFin 8192 x1 hrow) (idxFin 8192 x2 hcol) (vecFin x3) (refLayer Ideal.tanh (idxFin 8192 x1 hrow) (idxFin 8192 x2 hcol) (vecFin x3) x0 x4) x5) x6) x7) x8) x9) := by
  rw [layer6 x0 x1 x2 x3 x4 x5 x6 x7 x8 x9 hrow hcol, layer5 x0 x1 x2 x3 x4 x5 x6 x7 x8 hrow hcol, layer4 x0 x1 x2 x3 x4 x5 x6 x7 hrow hcol, ref_z x0 x1 x2 x3 x4 x5 x6 hrow hcol]

/-- The second reported matrix: the logistic function of the reconstruction's Gram matrix. -/
theorem ref_adjhat : val_main_v104 (F := Ideal) x0 x1 x2 x3 x4 x5 x6 x7 x8 x9 = fun i => sigRef (gram (refLayer Ideal.tanh (idxFin 8192 x1 hrow) (idxFin 8192 x2 hcol) (vecFin x3) (refLayer Ideal.tanh (idxFin 8192 x1 hrow) (idxFin 8192 x2 hcol) (vecFin x3) (refLayer Ideal.tanh (idxFin 8192 x1 hrow) (idxFin 8192 x2 hcol) (vecFin x3) (refLayer id (idxFin 8192 x1 hrow) (idxFin 8192 x2 hcol) (vecFin x3) (refLayer Ideal.tanh (idxFin 8192 x1 hrow) (idxFin 8192 x2 hcol) (vecFin x3) (refLayer Ideal.tanh (idxFin 8192 x1 hrow) (idxFin 8192 x2 hcol) (vecFin x3) x0 x4) x5) x6) x7) x8) x9) i) := by
  rw [← ref_xhat x0 x1 x2 x3 x4 x5 x6 x7 x8 x9 hrow hcol]
  exact sigGram_eq _

end Cert.RefVal

end
-- ==== Proof.Algebra.lean ====
import proofs.«407852_j22428319219864_3_alg».proof.Proof.Spec

noncomputable section

namespace GcnSpec

open Idealize.ShloMosaic Idealize.ShloMosaic.ValueIdx

variable {n k d E : Nat}

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

theorem finite_support_tanh (x : Mat n k) (w : Mat k d) : Finite (support Ideal.tanh x w) := by
  intro i
  show ∃ r : ℝ, Ideal.tanh (∑ j : Fin k, x (ix2 (i 0) j) * w (ix2 j (i 1))) = (r : EReal)
  generalize (∑ j : Fin k, x (ix2 (i 0) j) * w (ix2 j (i 1))) = y
  induction y using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

theorem finite_support_id (x : Mat n k) (w : Mat k d) (hx : Finite x) (hw : Finite w) : Finite (support id x w) := by
  intro i
  show ∃ r : ℝ, ∑ j : Fin k, x (ix2 (i 0) j) * w (ix2 j (i 1)) = (r : EReal)
  exact real_sum _ _ (fun j => real_mul (hx _) (hw _))

theorem finite_edgeAgg (row col : Fin E → Fin n) (val : Fin E → EReal) (s : Mat n d)
    (hval : ∀ e, ∃ r : ℝ, val e = (r : EReal)) (hs : Finite s) : Finite (edgeAgg row col val s) := by
  intro i
  refine real_sum _ _ (fun e => ?_)
  split_ifs
  · exact real_mul (hval e) (hs _)
  · exact ⟨0, EReal.coe_zero.symm⟩

theorem real_regroup (row col : Fin E → Fin n) (v : Fin E → ℝ) (t : Fin n → ℝ) (r : Nat) :
    (∑ c : Fin n, (∑ e : Fin E, if (row e).val = r ∧ (col e).val = c.val then v e else 0) * t c)
      = ∑ e : Fin E, if (row e).val = r then v e * t (col e) else 0 := by
  classical
  simp_rw [Finset.sum_mul]
  rw [Finset.sum_comm]
  refine Finset.sum_congr rfl (fun e _ => ?_)
  by_cases hr : (row e).val = r
  · rw [if_pos hr]
    rw [Finset.sum_eq_single (col e)]
    · rw [if_pos ⟨hr, rfl⟩]
    · intro c _ hc
      have : ¬ ((row e).val = r ∧ (col e).val = c.val) := fun h => hc (Fin.ext h.2.symm)
      rw [if_neg this, zero_mul]
    · intro h; exact absurd (Finset.mem_univ _) h
  · rw [if_neg hr]
    refine Finset.sum_eq_zero (fun c _ => ?_)
    have : ¬ ((row e).val = r ∧ (col e).val = c.val) := fun h => hr h.1
    rw [if_neg this, zero_mul]

theorem denseAgg_adj (row col : Fin E → Fin n) (val : Fin E → EReal) (s : Mat n d)
    (hval : ∀ e, ∃ r : ℝ, val e = (r : EReal)) (hs : Finite s) :
    denseAgg (adj row col val) s = edgeAgg row col val s := by
  classical
  choose v hv using hval
  choose t ht using hs
  funext i
  show (∑ c : Fin n, (∑ e : Fin E, if (row e).val = (i 0).val ∧ (col e).val = c.val then val e else 0)
          * s (ix2 c (i 1)))
      = ∑ e : Fin E, if (row e).val = (i 0).val then val e * s (ix2 (col e) (i 1)) else 0
  have hl : ∀ c : Fin n,
      (∑ e : Fin E, if (row e).val = (i 0).val ∧ (col e).val = c.val then val e else 0) * s (ix2 c (i 1))
        = (((∑ e : Fin E, if (row e).val = (i 0).val ∧ (col e).val = c.val then v e else 0) * t (ix2 c (i 1)) : ℝ) : EReal) := by
    intro c
    rw [EReal.coe_mul, coe_sum, ht]
    congr 1
    refine Finset.sum_congr rfl (fun e _ => ?_)
    split_ifs
    · exact hv e
    · exact EReal.coe_zero.symm
  have hr : ∀ e : Fin E,
      (if (row e).val = (i 0).val then val e * s (ix2 (col e) (i 1)) else 0)
        = (((if (row e).val = (i 0).val then v e * t (ix2 (col e) (i 1)) else 0 : ℝ)) : EReal) := by
    intro e
    split_ifs
    · rw [EReal.coe_mul, hv, ht]
    · exact EReal.coe_zero.symm
  rw [Finset.sum_congr rfl (fun c _ => hl c), Finset.sum_congr rfl (fun e _ => hr e), ← coe_sum, ← coe_sum]
  exact congrArg _ (real_regroup row col v (fun c => t (ix2 c (i 1))) (i 0).val)

theorem kerLayer_eq_refLayer (act : EReal → EReal) (row col : Fin E → Fin n) (val : Fin E → EReal)
    (x : Mat n k) (w : Mat k d) (hval : ∀ e, ∃ r : ℝ, val e = (r : EReal)) (hs : Finite (support act x w)) :
    kerLayer act (adj row col val) x w = refLayer act row col val x w :=
  denseAgg_adj row col val (support act x w) hval hs

theorem logistic_eq_sigRef (t : EReal) : Ideal.logistic t = sigRef t := rfl

end GcnSpec

end
-- ==== Proof.Net.lean ====
import proofs.«407852_j22428319219864_3_alg».proof.Proof.Spec
import proofs.«407852_j22428319219864_3_alg».proof.Proof.Algebra

noncomputable section

namespace GcnSpec

open Idealize.ShloMosaic Idealize.ShloMosaic.ValueIdx

variable {n k E d0 d1 d2 d3 d4 d5 d6 : Nat}

theorem finite_refLayer_tanh (row col : Fin E → Fin n) (val : Fin E → EReal) (x : Mat n d0) (w : Mat d0 d1)
    (hval : ∀ e, ∃ r : ℝ, val e = (r : EReal)) : Finite (refLayer Ideal.tanh row col val x w) :=
  finite_edgeAgg row col val _ hval (finite_support_tanh x w)

theorem code_eq (row col : Fin E → Fin n) (val : Fin E → EReal)
    (x : Mat n d0) (w1 : Mat d0 d1) (w2 : Mat d1 d2) (w3 : Mat d2 d3)
    (hval : ∀ e, ∃ r : ℝ, val e = (r : EReal)) (hw3 : Finite w3) :
    kerLayer id (adj row col val)
        (kerLayer Ideal.tanh (adj row col val) (kerLayer Ideal.tanh (adj row col val) x w1) w2) w3
      = refLayer id row col val
        (refLayer Ideal.tanh row col val (refLayer Ideal.tanh row col val x w1) w2) w3 := by
  rw [kerLayer_eq_refLayer Ideal.tanh row col val x w1 hval (finite_support_tanh _ _),
    kerLayer_eq_refLayer Ideal.tanh row col val _ w2 hval (finite_support_tanh _ _)]
  exact kerLayer_eq_refLayer id row col val _ w3 hval
    (finite_support_id _ w3 (finite_refLayer_tanh row col val _ w2 hval) hw3)

theorem recon_eq (row col : Fin E → Fin n) (val : Fin E → EReal)
    (z : Mat n d3) (w4 : Mat d3 d4) (w5 : Mat d4 d5) (w6 : Mat d5 d6)
    (hval : ∀ e, ∃ r : ℝ, val e = (r : EReal)) :
    kerLayer Ideal.tanh (adj row col val)
        (kerLayer Ideal.tanh (adj row col val) (kerLayer Ideal.tanh (adj row col val) z w4) w5) w6
      = refLayer Ideal.tanh row col val
        (refLayer Ideal.tanh row col val (refLayer Ideal.tanh row col val z w4) w5) w6 := by
  rw [kerLayer_eq_refLayer Ideal.tanh row col val z w4 hval (finite_support_tanh _ _),
    kerLayer_eq_refLayer Ideal.tanh row col val _ w5 hval (finite_support_tanh _ _),
    kerLayer_eq_refLayer Ideal.tanh row col val _ w6 hval (finite_support_tanh _ _)]

theorem gramSig_eq (z : Mat n k) :
    (fun i => Ideal.logistic (gram z i)) = fun i => sigRef (gram z i) :=
  funext (fun i => logistic_eq_sigRef (gram z i))

end GcnSpec

end
-- ==== Proof.PreFacts.lean ====
import proofs.«407852_j22428319219864_3_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Cert.Pre_finite_inputs

variable [Cert.Pre_finite_inputs.Facts]

instance : Subsingleton S_.Idx := ⟨fun a b => funext fun d => d.elim0⟩

theorem inf_bits : (FloatOps.ofBits (F := Ideal) .f32 0x7F800000#32 : Ideal .f32) = (⊤ : EReal) := by
  show Ideal.ofBits .f32 0x7F800000#32 = ⊤
  simp [Ideal.ofBits, Ideal.ieee]

theorem real_of_abs_lt_top (x : EReal) (h : max x (-x) < (⊤ : EReal)) : ∃ r : ℝ, x = (r : EReal) := by
  induction x using EReal.rec with
  | bot => simp at h
  | coe r => exact ⟨r, rfl⟩
  | top => simp at h

theorem finite_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have e := Host.reduce_andi_all _ _ hr hu ValueIdx.ix0 h i
  simp only [cmpf, Host.absf, broadcastInDim, constant] at e
  rw [inf_bits] at e
  refine real_of_abs_lt_top (x i) ?_
  have e' : Ideal.cmp .olt (max (x i) (-(x i))) ⊤ = 1#1 := e
  simp only [Ideal.cmp] at e'
  by_contra hc
  rw [decide_eq_false hc] at e'
  exact absurd e' (by decide)

theorem range_of_all {s : Shape} {axes : List (Fin s.rank)} (w : IVec s 32)
    (hb : S_.BroadcastsInDim s (![] : Fin 0 → Fin s.rank)) (hr : s.ReducesTo axes S_) (hu : 0 < S_.numel)
    (h : Host.reduce IntOp.andi
          (andi (cmpi .sge w (broadcastInDim s ![] hb (constantI S_ 32 0#32)))
                (cmpi .slt w (broadcastInDim s ![] hb (constantI S_ 32 8192#32))))
          (constantI S_ 1 1#1) hr hu ValueIdx.ix0 = 1#1) :
    ∀ e, 0 ≤ (w e).toInt ∧ (w e).toInt < 8192 := by
  intro e
  have q := Host.reduce_andi_all _ _ hr hu ValueIdx.ix0 h e
  simp only [andi, cmpi, broadcastInDim, constantI] at q
  obtain ⟨q0, q1⟩ := IntOp.andi_eq_one.1 q
  rw [IntOp.cmpi_sge] at q0
  rw [IntOp.cmpi_slt] at q1
  exact ⟨q0, q1⟩

theorem vandi_eq_one {s : Shape} (x y : IVec s 1) (i : s.Idx) : andi x y i = 1#1 ↔ x i = 1#1 ∧ y i = 1#1 :=
  IntOp.andi_eq_one

section decode

variable {a0 : FVec Ideal S8192x512 .f32} {a1 : IVec S131072 32} {a2 : IVec S131072 32}
  {a3 : FVec Ideal S131072 .f32} {a4 : FVec Ideal S512x256 .f32} {a5 : FVec Ideal S256x128 .f32}
  {a6 : FVec Ideal S128x64 .f32} {a7 : FVec Ideal S64x128 .f32} {a8 : FVec Ideal S128x256 .f32}
  {a9 : FVec Ideal S256x512 .f32}

theorem decode (h : Cert.Pre_finite_inputs.fn (F := Ideal) a0 a1 a2 a3 a4 a5 a6 a7 a8 a9 = fun _ => 1#1) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal))
    ∧ (∀ e : S131072.Idx, 0 ≤ (a1 e).toInt ∧ (a1 e).toInt < 8192)
    ∧ (∀ e : S131072.Idx, 0 ≤ (a2 e).toInt ∧ (a2 e).toInt < 8192) := by
  have e := congrFun h ValueIdx.ix0
  dsimp only [fn, fn_part1, fn_part2, fn_part3] at e

  obtain ⟨e, hcol⟩ := (vandi_eq_one _ _ _).1 e
  obtain ⟨e, hrow⟩ := (vandi_eq_one _ _ _).1 e
  obtain ⟨e, h9⟩ := (vandi_eq_one _ _ _).1 e
  obtain ⟨e, h8⟩ := (vandi_eq_one _ _ _).1 e
  obtain ⟨e, h7⟩ := (vandi_eq_one _ _ _).1 e
  obtain ⟨e, h6⟩ := (vandi_eq_one _ _ _).1 e
  obtain ⟨e, h5⟩ := (vandi_eq_one _ _ _).1 e
  obtain ⟨e, h4⟩ := (vandi_eq_one _ _ _).1 e
  obtain ⟨h0, h3⟩ := (vandi_eq_one _ _ _).1 e
  exact ⟨finite_of_all a0 _ _ _ h0, finite_of_all a3 _ _ _ h3, finite_of_all a4 _ _ _ h4, finite_of_all a5 _ _ _ h5,
    finite_of_all a6 _ _ _ h6, finite_of_all a7 _ _ _ h7, finite_of_all a8 _ _ _ h8, finite_of_all a9 _ _ _ h9,
    range_of_all a1 _ _ _ hrow, range_of_all a2 _ _ _ hcol⟩

variable (h : Cert.Pre_finite_inputs.fn (F := Ideal) a0 a1 a2 a3 a4 a5 a6 a7 a8 a9 = fun _ => 1#1)
include h

theorem finite_arg3 : ∀ i : S131072.Idx, ∃ r : ℝ, a3 i = (r : EReal) := (decode h).2.1
theorem finite_arg6 : ∀ i : S128x64.Idx, ∃ r : ℝ, a6 i = (r : EReal) := (decode h).2.2.2.2.1
theorem row_inb : ∀ e : S131072.Idx, 0 ≤ (a1 e).toInt ∧ (a1 e).toInt < 8192 := (decode h).2.2.2.2.2.2.2.2.1
theorem col_inb : ∀ e : S131072.Idx, 0 ≤ (a2 e).toInt ∧ (a2 e).toInt < 8192 := (decode h).2.2.2.2.2.2.2.2.2

end decode

end Cert.PreFacts

end
-- ==== Proof.lean ====
import proofs.«407852_j22428319219864_3_alg».proof.Defs
import proofs.«407852_j22428319219864_3_alg».proof.Proof.Gen.Kernel
import proofs.«407852_j22428319219864_3_alg».proof.Proof.Gen.KernelIdeal
import proofs.«407852_j22428319219864_3_alg».proof.Proof.Gen.ReferenceIdeal
import proofs.«407852_j22428319219864_3_alg».proof.Proof.Gen.Pre_finite_inputs
import proofs.«407852_j22428319219864_3_alg».proof.Proof.K.Run
import proofs.«407852_j22428319219864_3_alg».proof.Proof.KI.Run
import proofs.«407852_j22428319219864_3_alg».proof.Proof.KI.KerVal
import proofs.«407852_j22428319219864_3_alg».proof.Proof.RefVal
import proofs.«407852_j22428319219864_3_alg».proof.Proof.Net
import proofs.«407852_j22428319219864_3_alg».proof.Proof.PreFacts

noncomputable section

namespace Cert.Proof

open Idealize.ShloMosaic Idealize.ShloMosaic.TcCoe Idealize.SL.Sem GcnSpec

theorem frame_k : Cert.frame_Kernel := fun m ρ _ =>
  (θ_run Cert.Kernel.defs _ _).mono (fun _ h c => (h c).2.2.2.2) (Cert.Kernel.Run.run_main (F := Bits) m ρ)

theorem frame_ki : Cert.frame_KernelIdeal := fun m ρ _ =>
  (θ_run Cert.KernelIdeal.defs _ _).mono (fun _ h c => (h c).2.2.2.2) (Cert.KernelIdeal.Run.run_main (F := Ideal) m ρ)

theorem frame_ri : Cert.frame_ReferenceIdeal := fun m ρ _ =>
  (θ_run Cert.ReferenceIdeal.defs _ _).mono (fun _ h c => (h c).2.2.2.2) (Cert.ReferenceIdeal.Value.run (F := Ideal) m ρ)

theorem algebraic : Cert.algebraic_KernelIdeal_ReferenceIdeal := by
  intro m ρ m' ρ' hpre hagree
  refine ⟨fun c => Cert.KernelIdeal.Run.res22 (F := Ideal) m c, fun c => Cert.KernelIdeal.Run.res24 (F := Ideal) m c,
    fun c => Cert.KernelIdeal.Run.res31 (F := Ideal) m c, fun c => Cert.KernelIdeal.Run.res33 (F := Ideal) m c,
    Cert.KernelIdeal.Run.run_main (F := Ideal) m ρ, ?_⟩
  refine (θ_run Cert.ReferenceIdeal.defs _ _).mono (fun r h c => ?_) (Cert.ReferenceIdeal.Value.run (F := Ideal) m' ρ')
  obtain ⟨h43, h51, h96, h104, hargs⟩ := h c
  obtain ⟨e0, e1, e2, e3, e4, e5, e6, e7, e8, e9⟩ := hagree c

  have hrow := Cert.PreFacts.row_inb (hpre c)
  have hcol := Cert.PreFacts.col_inb (hpre c)
  have hval := Cert.PreFacts.finite_arg3 (hpre c)
  have hw3 := Cert.PreFacts.finite_arg6 (hpre c)
  have hvalF : ∀ e : Fin 131072, ∃ q : ℝ, vecFin (m ((c.tc : Thread Cert.KernelIdeal.nD Cert.KernelIdeal.τ).loc Cert.KernelIdeal.main_arg3)) e = (q : EReal) :=
    fun e => hval (Idealize.ShloMosaic.ValueIdx.ix1 e)

  have hz : (Cert.KernelIdeal.Run.res22 (F := Ideal) m c : Mat 8192 64)
      = refLayer id (idxFin 8192 _ hrow) (idxFin 8192 _ hcol) (vecFin (m ((c.tc : Thread Cert.KernelIdeal.nD Cert.KernelIdeal.τ).loc Cert.KernelIdeal.main_arg3)))
          (refLayer Ideal.tanh (idxFin 8192 _ hrow) (idxFin 8192 _ hcol) (vecFin (m ((c.tc : Thread Cert.KernelIdeal.nD Cert.KernelIdeal.τ).loc Cert.KernelIdeal.main_arg3)))
            (refLayer Ideal.tanh (idxFin 8192 _ hrow) (idxFin 8192 _ hcol) (vecFin (m ((c.tc : Thread Cert.KernelIdeal.nD Cert.KernelIdeal.τ).loc Cert.KernelIdeal.main_arg3)))
              (m ((c.tc : Thread Cert.KernelIdeal.nD Cert.KernelIdeal.τ).loc Cert.KernelIdeal.main_arg0)) (m ((c.tc : Thread Cert.KernelIdeal.nD Cert.KernelIdeal.τ).loc Cert.KernelIdeal.main_arg4)))
            (m ((c.tc : Thread Cert.KernelIdeal.nD Cert.KernelIdeal.τ).loc Cert.KernelIdeal.main_arg5)))
          (m ((c.tc : Thread Cert.KernelIdeal.nD Cert.KernelIdeal.τ).loc Cert.KernelIdeal.main_arg6)) :=
    (Cert.KernelIdeal.KerVal.ker_z m c hrow hcol).trans (code_eq _ _ _ _ _ _ _ hvalF hw3)

  have hx : (Cert.KernelIdeal.Run.res31 (F := Ideal) m c : Mat 8192 512) = _ :=
    (Cert.KernelIdeal.KerVal.ker_xhat m c hrow hcol).trans (recon_eq _ _ _ _ _ _ _ hvalF)
  refine ⟨?_, ?_, ?_, ?_, hargs⟩
  · beta_reduce
    rw [h43, Cert.ReferenceIdeal.Read.val_main_v43_eq, e0, e1, e2, e3, e4, e5, e6, Cert.RefVal.ref_z _ _ _ _ _ _ _ hrow hcol]
    exact hz.symm
  · beta_reduce
    rw [h51, Cert.ReferenceIdeal.Read.val_main_v51_eq, e0, e1, e2, e3, e4, e5, e6, Cert.RefVal.ref_zadj _ _ _ _ _ _ _ hrow hcol]
    refine ((Cert.KernelIdeal.KerVal.ker_zadj m c).trans ?_).symm
    rw [hz]; exact gramSig_eq _
  · beta_reduce
    rw [h96, Cert.ReferenceIdeal.Read.val_main_v96_eq, e0, e1, e2, e3, e4, e5, e6, e7, e8, e9, Cert.RefVal.ref_xhat _ _ _ _ _ _ _ _ _ _ hrow hcol]
    rw [hx, hz]
  · beta_reduce
    rw [h104, Cert.ReferenceIdeal.Read.val_main_v104_eq, e0, e1, e2, e3, e4, e5, e6, e7, e8, e9, Cert.RefVal.ref_adjhat _ _ _ _ _ _ _ _ _ _ hrow hcol]
    refine ((Cert.KernelIdeal.KerVal.ker_adjhat m c).trans ?_).symm
    rw [hx, hz]; exact gramSig_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
